-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x2048 : Shape := ⟨2, ![256, 2048]⟩
abbrev S2048x256 : Shape := ⟨2, ![2048, 256]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S256x2048 .f32) (main_arg1 : FVec F S2048x256 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S256x2048 : Shape := ⟨2, ![256, 2048]⟩
abbrev S2048x256 : Shape := ⟨2, ![2048, 256]⟩
abbrev S7x256x2048 : Shape := ⟨3, ![7, 256, 2048]⟩
abbrev S3 : Shape := ⟨1, ![3]⟩
abbrev S6 : Shape := ⟨1, ![6]⟩
abbrev S_ : Shape := ⟨0, ![]⟩
abbrev S1 : Shape := ⟨1, ![1]⟩
abbrev S1x256x2048 : Shape := ⟨3, ![1, 256, 2048]⟩
abbrev S256x256 : Shape := ⟨2, ![256, 256]⟩
abbrev S1x128x2048 : Shape := ⟨3, ![1, 128, 2048]⟩
abbrev S128x2048 : Shape := ⟨2, ![128, 2048]⟩
abbrev S1x80x2048 : Shape := ⟨3, ![1, 80, 2048]⟩
abbrev S80x2048 : Shape := ⟨2, ![80, 2048]⟩
abbrev S1x88x2048 : Shape := ⟨3, ![1, 88, 2048]⟩
abbrev S88x2048 : Shape := ⟨2, ![88, 2048]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048x256, .f32⟩
  | .hbm, ⟨2, _⟩ => ⟨S2048x256, .f32⟩
  | .local _ .vmem, ⟨0, _⟩ => ⟨S256x2048, .f32⟩
  | .local _ .vmem, ⟨1, _⟩ => ⟨S2048x256, .f32⟩
  | .local _ .vmem, ⟨2, _⟩ => ⟨S2048x256, .f32⟩
  | .local _ .vmem, ⟨3, _⟩ => ⟨S7x256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32 : BitVec 32 := 4#32
  let v11 : BitVec 32 := Scalar.muli v9 c4_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_5 : BitVec 32 := 2#32
  let v12 : BitVec 32 := Scalar.muli v8 c2_i32_5
  let v13 : BitVec 32 := Scalar.addi v11 v12
  let c1_i32_1 : BitVec 32 := 1#32
  let v6 : BitVec 32 := Scalar.andi v5 c1_i32_1
  let c1_i32_4 : BitVec 32 := 1#32
  let v10 : BitVec 32 := Scalar.xori v6 c1_i32_4
  let v14 : BitVec 32 := Scalar.xori v10 v8
  let v15 : BitVec 32 := Scalar.addi v13 v14
  let c1_i32_13 : BitVec 32 := 1#32
  let v29 : BitVec 32 := Scalar.muli v15 c1_i32_13
  let v30 : BitVec 32 := Scalar.addi c0_i32 v29
  v30.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_7 : BitVec 32 := 4#32
  let v17 : BitVec 32 := Scalar.muli v9 c4_i32_7
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_6 : BitVec 32 := 1#32
  let v16 : BitVec 32 := Scalar.xori v8 c1_i32_6
  let c2_i32_8 : BitVec 32 := 2#32
  let v18 : BitVec 32 := Scalar.muli v16 c2_i32_8
  let v19 : BitVec 32 := Scalar.addi v17 v18
  let c1_i32_1 : BitVec 32 := 1#32
  let v6 : BitVec 32 := Scalar.andi v5 c1_i32_1
  let v20 : BitVec 32 := Scalar.xori v6 v16
  let v21 : BitVec 32 := Scalar.addi v19 v20
  let c1_i32_15 : BitVec 32 := 1#32
  let v31 : BitVec 32 := Scalar.muli v21 c1_i32_15
  let v32 : BitVec 32 := Scalar.addi c0_i32_16 v31
  v32.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_9 : BitVec 32 := 1#32
  let v22 : BitVec 32 := Scalar.xori v9 c1_i32_9
  let c4_i32_10 : BitVec 32 := 4#32
  let v23 : BitVec 32 := Scalar.muli v22 c4_i32_10
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_11 : BitVec 32 := 2#32
  let v24 : BitVec 32 := Scalar.muli v8 c2_i32_11
  let v25 : BitVec 32 := Scalar.addi v23 v24
  let c1_i32_1 : BitVec 32 := 1#32
  let v6 : BitVec 32 := Scalar.andi v5 c1_i32_1
  let v26 : BitVec 32 := Scalar.xori v6 v8
  let v27 : BitVec 32 := Scalar.addi v25 v26
  let c1_i32_18 : BitVec 32 := 1#32
  let v33 : BitVec 32 := Scalar.muli v27 c1_i32_18
  let v34 : BitVec 32 := Scalar.addi c0_i32_19 v33
  v34.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32 : BitVec 32 := 4#32
  let v11 : BitVec 32 := Scalar.muli v9 c4_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_5 : BitVec 32 := 2#32
  let v12 : BitVec 32 := Scalar.muli v8 c2_i32_5
  let v13 : BitVec 32 := Scalar.addi v11 v12
  let c1_i32_1 : BitVec 32 := 1#32
  let v6 : BitVec 32 := Scalar.andi v5 c1_i32_1
  let c1_i32_4 : BitVec 32 := 1#32
  let v10 : BitVec 32 := Scalar.xori v6 c1_i32_4
  let v14 : BitVec 32 := Scalar.xori v10 v8
  let v15 : BitVec 32 := Scalar.addi v13 v14
  let c1_i32_24 : BitVec 32 := 1#32
  let v35 : BitVec 32 := Scalar.muli v15 c1_i32_24
  let v36 : BitVec 32 := Scalar.addi c0_i32_25 v35
  v36.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_7 : BitVec 32 := 4#32
  let v17 : BitVec 32 := Scalar.muli v9 c4_i32_7
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_6 : BitVec 32 := 1#32
  let v16 : BitVec 32 := Scalar.xori v8 c1_i32_6
  let c2_i32_8 : BitVec 32 := 2#32
  let v18 : BitVec 32 := Scalar.muli v16 c2_i32_8
  let v19 : BitVec 32 := Scalar.addi v17 v18
  let c1_i32_1 : BitVec 32 := 1#32
  let v6 : BitVec 32 := Scalar.andi v5 c1_i32_1
  let v20 : BitVec 32 := Scalar.xori v6 v16
  let v21 : BitVec 32 := Scalar.addi v19 v20
  let c1_i32_31 : BitVec 32 := 1#32
  let v43 : BitVec 32 := Scalar.muli v21 c1_i32_31
  let v44 : BitVec 32 := Scalar.addi c0_i32_32 v43
  v44.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_9 : BitVec 32 := 1#32
  let v22 : BitVec 32 := Scalar.xori v9 c1_i32_9
  let c4_i32_10 : BitVec 32 := 4#32
  let v23 : BitVec 32 := Scalar.muli v22 c4_i32_10
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_11 : BitVec 32 := 2#32
  let v24 : BitVec 32 := Scalar.muli v8 c2_i32_11
  let v25 : BitVec 32 := Scalar.addi v23 v24
  let c1_i32_1 : BitVec 32 := 1#32
  let v6 : BitVec 32 := Scalar.andi v5 c1_i32_1
  let v26 : BitVec 32 := Scalar.xori v6 v8
  let v27 : BitVec 32 := Scalar.addi v25 v26
  let c1_i32_38 : BitVec 32 := 1#32
  let v51 : BitVec 32 := Scalar.muli v27 c1_i32_38
  let v52 : BitVec 32 := Scalar.addi c0_i32_39 v51
  v52.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v64 : BitVec 32 := Scalar.muli v2 c256_i32
  let v65 : Index := Scalar.indexCast v64
  let c0_45 : Index := 0#32
  ![v65.toNat, 0]
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_7 : BitVec 32 := 4#32
  let v17 : BitVec 32 := Scalar.muli v9 c4_i32_7
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_6 : BitVec 32 := 1#32
  let v16 : BitVec 32 := Scalar.xori v8 c1_i32_6
  let c2_i32_8 : BitVec 32 := 2#32
  let v18 : BitVec 32 := Scalar.muli v16 c2_i32_8
  let v19 : BitVec 32 := Scalar.addi v17 v18
  let c1_i32_1 : BitVec 32 := 1#32
  let v6 : BitVec 32 := Scalar.andi v5 c1_i32_1
  let v20 : BitVec 32 := Scalar.xori v6 v16
  let v21 : BitVec 32 := Scalar.addi v19 v20
  let c1_i32_57 : BitVec 32 := 1#32
  let v73 : BitVec 32 := Scalar.muli v21 c1_i32_57
  let v74 : BitVec 32 := Scalar.addi c0_i32_58 v73
  v74.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_9 : BitVec 32 := 1#32
  let v22 : BitVec 32 := Scalar.xori v9 c1_i32_9
  let c4_i32_10 : BitVec 32 := 4#32
  let v23 : BitVec 32 := Scalar.muli v22 c4_i32_10
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_11 : BitVec 32 := 2#32
  let v24 : BitVec 32 := Scalar.muli v8 c2_i32_11
  let v25 : BitVec 32 := Scalar.addi v23 v24
  let c1_i32_1 : BitVec 32 := 1#32
  let v6 : BitVec 32 := Scalar.andi v5 c1_i32_1
  let v26 : BitVec 32 := Scalar.xori v6 v8
  let v27 : BitVec 32 := Scalar.addi v25 v26
  let c1_i32_67 : BitVec 32 := 1#32
  let v83 : BitVec 32 := Scalar.muli v27 c1_i32_67
  let v84 : BitVec 32 := Scalar.addi c0_i32_68 v83
  v84.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32 : BitVec 32 := 4#32
  let v11 : BitVec 32 := Scalar.muli v9 c4_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_5 : BitVec 32 := 2#32
  let v12 : BitVec 32 := Scalar.muli v8 c2_i32_5
  let v13 : BitVec 32 := Scalar.addi v11 v12
  let c1_i32_1 : BitVec 32 := 1#32
  let v6 : BitVec 32 := Scalar.andi v5 c1_i32_1
  let c1_i32_4 : BitVec 32 := 1#32
  let v10 : BitVec 32 := Scalar.xori v6 c1_i32_4
  let v14 : BitVec 32 := Scalar.xori v10 v8
  let v15 : BitVec 32 := Scalar.addi v13 v14
  let c1_i32_84 : BitVec 32 := 1#32
  let v99 : BitVec 32 := Scalar.muli v15 c1_i32_84
  let v100 : BitVec 32 := Scalar.addi c0_i32_85 v99
  v100.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_9 : BitVec 32 := 1#32
  let v22 : BitVec 32 := Scalar.xori v9 c1_i32_9
  let c4_i32_10 : BitVec 32 := 4#32
  let v23 : BitVec 32 := Scalar.muli v22 c4_i32_10
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_11 : BitVec 32 := 2#32
  let v24 : BitVec 32 := Scalar.muli v8 c2_i32_11
  let v25 : BitVec 32 := Scalar.addi v23 v24
  let c1_i32_1 : BitVec 32 := 1#32
  let v6 : BitVec 32 := Scalar.andi v5 c1_i32_1
  let v26 : BitVec 32 := Scalar.xori v6 v8
  let v27 : BitVec 32 := Scalar.addi v25 v26
  let c1_i32_92 : BitVec 32 := 1#32
  let v109 : BitVec 32 := Scalar.muli v27 c1_i32_92
  let v110 : BitVec 32 := Scalar.addi c0_i32_93 v109
  v110.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32 : BitVec 32 := 4#32
  let v11 : BitVec 32 := Scalar.muli v9 c4_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_5 : BitVec 32 := 2#32
  let v12 : BitVec 32 := Scalar.muli v8 c2_i32_5
  let v13 : BitVec 32 := Scalar.addi v11 v12
  let c1_i32_1 : BitVec 32 := 1#32
  let v6 : BitVec 32 := Scalar.andi v5 c1_i32_1
  let c1_i32_4 : BitVec 32 := 1#32
  let v10 : BitVec 32 := Scalar.xori v6 c1_i32_4
  let v14 : BitVec 32 := Scalar.xori v10 v8
  let v15 : BitVec 32 := Scalar.addi v13 v14
  let c1_i32_109 : BitVec 32 := 1#32
  let v125 : BitVec 32 := Scalar.muli v15 c1_i32_109
  let v126 : BitVec 32 := Scalar.addi c0_i32_110 v125
  v126.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_7 : BitVec 32 := 4#32
  let v17 : BitVec 32 := Scalar.muli v9 c4_i32_7
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_6 : BitVec 32 := 1#32
  let v16 : BitVec 32 := Scalar.xori v8 c1_i32_6
  let c2_i32_8 : BitVec 32 := 2#32
  let v18 : BitVec 32 := Scalar.muli v16 c2_i32_8
  let v19 : BitVec 32 := Scalar.addi v17 v18
  let c1_i32_1 : BitVec 32 := 1#32
  let v6 : BitVec 32 := Scalar.andi v5 c1_i32_1
  let v20 : BitVec 32 := Scalar.xori v6 v16
  let v21 : BitVec 32 := Scalar.addi v19 v20
  let c1_i32_119 : BitVec 32 := 1#32
  let v135 : BitVec 32 := Scalar.muli v21 c1_i32_119
  let v136 : BitVec 32 := Scalar.addi c0_i32_120 v135
  v136.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_126 : BitVec 32 := 4#32
  let v146 : BitVec 32 := Scalar.muli v9 c4_i32_126
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_127 : BitVec 32 := 2#32
  let v147 : BitVec 32 := Scalar.muli v8 c2_i32_127
  let v148 : BitVec 32 := Scalar.addi v146 v147
  let c1_i32_1 : BitVec 32 := 1#32
  let v6 : BitVec 32 := Scalar.andi v5 c1_i32_1
  let c1_i32_125 : BitVec 32 := 1#32
  let v145 : BitVec 32 := Scalar.xori v6 c1_i32_125
  let v149 : BitVec 32 := Scalar.xori v145 v8
  let v150 : BitVec 32 := Scalar.addi v148 v149
  let c256_i32_134 : BitVec 32 := 256#32
  let v156 : BitVec 32 := Scalar.muli v150 c256_i32_134
  let v157 : Index := Scalar.indexCast v156
  let c0_135 : Index := 0#32
  ![v157.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_137 : BitVec 32 := 4#32
  let v160 : BitVec 32 := Scalar.muli v9 c4_i32_137
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_136 : BitVec 32 := 1#32
  let v159 : BitVec 32 := Scalar.xori v8 c1_i32_136
  let c2_i32_138 : BitVec 32 := 2#32
  let v161 : BitVec 32 := Scalar.muli v159 c2_i32_138
  let v162 : BitVec 32 := Scalar.addi v160 v161
  let c1_i32_1 : BitVec 32 := 1#32
  let v6 : BitVec 32 := Scalar.andi v5 c1_i32_1
  let v163 : BitVec 32 := Scalar.xori v6 v159
  let v164 : BitVec 32 := Scalar.addi v162 v163
  let c256_i32_144 : BitVec 32 := 256#32
  let v170 : BitVec 32 := Scalar.muli v164 c256_i32_144
  let v171 : Index := Scalar.indexCast v170
  let c0_145 : Index := 0#32
  ![v171.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_146 : BitVec 32 := 1#32
  let v173 : BitVec 32 := Scalar.xori v9 c1_i32_146
  let c4_i32_147 : BitVec 32 := 4#32
  let v174 : BitVec 32 := Scalar.muli v173 c4_i32_147
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_148 : BitVec 32 := 2#32
  let v175 : BitVec 32 := Scalar.muli v8 c2_i32_148
  let v176 : BitVec 32 := Scalar.addi v174 v175
  let c1_i32_1 : BitVec 32 := 1#32
  let v6 : BitVec 32 := Scalar.andi v5 c1_i32_1
  let v177 : BitVec 32 := Scalar.xori v6 v8
  let v178 : BitVec 32 := Scalar.addi v176 v177
  let c256_i32_154 : BitVec 32 := 256#32
  let v184 : BitVec 32 := Scalar.muli v178 c256_i32_154
  let v185 : Index := Scalar.indexCast v184
  let c0_155 : Index := 0#32
  ![v185.toNat, 0]
def k0_dev13 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_9 : BitVec 32 := 1#32
  let v22 : BitVec 32 := Scalar.xori v9 c1_i32_9
  let c4_i32_10 : BitVec 32 := 4#32
  let v23 : BitVec 32 := Scalar.muli v22 c4_i32_10
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_11 : BitVec 32 := 2#32
  let v24 : BitVec 32 := Scalar.muli v8 c2_i32_11
  let v25 : BitVec 32 := Scalar.addi v23 v24
  let c1_i32_1 : BitVec 32 := 1#32
  let v6 : BitVec 32 := Scalar.andi v5 c1_i32_1
  let v26 : BitVec 32 := Scalar.xori v6 v8
  let v27 : BitVec 32 := Scalar.addi v25 v26
  let c1_i32_179 : BitVec 32 := 1#32
  let v203 : BitVec 32 := Scalar.muli v27 c1_i32_179
  let v204 : BitVec 32 := Scalar.addi c0_i32_180 v203
  v204.toNat
def k0_dev14 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_7 : BitVec 32 := 4#32
  let v17 : BitVec 32 := Scalar.muli v9 c4_i32_7
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_6 : BitVec 32 := 1#32
  let v16 : BitVec 32 := Scalar.xori v8 c1_i32_6
  let c2_i32_8 : BitVec 32 := 2#32
  let v18 : BitVec 32 := Scalar.muli v16 c2_i32_8
  let v19 : BitVec 32 := Scalar.addi v17 v18
  let c1_i32_1 : BitVec 32 := 1#32
  let v6 : BitVec 32 := Scalar.andi v5 c1_i32_1
  let v20 : BitVec 32 := Scalar.xori v6 v16
  let v21 : BitVec 32 := Scalar.addi v19 v20
  let c1_i32_208 : BitVec 32 := 1#32
  let v229 : BitVec 32 := Scalar.muli v21 c1_i32_208
  let v230 : BitVec 32 := Scalar.addi c0_i32_209 v229
  v230.toNat
def k0_dev15 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32 : BitVec 32 := 4#32
  let v11 : BitVec 32 := Scalar.muli v9 c4_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_5 : BitVec 32 := 2#32
  let v12 : BitVec 32 := Scalar.muli v8 c2_i32_5
  let v13 : BitVec 32 := Scalar.addi v11 v12
  let c1_i32_1 : BitVec 32 := 1#32
  let v6 : BitVec 32 := Scalar.andi v5 c1_i32_1
  let c1_i32_4 : BitVec 32 := 1#32
  let v10 : BitVec 32 := Scalar.xori v6 c1_i32_4
  let v14 : BitVec 32 := Scalar.xori v10 v8
  let v15 : BitVec 32 := Scalar.addi v13 v14
  let c1_i32_237 : BitVec 32 := 1#32
  let v255 : BitVec 32 := Scalar.muli v15 c1_i32_237
  let v256 : BitVec 32 := Scalar.addi c0_i32_238 v255
  v256.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c4_i32_245 : BitVec 32 := 4#32
  let v267 : BitVec 32 := Scalar.muli v9 c4_i32_245
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_244 : BitVec 32 := 1#32
  let v266 : BitVec 32 := Scalar.xori v8 c1_i32_244
  let c2_i32_246 : BitVec 32 := 2#32
  let v268 : BitVec 32 := Scalar.muli v266 c2_i32_246
  let v269 : BitVec 32 := Scalar.addi v267 v268
  let c1_i32_1 : BitVec 32 := 1#32
  let v6 : BitVec 32 := Scalar.andi v5 c1_i32_1
  let c1_i32_243 : BitVec 32 := 1#32
  let v265 : BitVec 32 := Scalar.xori v6 c1_i32_243
  let v270 : BitVec 32 := Scalar.xori v265 v266
  let v271 : BitVec 32 := Scalar.addi v269 v270
  let c256_i32_252 : BitVec 32 := 256#32
  let v277 : BitVec 32 := Scalar.muli v271 c256_i32_252
  let v278 : Index := Scalar.indexCast v277
  let c0_253 : Index := 0#32
  ![v278.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_255 : BitVec 32 := 1#32
  let v281 : BitVec 32 := Scalar.xori v9 c1_i32_255
  let c4_i32_256 : BitVec 32 := 4#32
  let v282 : BitVec 32 := Scalar.muli v281 c4_i32_256
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_257 : BitVec 32 := 2#32
  let v283 : BitVec 32 := Scalar.muli v8 c2_i32_257
  let v284 : BitVec 32 := Scalar.addi v282 v283
  let c1_i32_1 : BitVec 32 := 1#32
  let v6 : BitVec 32 := Scalar.andi v5 c1_i32_1
  let c1_i32_254 : BitVec 32 := 1#32
  let v280 : BitVec 32 := Scalar.xori v6 c1_i32_254
  let v285 : BitVec 32 := Scalar.xori v280 v8
  let v286 : BitVec 32 := Scalar.addi v284 v285
  let c256_i32_263 : BitVec 32 := 256#32
  let v292 : BitVec 32 := Scalar.muli v286 c256_i32_263
  let v293 : Index := Scalar.indexCast v292
  let c0_264 : Index := 0#32
  ![v293.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_266 : BitVec 32 := 1#32
  let v296 : BitVec 32 := Scalar.xori v9 c1_i32_266
  let c4_i32_267 : BitVec 32 := 4#32
  let v297 : BitVec 32 := Scalar.muli v296 c4_i32_267
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_265 : BitVec 32 := 1#32
  let v295 : BitVec 32 := Scalar.xori v8 c1_i32_265
  let c2_i32_268 : BitVec 32 := 2#32
  let v298 : BitVec 32 := Scalar.muli v295 c2_i32_268
  let v299 : BitVec 32 := Scalar.addi v297 v298
  let c1_i32_1 : BitVec 32 := 1#32
  let v6 : BitVec 32 := Scalar.andi v5 c1_i32_1
  let v300 : BitVec 32 := Scalar.xori v6 v295
  let v301 : BitVec 32 := Scalar.addi v299 v300
  let c256_i32_274 : BitVec 32 := 256#32
  let v307 : BitVec 32 := Scalar.muli v301 c256_i32_274
  let v308 : Index := Scalar.indexCast v307
  let c0_275 : Index := 0#32
  ![v308.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_308 : BitVec 32 := 1#32
  let v336 : BitVec 32 := Scalar.xori v9 c1_i32_308
  let c4_i32_309 : BitVec 32 := 4#32
  let v337 : BitVec 32 := Scalar.muli v336 c4_i32_309
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c1_i32_307 : BitVec 32 := 1#32
  let v335 : BitVec 32 := Scalar.xori v8 c1_i32_307
  let c2_i32_310 : BitVec 32 := 2#32
  let v338 : BitVec 32 := Scalar.muli v335 c2_i32_310
  let v339 : BitVec 32 := Scalar.addi v337 v338
  let c1_i32_1 : BitVec 32 := 1#32
  let v6 : BitVec 32 := Scalar.andi v5 c1_i32_1
  let c1_i32_306 : BitVec 32 := 1#32
  let v334 : BitVec 32 := Scalar.xori v6 c1_i32_306
  let v340 : BitVec 32 := Scalar.xori v334 v335
  let v341 : BitVec 32 := Scalar.addi v339 v340
  let c256_i32_316 : BitVec 32 := 256#32
  let v347 : BitVec 32 := Scalar.muli v341 c256_i32_316
  let v348 : Index := Scalar.indexCast v347
  let c0_317 : Index := 0#32
  ![v348.toNat, 0]
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S7x256x2048_S1x256x2048_0_0_0 : ∀ a, (![0, 0, 0] : Fin 3 → Nat) a + S1x256x2048.size a ≤ S7x256x2048.size a
  squeezes_S1x256x2048_S256x2048 : S1x256x2048.Squeezes S256x2048
  inb_S3_S1_1 : ∀ a, (![1] : Fin 1 → Nat) a + S1.size a ≤ S3.size a
  inb_S7x256x2048_S1x256x2048_1_0_0 : ∀ a, (![1, 0, 0] : Fin 3 → Nat) a + S1x256x2048.size a ≤ S7x256x2048.size a
  inb_S3_S1_2 : ∀ a, (![2] : Fin 1 → Nat) a + S1.size a ≤ S3.size a
  inb_S7x256x2048_S1x256x2048_2_0_0 : ∀ a, (![2, 0, 0] : Fin 3 → Nat) a + S1x256x2048.size a ≤ S7x256x2048.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  h_S256x256 : 0 < S256x256.numel
  inb_S6_S1_0 : ∀ a, (![0] : Fin 1 → Nat) a + S1.size a ≤ S6.size a
  inb_S7x256x2048_S1x128x2048_3_0_0 : ∀ a, (![3, 0, 0] : Fin 3 → Nat) a + S1x128x2048.size a ≤ S7x256x2048.size a
  squeezes_S1x128x2048_S128x2048 : S1x128x2048.Squeezes S128x2048
  inb_S7x256x2048_S1x128x2048_0_0_0 : ∀ a, (![0, 0, 0] : Fin 3 → Nat) a + S1x128x2048.size a ≤ S7x256x2048.size a
  inb_S6_S1_1 : ∀ a, (![1] : Fin 1 → Nat) a + S1.size a ≤ S6.size a
  inb_S7x256x2048_S1x128x2048_4_0_0 : ∀ a, (![4, 0, 0] : Fin 3 → Nat) a + S1x128x2048.size a ≤ S7x256x2048.size a
  inb_S6_S1_2 : ∀ a, (![2] : Fin 1 → Nat) a + S1.size a ≤ S6.size a
  inb_S7x256x2048_S1x128x2048_3_128_0 : ∀ a, (![3, 128, 0] : Fin 3 → Nat) a + S1x128x2048.size a ≤ S7x256x2048.size a
  inb_S7x256x2048_S1x128x2048_1_128_0 : ∀ a, (![1, 128, 0] : Fin 3 → Nat) a + S1x128x2048.size a ≤ S7x256x2048.size a
  inb_S6_S1_3 : ∀ a, (![3] : Fin 1 → Nat) a + S1.size a ≤ S6.size a
  inb_S7x256x2048_S1x128x2048_5_0_0 : ∀ a, (![5, 0, 0] : Fin 3 → Nat) a + S1x128x2048.size a ≤ S7x256x2048.size a
  inb_S7x256x2048_S1x128x2048_1_0_0 : ∀ a, (![1, 0, 0] : Fin 3 → Nat) a + S1x128x2048.size a ≤ S7x256x2048.size a
  inb_S6_S1_4 : ∀ a, (![4] : Fin 1 → Nat) a + S1.size a ≤ S6.size a
  inb_S7x256x2048_S1x128x2048_4_128_0 : ∀ a, (![4, 128, 0] : Fin 3 → Nat) a + S1x128x2048.size a ≤ S7x256x2048.size a
  inb_S7x256x2048_S1x128x2048_2_128_0 : ∀ a, (![2, 128, 0] : Fin 3 → Nat) a + S1x128x2048.size a ≤ S7x256x2048.size a
  inb_S6_S1_5 : ∀ a, (![5] : Fin 1 → Nat) a + S1.size a ≤ S6.size a
  inb_S7x256x2048_S1x128x2048_5_128_0 : ∀ a, (![5, 128, 0] : Fin 3 → Nat) a + S1x128x2048.size a ≤ S7x256x2048.size a
  h_S1x256x2048 : 0 < S1x256x2048.numel
  shapeCasts_S1x256x2048_S256x2048 : S1x256x2048.ShapeCasts S256x2048
  inb_S7x256x2048_S1x80x2048_6_176_0 : ∀ a, (![6, 176, 0] : Fin 3 → Nat) a + S1x80x2048.size a ≤ S7x256x2048.size a
  squeezes_S1x80x2048_S80x2048 : S1x80x2048.Squeezes S80x2048
  inb_S7x256x2048_S1x80x2048_3_176_0 : ∀ a, (![3, 176, 0] : Fin 3 → Nat) a + S1x80x2048.size a ≤ S7x256x2048.size a
  inb_S7x256x2048_S1x88x2048_6_88_0 : ∀ a, (![6, 88, 0] : Fin 3 → Nat) a + S1x88x2048.size a ≤ S7x256x2048.size a
  squeezes_S1x88x2048_S88x2048 : S1x88x2048.Squeezes S88x2048
  inb_S7x256x2048_S1x88x2048_4_88_0 : ∀ a, (![4, 88, 0] : Fin 3 → Nat) a + S1x88x2048.size a ≤ S7x256x2048.size a
  inb_S7x256x2048_S1x88x2048_6_0_0 : ∀ a, (![6, 0, 0] : Fin 3 → Nat) a + S1x88x2048.size a ≤ S7x256x2048.size a
  inb_S7x256x2048_S1x88x2048_5_0_0 : ∀ a, (![5, 0, 0] : Fin 3 → Nat) a + S1x88x2048.size a ≤ S7x256x2048.size a
  inb_S7x256x2048_S1x256x2048_3_0_0 : ∀ a, (![3, 0, 0] : Fin 3 → Nat) a + S1x256x2048.size a ≤ S7x256x2048.size a
  inb_S7x256x2048_S1x256x2048_4_0_0 : ∀ a, (![4, 0, 0] : Fin 3 → Nat) a + S1x256x2048.size a ≤ S7x256x2048.size a
  inb_S7x256x2048_S1x256x2048_5_0_0 : ∀ a, (![5, 0, 0] : Fin 3 → Nat) a + S1x256x2048.size a ≤ S7x256x2048.size a
  inb_S7x256x2048_S1x256x2048_6_0_0 : ∀ a, (![6, 0, 0] : Fin 3 → Nat) a + S1x256x2048.size a ≤ S7x256x2048.size a
  dot_S256x2048_S2048x256_S256x256_1_0_0_1_n_n_wf : DotDims.WF S256x2048 S2048x256 S256x256 [1] [0] [0] [1] [] []
  hcc0_scratch1 : 3 + S3.numel ≤ 27
  hcc0_scratch2 : 6 + S3.numel ≤ 27
  hcc0_scratch3 : 9 + S6.numel ≤ 27
  hcc0_scratch4 : 15 + S6.numel ≤ 27
  hcc0_scratch5 : 21 + S3.numel ≤ 27
  hcc0_scratch6 : 24 + S3.numel ≤ 27
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ a, (k0_off1 d0) a + S256x256.size a ≤ S2048x256.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off2_inb : ∀ d0 : Dev nD, ∀ a, (k0_off2 d0) a + S256x256.size a ≤ S2048x256.size a
  k0_off3_inb : ∀ d0 : Dev nD, ∀ a, (k0_off3 d0) a + S256x256.size a ≤ S2048x256.size a
  k0_off4_inb : ∀ d0 : Dev nD, ∀ a, (k0_off4 d0) a + S256x256.size a ≤ S2048x256.size a
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off5_inb : ∀ d0 : Dev nD, ∀ a, (k0_off5 d0) a + S256x256.size a ≤ S2048x256.size a
  k0_off6_inb : ∀ d0 : Dev nD, ∀ a, (k0_off6 d0) a + S256x256.size a ≤ S2048x256.size a
  k0_off7_inb : ∀ d0 : Dev nD, ∀ a, (k0_off7 d0) a + S256x256.size a ≤ S2048x256.size a
  k0_off8_inb : ∀ d0 : Dev nD, ∀ a, (k0_off8 d0) a + S256x256.size a ≤ S2048x256.size a
  hstage0_0 : ∀ j, (stage0_0 j).IsWhole
  hstage0_1 : ∀ j, (stage0_1 j).IsWhole
  hstage0_2 : ∀ j, (stage0_2 j).IsWhole

variable [Facts₀]

abbrev cc0_scratch1 : DmaSems sig S3 := SemArray.consecutive 3 S3 hcc0_scratch1
abbrev cc0_scratch2 : DmaSems sig S3 := SemArray.consecutive 6 S3 hcc0_scratch2
abbrev cc0_scratch3 : DmaSems sig S6 := SemArray.consecutive 9 S6 hcc0_scratch3
abbrev cc0_scratch4 : DmaSems sig S6 := SemArray.consecutive 15 S6 hcc0_scratch4
abbrev cc0_scratch5 : DmaSems sig S3 := SemArray.consecutive 21 S3 hcc0_scratch5
abbrev cc0_scratch6 : DmaSems sig S3 := SemArray.consecutive 24 S3 hcc0_scratch6
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Setup.lean ====
import proofs.«900494_g7700000000000495_dist_ag_gemm_m2048_k2048_n2048_f32_none_v7x_i8_1_alg».proof.Proof.Gen.KernelIdeal
import proofs.«900494_g7700000000000495_dist_ag_gemm_m2048_k2048_n2048_f32_none_v7x_i8_1_alg».proof.Proof.Gen.KernelIdeal.Skeleton
import proofs.«900494_g7700000000000495_dist_ag_gemm_m2048_k2048_n2048_f32_none_v7x_i8_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

theorem fl_lt : ∀ (k : Fin 8) (c : Dev nD), c.val ^^^ k.val < nD := by decide

/-- The device whose number differs from `c`'s in the bits of `k`: the 3-cube in its Gray-coded numbering. -/
def fl (k : Fin 8) (c : Dev nD) : Dev nD := ⟨c.val ^^^ k.val, fl_lt k c⟩

abbrev axK : Fin 3 → Fin 8 := ![1, 3, 4]
abbrev slotK : Fin 7 → Fin 8 := ![1, 3, 4, 2, 5, 7, 6]

/-- The neighbour of `c` along cube axis `a`. -/
abbrev nbr (a : Fin 3) (c : Dev nD) : Dev nD := fl (axK a) c
/-- The device whose row block of `x` slot `s` of `c`'s scratch buffer ends holding. -/
abbrev og (s : Fin 7) (c : Dev nD) : Dev nD := fl (slotK s) c

theorem fl_fl (k : Fin 8) (c : Dev nD) : fl k (fl k c) = c := by revert k c; decide
theorem nbr_nbr (a : Fin 3) (c : Dev nD) : nbr a (nbr a c) = c := fl_fl _ c

abbrev tAx : Fin 12 → Fin 3 := ![0, 1, 2, 1, 2, 0, 2, 0, 1, 2, 1, 0]
/-- The device transfer `j` of `c` (in program order) is addressed to. -/
abbrev tgt (j : Fin 12) (c : Dev nD) : Dev nD := nbr (tAx j) c

abbrev xM : Memref sig .tc .vmem S256x2048 .f32 := Memref.whole cc0_stg0_0
abbrev wM : Memref sig .tc .vmem S2048x256 .f32 := Memref.whole cc0_stg1_0
abbrev oM : Memref sig .tc .vmem S2048x256 .f32 := Memref.whole cc0_stg2_0
abbrev cM : Memref sig .tc .vmem S7x256x2048 .f32 := Memref.whole cc0_scratch0

/-- Rows `lo ..< lo + n` of slot `s` of the scratch buffer. -/
abbrev sl (n s lo : ℕ) (h : ∀ a, (![s, lo, 0] : Fin 3 → ℕ) a + (![1, n, 2048] : Fin 3 → ℕ) a ≤ S7x256x2048.size a)
    (hq : Shape.Squeezes ⟨3, ![1, n, 2048]⟩ ⟨2, ![n, 2048]⟩) : Memref sig .tc .vmem ⟨2, ![n, 2048]⟩ .f32 :=
  (cM.slice (Rect.unit (s := S7x256x2048) ![s, lo, 0] ![1, n, 2048] h) (fun _ => rfl)).squeeze ⟨2, ![n, 2048]⟩ hq
abbrev sl256 (s lo : ℕ) (h) := sl 256 s lo h squeezes_S1x256x2048_S256x2048
abbrev sl128 (s lo : ℕ) (h) := sl 128 s lo h squeezes_S1x128x2048_S128x2048
abbrev sl88 (s lo : ℕ) (h) := sl 88 s lo h squeezes_S1x88x2048_S88x2048
abbrev sl80 (s lo : ℕ) (h) := sl 80 s lo h squeezes_S1x80x2048_S80x2048

/-- Transfer `j` moves rows of shape `tS j` from `srcM j` on its issuer to `dstM j` on its addressee. -/
abbrev tS : Fin 12 → Shape
  | 0 | 1 | 2 => S256x2048
  | 3 | 4 | 5 | 6 | 7 | 8 => S128x2048
  | 9 => S80x2048
  | 10 | 11 => S88x2048
abbrev srcM : (j : Fin 12) → Memref sig .tc .vmem (tS j) .f32
  | 0 | 1 | 2 => xM
  | 3 | 4 => sl128 0 0 (by decide)
  | 5 => sl128 1 128 (by decide)
  | 6 => sl128 1 0 (by decide)
  | 7 | 8 => sl128 2 128 (by decide)
  | 9 => sl80 3 176 (by decide)
  | 10 => sl88 4 88 (by decide)
  | 11 => sl88 5 0 (by decide)
abbrev dstM : (j : Fin 12) → Memref sig .tc .vmem (tS j) .f32
  | 0 => sl256 0 0 (by decide)
  | 1 => sl256 1 0 (by decide)
  | 2 => sl256 2 0 (by decide)
  | 3 => sl128 3 0 (by decide)
  | 4 => sl128 4 0 (by decide)
  | 5 => sl128 3 128 (by decide)
  | 6 => sl128 5 0 (by decide)
  | 7 => sl128 4 128 (by decide)
  | 8 => sl128 5 128 (by decide)
  | 9 => sl80 6 176 (by decide)
  | 10 => sl88 6 88 (by decide)
  | 11 => sl88 6 0 (by decide)

/-- The elements of the scratch buffer transfer `j` writes. -/
def dstSet : Fin 12 → Finset S7x256x2048.Idx
  | 0 => (dstM 0).view.set | 1 => (dstM 1).view.set | 2 => (dstM 2).view.set | 3 => (dstM 3).view.set
  | 4 => (dstM 4).view.set | 5 => (dstM 5).view.set | 6 => (dstM 6).view.set | 7 => (dstM 7).view.set
  | 8 => (dstM 8).view.set | 9 => (dstM 9).view.set | 10 => (dstM 10).view.set | 11 => (dstM 11).view.set

/-- Device `c`'s row block of `x`. -/
def xstg (c : Dev nD) : (cc0_stg0_0 : Ref sig .tc).ty.Contents (Elt F) :=
  (win0_0.blk (0 : Fin 1)).view.read (Elt F) (m ((c : Thread nD τ).loc main_arg0))
/-- Device `c`'s column block of `w`. -/
def wstg (c : Dev nD) : (cc0_stg1_0 : Ref sig .tc).ty.Contents (Elt F) :=
  (win0_1.blk (0 : Fin 1)).view.read (Elt F) (m ((c : Thread nD τ).loc main_arg1))

/-- The scratch buffer once everything has landed: slot `s` holds the row block of `x` of `og s c`. -/
def commFinal (c : Dev nD) : Buf (Elt F) ((c : Thread nD τ).loc cc0_scratch0) :=
  fun i => xstg m (og (i 0) c) (ValueIdx.ix2 (i 1) (i 2))

/-- A row block of `x` times a column block of `w`. -/
def gemmBlk (x : Vec F S256x2048 .f32) (w : Vec F S2048x256 .f32) : FVec F S256x256 .f32 :=
  matmul dot_S256x2048_S2048x256_S256x256_1_0_0_1_n_n none x w (constant S256x256 .f32 0x00000000#32)

theorem dev_of_row_lt (r : Fin 2048) : r.val / 256 < nD := by have := r.isLt; show r.val / 256 < 8; omega
theorem row_mod_lt (r : Fin 2048) : r.val % 256 < 256 := Nat.mod_lt _ (by decide)

/-- The result on `c`: row block `q` is `x_q · w_c`. -/
def outAt (c : Dev nD) : (cc0_stg2_0 : Ref sig .tc).ty.Contents (Elt F) :=
  fun i => gemmBlk (xstg m (⟨(i 0).val / 256, dev_of_row_lt (i 0)⟩ : Dev nD)) (wstg m c) (ValueIdx.ix2 ⟨(i 0).val % 256, row_mod_lt (i 0)⟩ (i 1))

abbrev barS : Sem sig := (SemArray.scalar (sig.barrier 0 rfl) : Sems sig S_).sem
abbrev barCell (c : Dev nD) : GSem nD τ sig := ((c : Thread nD τ), .reg barS)

abbrev sSem : Fin 12 → DmaSem sig := ![3, 4, 5, 9, 10, 11, 12, 13, 14, 23, 22, 21]
abbrev rSem : Fin 12 → DmaSem sig := ![6, 7, 8, 15, 16, 17, 18, 19, 20, 26, 25, 24]
abbrev sendCell (j : Fin 12) (c : Dev nD) : GSem nD τ sig := ((c : Thread nD τ), .dma (sSem j))
abbrev recvCell (j : Fin 12) (c : Dev nD) : GSem nD τ sig := ((c : Thread nD τ), .dma (rSem j))

/-- Which transfer completes on DMA semaphore `q`, and whether `q` is its receive semaphore. -/
def dmaRole (q : DmaSem sig) : Option (Bool × Fin 12) :=
  match q.val with
  | 3 => some (false, 0) | 4 => some (false, 1) | 5 => some (false, 2)
  | 6 => some (true, 0) | 7 => some (true, 1) | 8 => some (true, 2)
  | 9 => some (false, 3) | 10 => some (false, 4) | 11 => some (false, 5) | 12 => some (false, 6) | 13 => some (false, 7) | 14 => some (false, 8)
  | 15 => some (true, 3) | 16 => some (true, 4) | 17 => some (true, 5) | 18 => some (true, 6) | 19 => some (true, 7) | 20 => some (true, 8)
  | 21 => some (false, 11) | 22 => some (false, 10) | 23 => some (false, 9)
  | 24 => some (true, 11) | 25 => some (true, 10) | 26 => some (true, 9)
  | _ => none

abbrev osem : Fin 24 → SemLoc sig := fun i => .dma ⟨i.val + 3, by have := i.isLt; show i.val + 3 < 27; omega⟩
abbrev csem : Fin 25 → SemLoc sig := fun k => if k.val = 0 then .reg barS else .dma ⟨k.val + 2, by have := k.isLt; show k.val + 2 < 27; omega⟩
abbrev kcell (ck : Dev nD × Fin 25) : GSem nD τ sig := ((ck.1 : Thread nD τ), csem ck.2)

abbrev N256 : ℕ := (sl256 0 0 inb_S7x256x2048_S1x256x2048_0_0_0 : Memref sig .tc .vmem S256x2048 .f32).view.dmaCredit
abbrev N128 : ℕ := (sl128 3 0 inb_S7x256x2048_S1x128x2048_3_0_0 : Memref sig .tc .vmem S128x2048 .f32).view.dmaCredit
abbrev N88 : ℕ := (sl88 6 0 inb_S7x256x2048_S1x88x2048_6_0_0 : Memref sig .tc .vmem S88x2048 .f32).view.dmaCredit
abbrev N80 : ℕ := (sl80 6 176 inb_S7x256x2048_S1x80x2048_6_176_0 : Memref sig .tc .vmem S80x2048 .f32).view.dmaCredit
/-- The credit of transfer `j`, on its send cell and on its receive cell alike. -/
abbrev amt : Fin 12 → ℕ := ![N256, N256, N256, N128, N128, N128, N128, N128, N128, N80, N88, N88]
theorem amt_pos (j : Fin 12) : 0 < amt j := by
  fin_cases j <;> exact View.dmaCredit_pos _ (by decide)

abbrev qL : PosShare TreeShare := fullShare.left
abbrev qR : PosShare TreeShare := fullShare.right
abbrev qRL : PosShare TreeShare := fullShare.right.left
abbrev qRR : PosShare TreeShare := fullShare.right.right
abbrev qRRL : PosShare TreeShare := fullShare.right.right.left
abbrev qRRR : PosShare TreeShare := fullShare.right.right.right

/-- The elements transfer `j` writes on `d`, held in full at contents `f`. -/
def dstP (j : Fin 12) (d : Dev nD) (f : Buf (Elt F) ((d : Thread nD τ).loc cc0_scratch0)) : sProp 𝕄 :=
  ((d : Thread nD τ).loc cc0_scratch0) ↦[dstSet j]{fullShare} f

/-- The share at which transfer `j` reads its source; `srcF` is what the source holds. -/
abbrev srcQ : Fin 12 → PosShare TreeShare := ![qL, qRL, qRRL, qL, qRL, qL, qL, qL, qRL, qL, qL, qL]
def srcF : (j : Fin 12) → (c : Dev nD) → Buf (Elt F) ((srcM j).view.loc (c : Thread nD τ))
  | 0, c | 1, c | 2, c => xstg m c
  | 3, c | 4, c | 5, c | 6, c | 7, c | 8, c | 9, c | 10, c | 11, c => commFinal m c
/-- The share of its source transfer `j` of `c` reads; it comes back with the send credit. -/
def srcP (j : Fin 12) (c : Dev nD) : sProp 𝕄 :=
  (srcM j).view.loc (c : Thread nD τ) ↦[(srcM j).view.set]{srcQ j} srcF m j c

/-- What the neighbour along `a` hands `c` with its barrier unit: the parts of its scratch `c`'s transfers along `a` write. -/
def barPay (c : Dev nD) (a : Fin 3) : sProp 𝕄 :=
  match a with
  | 0 => iprop((∃ f, dstP 0 (nbr 0 c) f) ∗ (∃ f, dstP 5 (nbr 0 c) f) ∗ (∃ f, dstP 7 (nbr 0 c) f) ∗ (∃ f, dstP 11 (nbr 0 c) f))
  | 1 => iprop((∃ f, dstP 1 (nbr 1 c) f) ∗ (∃ f, dstP 3 (nbr 1 c) f) ∗ (∃ f, dstP 8 (nbr 1 c) f) ∗ (∃ f, dstP 10 (nbr 1 c) f))
  | 2 => iprop((∃ f, dstP 2 (nbr 2 c) f) ∗ (∃ f, dstP 4 (nbr 2 c) f) ∗ (∃ f, dstP 6 (nbr 2 c) f) ∗ (∃ f, dstP 9 (nbr 2 c) f))
/-- What landing transfer `j` hands its addressee: the elements written, at their final contents. -/
def recvPay (j : Fin 12) (c : Dev nD) : sProp 𝕄 := dstP j c (commFinal m c)

/-- One round: a barrier cell has a unit duty per neighbour; a transfer's send and receive cells one duty of its credit. -/
def rd : Rounds.Schedule (GSem nD τ sig) (Fin 3) 𝕄 where
  duties g r :=
    if r = 0 ∧ g.1.2 = .tc then
      (match g.2 with
        | .reg s => if s = barS then Finset.univ else ∅
        | .dma q => if (dmaRole q).isSome then {0} else ∅)
    else ∅
  amount g _ _ :=
    match g.2 with
    | .reg _ => 1
    | .dma q => (match dmaRole q with | some (_, j) => amt j | none => 1)
  payload g _ d :=
    match g.2 with
    | .reg s => if s = barS then barPay g.1.1 d else iprop(emp)
    | .dma q => (match dmaRole q with
        | some (false, j) => srcP m j g.1.1
        | some (true, j) => recvPay m j g.1.1
        | none => iprop(emp))
  amount_pos g _ _ _ := by
    cases hg : g.2 with
    | reg s => simp only [hg]; exact Nat.one_pos
    | dma q =>
      simp only [hg]
      cases hq : dmaRole q with
      | none => exact Nat.one_pos
      | some bj => exact amt_pos bj.2

/-- The receive credits of the last `n` transfers of `c`, the earliest of them the last summand. -/
def owedLast (c : Dev nD) : ℕ → CellTallies nD τ sig Unit
  | 0 => 0
  | n + 1 => owedLast c n + tallyAt (recvCell ⟨11 - n, by omega⟩ (tgt ⟨11 - n, by omega⟩ c)) () (amt ⟨11 - n, by omega⟩)
/-- The receive credits of the transfers `j ≥ k`: issuing transfer `k` peels the last summand. -/
def owedFrom (c : Dev nD) (k : ℕ) : CellTallies nD τ sig Unit := owedLast c (12 - k)
/-- What `c` owes at entry: the twelve receive credits, then a barrier unit per neighbour (`O₀`), peeled from the right. -/
def O₂ (c : Dev nD) : CellTallies nD τ sig Unit := owedFrom c 0 + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- Barrier cells at level 1, receive cells at 2, 3, 4 by hops made, all else at 0: a wait is below everything still owed. -/
def lv (g : GSem nD τ sig) (_ : Unit) : ℕ :=
  match g.2 with
  | .reg s => if s = barS then 1 else 0
  | .dma q => (match dmaRole q with
      | some (true, j) => if j.val < 3 then 2 else if j.val < 9 then 3 else 4
      | _ => 0)

/-- Every cell's invariant under the names `K`, and that every cell has reached round 0. -/
def records (K : Dev nD × Fin 25 → ℕ) : sProp 𝕄 :=
  iprop((bigSep Finset.univ fun ck : Dev nD × Fin 25 => cellInv ER (rd m) (K ck) (kcell ck))
    ∗ bigSep Finset.univ fun ck : Dev nD × Fin 25 => reached ER (kcell ck) 0)

/-- The tokens of the duties `c` pays: a barrier unit to each neighbour, and both cells of each of its transfers. -/
def payToks (c : Dev nD) : sProp 𝕄 :=
  iprop((bigSep Finset.univ fun a : Fin 3 => dutyTok ER (barCell (nbr a c)) 0 a)
    ∗ bigSep Finset.univ fun j : Fin 12 => iprop(dutyTok ER (sendCell j c) 0 (0 : Fin 3) ∗ dutyTok ER (recvCell j (tgt j c)) 0 (0 : Fin 3)))
def linear (c : Dev nD) : sProp 𝕄 :=
  iprop((bigSep Finset.univ fun k : Fin 25 => atPos ER (kcell (c, k)) 0 (∅ : Finset (Fin 3)) 0) ∗ payToks c)
def ghost (K : Dev nD × Fin 25 → ℕ) (c : Dev nD) : sProp 𝕄 := iprop(records m K ∗ linear c)

/-- What `c`'s body starts from: the ghost state, the credits of its barrier and receive cells, the level facts. -/
def start (c : Dev nD) : sProp 𝕄 :=
  iprop((∃ K, ghost m K c) ∗ cred (tallyAt (barCell c) () 3)
    ∗ (bigSep Finset.univ fun j : Fin 12 => cred (tallyAt (recvCell j c) () (amt j))) ∗ levAts L lv)

def Φ₀ (c : Dev nD) : sProp 𝕄 := iprop(start m c ∗ ∃ f, (((c : Thread nD τ).loc cc0_scratch0) ↦{fullShare} f))
/-- After the body: the scratch buffer whole at its final contents and the twenty-four own cells at zero. -/
def Φ₁ (c : Dev nD) : sProp 𝕄 :=
  iprop((((c : Thread nD τ).loc cc0_scratch0) ↦{fullShare} commFinal m c) ∗ bigSep Finset.univ fun i : Fin 24 => semVal ((c : Thread nD τ), osem i) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The one grid point's data: the three arrays end at `xstg`, `wstg`, `outAt`; `O₀` is owed before, nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.Tables.lean ====
import proofs.«900494_g7700000000000495_dist_ag_gemm_m2048_k2048_n2048_f32_none_v7x_i8_1_alg».proof.Proof.Setup

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem dmaRole_sSem (j : Fin 12) : dmaRole (sSem j) = some (false, j) := by fin_cases j <;> rfl
theorem dmaRole_rSem (j : Fin 12) : dmaRole (rSem j) = some (true, j) := by fin_cases j <;> rfl

section Sched

/-- The schedule's tables, cell by cell: duties, amounts, expected units, payloads. -/
theorem duties_bar (c : Dev nD) : (rd (F := F) m).duties (barCell c) 0 = Finset.univ := by
  dsimp only [rd]; rw [if_pos ⟨rfl, rfl⟩, if_pos rfl]
theorem duties_send (j : Fin 12) (c : Dev nD) : (rd (F := F) m).duties (sendCell j c) 0 = {0} := by
  dsimp only [rd]; rw [if_pos ⟨rfl, rfl⟩, dmaRole_sSem]; rfl
theorem duties_recv (j : Fin 12) (c : Dev nD) : (rd (F := F) m).duties (recvCell j c) 0 = {0} := by
  dsimp only [rd]; rw [if_pos ⟨rfl, rfl⟩, dmaRole_rSem]; rfl
theorem duties_later (g : GSem nD τ sig) : ∀ r, 1 ≤ r → (rd (F := F) m).duties g r = ∅ :=
  fun r hr => by dsimp only [rd]; rw [if_neg fun h => by omega]

theorem amount_bar (c : Dev nD) (d : Fin 3) : (rd (F := F) m).amount (barCell c) 0 d = 1 := rfl
theorem amount_send (j : Fin 12) (c : Dev nD) (d : Fin 3) : (rd (F := F) m).amount (sendCell j c) 0 d = amt j := by
  dsimp only [rd]; rw [dmaRole_sSem]
theorem amount_recv (j : Fin 12) (c : Dev nD) (d : Fin 3) : (rd (F := F) m).amount (recvCell j c) 0 d = amt j := by
  dsimp only [rd]; rw [dmaRole_rSem]

theorem expect_bar (c : Dev nD) : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (j : Fin 12) (c : Dev nD) : (rd (F := F) m).expect (sendCell j c) 0 = amt j := by
  unfold Schedule.expect Schedule.amountOf; rw [duties_send, Finset.sum_singleton, amount_send]
theorem expect_recv (j : Fin 12) (c : Dev nD) : (rd (F := F) m).expect (recvCell j c) 0 = amt j := by
  unfold Schedule.expect Schedule.amountOf; rw [duties_recv, Finset.sum_singleton, amount_recv]

theorem payload_bar (c : Dev nD) (a : Fin 3) : (rd (F := F) m).payload (barCell c) 0 a = barPay c a := by
  dsimp only [rd]; rw [if_pos rfl]
theorem payload_send (j : Fin 12) (c : Dev nD) (d : Fin 3) : (rd (F := F) m).payload (sendCell j c) 0 d = srcP m j c := by
  dsimp only [rd]; rw [dmaRole_sSem]
theorem payload_recv (j : Fin 12) (c : Dev nD) (d : Fin 3) : (rd (F := F) m).payload (recvCell j c) 0 d = recvPay m j c := by
  dsimp only [rd]; rw [dmaRole_rSem]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar (c : Dev nD) : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_fin3, payload_bar, payload_bar, payload_bar]
theorem rest_send (j : Fin 12) (c : Dev nD) : bigSep ((rd (F := F) m).duties (sendCell j c) 0 \ ∅) (fun d => (rd (F := F) m).payload (sendCell j c) 0 d) = srcP m j c := by
  rw [Finset.sdiff_empty, duties_send, bigSep_singleton, payload_send]
theorem rest_recv (j : Fin 12) (c : Dev nD) : bigSep ((rd (F := F) m).duties (recvCell j c) 0 \ ∅) (fun d => (rd (F := F) m).payload (recvCell j c) 0 d) = recvPay m j c := by
  rw [Finset.sdiff_empty, duties_recv, bigSep_singleton, payload_recv]

end Sched

instance dstP_storable (j : Fin 12) (d : Dev nD) (f : Buf (Elt F) ((d : Thread nD τ).loc cc0_scratch0)) :
    BI.Storable (upEmb : UEmb _ 𝕄) (dstP (F := F) j d f) := by
  unfold dstP; infer_instance
instance srcP_storable (j : Fin 12) (c : Dev nD) : BI.Storable (upEmb : UEmb _ 𝕄) (srcP (F := F) m j c) := by
  unfold srcP; infer_instance
instance recvPay_storable (j : Fin 12) (c : Dev nD) : BI.Storable (upEmb : UEmb _ 𝕄) (recvPay (F := F) m j c) := by
  unfold recvPay; infer_instance
instance barPay_storable (c : Dev nD) (a : Fin 3) : BI.Storable (upEmb : UEmb _ 𝕄) (barPay (F := F) c a) := by
  fin_cases a <;> (dsimp only [barPay]; infer_instance)

instance rd_payload_storable (g : GSem nD τ sig) (r : ℕ) (d : Fin 3) :
    BI.Storable (upEmb : UEmb _ 𝕄) ((rd (F := F) m).payload g r d) := by
  dsimp only [rd]
  split
  · split <;> infer_instance
  · split <;> infer_instance

theorem L_of_ne (g : GSem nD τ sig) (h : g.1.2 ≠ .tc) : L g = ∅ := if_neg h
theorem L_tc (c : Dev nD) (sm : SemLoc sig) : L ((c : Thread nD τ), sm) = {()} := if_pos rfl

/-- The level of the receive cell of transfer `j`: one more than the hops its block has made. -/
abbrev rlv (j : Fin 12) : ℕ := if j.val < 3 then 2 else if j.val < 9 then 3 else 4

theorem lv_bar (c : Dev nD) : lv (barCell c) () = 1 := by dsimp only [lv]; rw [if_pos rfl]
theorem lv_recv (j : Fin 12) (c : Dev nD) : lv (recvCell j c) () = rlv j := by dsimp only [lv]; rw [dmaRole_rSem]
theorem rlv_ge (j : Fin 12) : 2 ≤ rlv j := by dsimp only [rlv]; split_ifs <;> omega

theorem recv_ne_bar (q : DmaSem sig) (s : Sem sig) : (SemLoc.dma q : SemLoc sig) ≠ .reg s := fun h => by cases h
theorem recvCell_ne_barCell (j : Fin 12) (c d : Dev nD) : recvCell j c ≠ barCell d := fun h => recv_ne_bar _ _ (congrArg Prod.snd h)
theorem rSem_injective : Function.Injective (rSem : Fin 12 → DmaSem sig) := by decide

theorem bar_eq_iff {a b : Dev nD} : Iff (barCell a = barCell b) (a = b) :=
  ⟨fun h => Fin.ext (congrArg (fun g : GSem nD τ sig => g.1.1.val) h), fun h => h ▸ rfl⟩
theorem recv_eq_iff {j j' : Fin 12} {a b : Dev nD} : Iff (recvCell j a = recvCell j' b) (j = j' ∧ a = b) :=
  ⟨fun h => ⟨rSem_injective (SemLoc.dma.inj (congrArg Prod.snd h)), Fin.ext (congrArg (fun g : GSem nD τ sig => g.1.1.val) h)⟩,
    fun h => by rw [h.1, h.2]⟩

theorem owedFrom_ge (c : Dev nD) (n : ℕ) : owedFrom c (n + 12) = 0 := by
  unfold owedFrom; rw [show 12 - (n + 12) = 0 by omega]; rfl
/-- What is owed from transfer `k` on is what is owed from `k + 1` on and the receive credit of transfer `k`. -/
theorem owedFrom_step (c : Dev nD) (k : Fin 12) :
    owedFrom c k.val = owedFrom c (k.val + 1) + tallyAt (recvCell k (tgt k c)) () (amt k) := by
  fin_cases k <;> rfl

theorem owedFrom_pos_aux {c : Dev nD} {g : GSem nD τ sig} {u : Unit} :
    ∀ (i k : ℕ), k + i = 12 → 0 < owedFrom c k g u → ∃ j : Fin 12, k ≤ j.val ∧ g = recvCell j (tgt j c)
  | 0, k, hk, h => by
    obtain rfl : k = 0 + 12 := by omega
    rw [owedFrom_ge, Pi.zero_apply, Finsupp.zero_apply] at h; exact absurd h (Nat.lt_irrefl 0)
  | i + 1, k, hk, h => by
    have hk' : k < 12 := by omega
    have hs := owedFrom_step c ⟨k, hk'⟩
    dsimp only at hs
    rw [hs, Pi.add_apply, Finsupp.add_apply] at h
    rcases Nat.add_pos_iff_pos_or_pos.mp h with h1 | h2
    · obtain ⟨j, hj, hg⟩ := owedFrom_pos_aux i (k + 1) (by omega) h1
      exact ⟨j, by omega, hg⟩
    · rw [tallyAt_apply] at h2
      by_cases hh : g = recvCell ⟨k, hk'⟩ (tgt ⟨k, hk'⟩ c) ∧ u = ()
      · exact ⟨⟨k, hk'⟩, Nat.le_refl _, hh.1⟩
      · rw [if_neg hh] at h2; exact absurd h2 (Nat.lt_irrefl 0)

/-- A cell owed something from transfer `k` on is the addressee's receive cell of a transfer `j ≥ k`. -/
theorem owedFrom_pos {c : Dev nD} {k : ℕ} {g : GSem nD τ sig} {u : Unit} (h : 0 < owedFrom c k g u) :
    ∃ j : Fin 12, k ≤ j.val ∧ g = recvCell j (tgt j c) := by
  by_cases hk : k ≤ 12
  · exact owedFrom_pos_aux (12 - k) k (by omega) h
  · obtain ⟨n, rfl⟩ : ∃ n, k = n + 12 := ⟨k - 12, by omega⟩
    rw [owedFrom_ge, Pi.zero_apply, Finsupp.zero_apply] at h; exact absurd h (Nat.lt_irrefl 0)

theorem tallyAt_pos {g₀ g : GSem nD τ sig} {u : Unit} {n : ℕ} (h : 0 < tallyAt g₀ () n g u) : g = g₀ := by
  rw [tallyAt_apply] at h
  by_cases hh : g = g₀ ∧ u = ()
  · exact hh.1
  · rw [if_neg hh] at h; exact absurd h (Nat.lt_irrefl 0)

/-- A cell a device owes at launch is a neighbour's receive cell or a neighbour's barrier cell. -/
theorem O₀_pos {c : Dev nD} {g : GSem nD τ sig} {u : Unit} (h : 0 < O₀ c g u) :
    (∃ j : Fin 12, g = recvCell j (tgt j c)) ∨ ∃ a : Fin 3, g = barCell (nbr a c) := by
  unfold O₀ O₁ O₂ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨j, _, hg⟩ := owedFrom_pos h; exact .inl ⟨j, hg⟩
      · exact .inr ⟨2, tallyAt_pos h⟩
    · exact .inr ⟨1, tallyAt_pos h⟩
  · exact .inr ⟨0, tallyAt_pos h⟩

/-- A wait on a cell of level 0 is below everything owed. -/
theorem mayWait_stage_lv (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨a, rfl⟩ <;> exact Finset.mem_singleton_self _)
      (fun p hp => by rw [Finset.mem_singleton.mp hp]; exact le_of_eq hq)
      (fun g u hg => by
        rcases O₀_pos hg with ⟨j, rfl⟩ | ⟨a, rfl⟩
        · rw [lv_recv]; have := rlv_ge j; omega
        · rw [lv_bar]; decide)
  · rw [MayWait_zero]; iintro -; iempintro

theorem mayWait_stage (c : Dev nD) (q : DmaSem sig) (hq : dmaRole q = none) (O : CellTallies nD τ sig Unit)
    (hO : O = O₀ c ∨ O = 0) : (levAts L lv : sProp 𝕄) ⊢ MayWait (c : Thread nD τ) (.dma q) () O :=
  mayWait_stage_lv c q (by dsimp only [lv]; rw [hq]) O hO

/-- At its barrier wait a device owes receive credits only, all above its barrier cell. -/
theorem mayWait_bar (c : Dev nD) :
    (levAts L lv : sProp 𝕄) ⊢ MayWait (c : Thread nD τ) (.reg barS) () (owedFrom c 0) :=
  MayOwe.of_cut (L := L) (lev := lv) 1 (fun p hp => by rw [Finset.mem_singleton.mp hp, L_tc]; exact Finset.mem_singleton_self _)
    (fun g u hg => by obtain ⟨j, _, rfl⟩ := owedFrom_pos hg; exact Finset.mem_singleton_self _)
    (fun p hp => by rw [Finset.mem_singleton.mp hp]; exact le_of_eq (lv_bar c))
    (fun g u hg => by obtain ⟨j, _, rfl⟩ := owedFrom_pos hg; rw [lv_recv]; have := rlv_ge j; omega)

/-- At the receive wait of transfer `j` everything still owed relays a block that has made more hops. -/
theorem mayWait_recv (j : Fin 12) (c : Dev nD) (k : ℕ) (hk : ∀ j' : Fin 12, k ≤ j'.val → rlv j < rlv j') :
    (levAts L lv : sProp 𝕄) ⊢ MayWait (c : Thread nD τ) (.dma (rSem j)) () (owedFrom c k) :=
  MayOwe.of_cut (L := L) (lev := lv) (rlv j) (fun p hp => by rw [Finset.mem_singleton.mp hp, L_tc]; exact Finset.mem_singleton_self _)
    (fun g u hg => by obtain ⟨j', _, rfl⟩ := owedFrom_pos hg; exact Finset.mem_singleton_self _)
    (fun p hp => by rw [Finset.mem_singleton.mp hp]; exact le_of_eq (lv_recv j c))
    (fun g u hg => by obtain ⟨j', hj', rfl⟩ := owedFrom_pos hg; rw [lv_recv]; exact hk j' hj')

theorem owedFrom_bar (d c : Dev nD) (k : ℕ) : owedFrom d k (barCell c) () = 0 := by
  by_contra h
  obtain ⟨j, _, hg⟩ := owedFrom_pos (Nat.pos_of_ne_zero h)
  exact recvCell_ne_barCell j _ c hg.symm

/-- Of `d`'s transfers from `k` on only transfer `j` pays the receive cell of transfer `j` of `c`, and only if `d` is `c`'s neighbour along its axis. -/
theorem owedFrom_recv_aux (j : Fin 12) (d c : Dev nD) :
    ∀ (i k : ℕ), k + i = 12 → owedFrom d k (recvCell j c) () = if k ≤ j.val ∧ d = nbr (tAx j) c then amt j else 0
  | 0, k, hk => by
    obtain rfl : k = 0 + 12 := by omega
    rw [owedFrom_ge, Pi.zero_apply, Finsupp.zero_apply, if_neg (fun h => by have := j.isLt; have := h.1; omega)]
  | i + 1, k, hk => by
    have hk' : k < 12 := by omega
    have hs := owedFrom_step d ⟨k, hk'⟩
    dsimp only at hs
    rw [hs, Pi.add_apply, Finsupp.add_apply, owedFrom_recv_aux j d c i (k + 1) (by omega), tallyAt_apply]
    have hiff : (recvCell j c = recvCell ⟨k, hk'⟩ (tgt ⟨k, hk'⟩ d) ∧ () = ()) ↔ (j.val = k ∧ d = nbr (tAx j) c) := by
      constructor
      · rintro ⟨h, _⟩
        obtain ⟨h1, h2⟩ := recv_eq_iff.mp h
        subst h1
        exact ⟨rfl, by rw [h2]; exact (nbr_nbr _ d).symm⟩
      · rintro ⟨h1, h2⟩
        obtain rfl : j = ⟨k, hk'⟩ := Fin.ext h1
        exact ⟨recv_eq_iff.mpr ⟨rfl, by rw [h2]; exact (nbr_nbr _ c).symm⟩, rfl⟩
    by_cases h1 : j.val = k
    · rw [if_neg (fun h => by have := h.1; omega), Nat.zero_add]
      by_cases h2 : d = nbr (tAx j) c
      · rw [if_pos (hiff.mpr ⟨h1, h2⟩), if_pos ⟨by omega, h2⟩]
        exact congrArg amt (Fin.ext h1.symm)
      · rw [if_neg (fun h => h2 (hiff.mp h).2), if_neg (fun h => h2 h.2)]
    · rw [if_neg (fun h => h1 (hiff.mp h).1), Nat.add_zero]
      by_cases hh : k ≤ j.val ∧ d = nbr (tAx j) c
      · rw [if_pos ⟨by have := hh.1; omega, hh.2⟩, if_pos hh]
      · rw [if_neg (fun h => hh ⟨by have := h.1; omega, h.2⟩), if_neg hh]

/-- What `d` owes `c`'s barrier cell: a unit for each axis along which it is `c`'s neighbour. -/
theorem owed_bar (d c : Dev nD) : O₀ d (barCell c) () =
    (if d = nbr 2 c then 1 else 0) + (if d = nbr 1 c then 1 else 0) + (if d = nbr 0 c then 1 else 0) := by
  unfold O₀ O₁ O₂
  rw [Pi.add_apply, Finsupp.add_apply, Pi.add_apply, Finsupp.add_apply, Pi.add_apply, Finsupp.add_apply, owedFrom_bar, Nat.zero_add,
    tallyAt_apply, tallyAt_apply, tallyAt_apply]
  have key : ∀ a : Fin 3, (barCell c = barCell (nbr a d) ∧ () = ()) ↔ d = nbr a c := fun a =>
    ⟨fun h => by rw [bar_eq_iff.mp h.1]; exact (nbr_nbr a d).symm,
      fun h => ⟨bar_eq_iff.mpr (by rw [h]; exact (nbr_nbr a c).symm), rfl⟩⟩
  rw [if_congr (key 2) rfl rfl, if_congr (key 1) rfl rfl, if_congr (key 0) rfl rfl]

theorem owed_recv (j : Fin 12) (d c : Dev nD) : O₀ d (recvCell j c) () = if d = nbr (tAx j) c then amt j else 0 := by
  unfold O₀ O₁ O₂
  rw [Pi.add_apply, Finsupp.add_apply, Pi.add_apply, Finsupp.add_apply, Pi.add_apply, Finsupp.add_apply,
    tallyAt_ne_cell (recvCell_ne_barCell j c _), tallyAt_ne_cell (recvCell_ne_barCell j c _), tallyAt_ne_cell (recvCell_ne_barCell j c _),
    Finsupp.zero_apply, Nat.add_zero, Nat.add_zero, Nat.add_zero, owedFrom_recv_aux j d c 12 0 rfl]
  by_cases h : d = nbr (tAx j) c
  · rw [if_pos ⟨Nat.zero_le _, h⟩, if_pos h]
  · rw [if_neg (fun hh => h hh.2), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]

theorem launch_recv (j : Fin 12) (c : Dev nD) :
    tallyOn (recvCell j c) (launchCredit (Pipeline.owing O₀) 0 (recvCell j c)) = (tallyAt (recvCell j c) () (amt j) : CellTallies nD τ sig Unit) := by
  unfold tallyAt; refine congrArg _ (Finsupp.ext fun u => ?_); cases u
  rw [Pipeline.launchCredit_owing, Finsupp.single_eq_same, Finset.sum_congr rfl fun d _ => owed_recv j d c,
    Finset.sum_ite_eq' Finset.univ (nbr (tAx j) c) fun _ => amt j, if_pos (Finset.mem_univ _)]

/-- The launch credit of a device's cells: three barrier units and the credit of each of its twelve receive cells. -/
theorem creds (c : Dev nD) :
    (Pipeline.launchCred O₀ c : sProp 𝕄) ⊢ iprop(cred (tallyAt (barCell c) () 3) ∗ bigSep Finset.univ fun j : Fin 12 => cred (tallyAt (recvCell j c) () (amt j))) := by
  unfold Pipeline.launchCred
  rw [bigSep_univ_at _ (SemLoc.reg barS), launch_bar]
  refine sep_mono_right ?_
  let e : Fin 12 ↪ SemLoc sig := ⟨fun j => .dma (rSem j), fun a b h => rSem_injective (SemLoc.dma.inj h)⟩
  refine (bigSep_subset (t := Finset.univ.map e) (fun sm hsm => ?_)).trans ?_
  · obtain ⟨j, _, rfl⟩ := Finset.mem_map.mp hsm
    exact Finset.mem_erase.mpr ⟨recv_ne_bar _ _, Finset.mem_univ _⟩
  · rw [bigSep_map]
    exact bigSep_mono fun j _ => Entails.of_eq (congrArg cred (launch_recv j c))

end Cert.KernelIdeal.AG

end
-- ==== Proof.Launch.lean ====
import proofs.«900494_g7700000000000495_dist_ag_gemm_m2048_k2048_n2048_f32_none_v7x_i8_1_alg».proof.Proof.Setup
import proofs.«900494_g7700000000000495_dist_ag_gemm_m2048_k2048_n2048_f32_none_v7x_i8_1_alg».proof.Proof.Tables

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 25 → SemLoc sig) := by decide
theorem csem_succ : ∀ i : Fin 24, csem i.succ = osem i := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def cubeCells : Finset (GSem nD τ sig) := Finset.univ.map ⟨kcell, kcell_injective⟩

theorem sSem_injective : Function.Injective sSem := by decide
theorem sSem_ne_rSem : ∀ j j' : Fin 12, sSem j ≠ rSem j' := by decide

abbrev TokIx : Type := Fin 3 ⊕ (Fin 12 ⊕ Fin 12)
def tokOf (cj : Dev nD × TokIx) : GSem nD τ sig × ℕ × Fin 3 := match cj.2 with
  | .inl a => (barCell cj.1, 0, a)
  | .inr (.inl j) => (sendCell j cj.1, 0, 0)
  | .inr (.inr j) => (recvCell j cj.1, 0, 0)
theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with a | j | j <;> rcases j' with a' | j' | j' <;> exact this
  subst h1
  have hs := congrArg (fun x : GSem nD τ sig × ℕ × Fin 3 => x.1.2) h
  have hd := congrArg (fun x : GSem nD τ sig × ℕ × Fin 3 => x.2.2) h
  have : j = j' := by
    rcases j with a | j | j <;> rcases j' with a' | j' | j' <;>
      first
        | exact congrArg Sum.inl hd
        | exact congrArg (fun x => Sum.inr (Sum.inl x)) (sSem_injective (SemLoc.dma.inj hs))
        | exact congrArg (fun x => Sum.inr (Sum.inr x)) (rSem_injective (SemLoc.dma.inj hs))
        | exact absurd (SemLoc.dma.inj hs) (sSem_ne_rSem _ _)
        | exact absurd (SemLoc.dma.inj hs).symm (sSem_ne_rSem _ _)
        | exact absurd hs (fun h' => by cases h')
  subst this; rfl
def cubeToks : Finset (GSem nD τ sig × ℕ × Fin 3) := Finset.univ.map ⟨tokOf, tokOf_injective⟩

def u₀ : UU :=
  (initOf (Pipeline.cells cfgs cellOf_inj) (Pipeline.launchToks cfgs cellOf_inj), initOf cubeCells cubeToks)

def toks (c : Dev nD) : sProp 𝕄 :=
  iprop((bigSep Finset.univ fun a : Fin 3 => dutyTok ER (barCell c) 0 a)
    ∗ (bigSep Finset.univ fun j : Fin 12 => dutyTok ER (sendCell j c) 0 (0 : Fin 3))
    ∗ bigSep Finset.univ fun j : Fin 12 => dutyTok ER (recvCell j c) 0 (0 : Fin 3))

def G (c : Dev nD) : sProp 𝕄 :=
  iprop((bigSep Finset.univ fun k : Fin 25 => roundState ER (rd m) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, ghost m K c)

/-- The cube's ghost state funded: every cell's invariant, position and duty tokens. -/
theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Fin 25 => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum, bigSep_univ_sum]; rfl
  iintro HX
  imod (Rounds.fund ER (rd m) cubeCells cubeToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun i : Fin 24 => semVal ((c : Thread nD τ), osem i) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_fin25 (Φ : Fin 25 → sProp 𝕄) : bigSep Finset.univ Φ = iprop(Φ 0 ∗ bigSep Finset.univ fun i : Fin 24 => Φ i.succ) := by
  rw [Fin.univ_succ, Finset.cons_eq_insert, bigSep_insert (by simp [Fin.succ_ne_zero]), bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  have hk : (fun i : Fin 24 => (semVal (kcell (c, i.succ)) 0 : sProp 𝕄)) = fun i : Fin 24 => semVal ((c : Thread nD τ), osem i) 0 :=
    funext fun i => by show semVal ((c : Thread nD τ), csem i.succ) 0 = _; rw [csem_succ]
  rw [ownSems0_eq, unscopedSems0_eq, bigSep_fin25, hk]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (rd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (rd m) (kcell (c, k)) 0)
      ⊢ (|={Set.univ}=> bigSep Finset.univ fun k : Fin 25 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance launch_records_persistent (K : Dev nD × Fin 25 → ℕ) : BI.Persistent (records m K) := by unfold records; infer_instance

theorem ghost_intro (K : Dev nD × Fin 25 → ℕ) (c : Dev nD) : iprop(records m K ∗ linear c) ⊢ G' m c := by
  unfold G' ghost
  iintro H
  iexists K
  iexact H

def nbrE (a : Fin 3) : Dev nD ≃ Dev nD := ⟨nbr a, nbr a, nbr_nbr a, nbr_nbr a⟩

theorem deal_along {I : Type} [Fintype I] (e : I → Fin 3) (Φ : I → Dev nD → sProp 𝕄) :
    (bigSep Finset.univ fun c : Dev nD => bigSep Finset.univ fun i : I => Φ i c)
      = bigSep Finset.univ fun c : Dev nD => bigSep Finset.univ fun i : I => Φ i (nbr (e i) c) :=
  (bigSep_univ_comm (fun (c : Dev nD) (i : I) => Φ i c)).trans
    ((bigSep_congr fun i _ => bigSep_univ_equiv (nbrE (e i)) (fun c : Dev nD => Φ i c)).trans
      (bigSep_univ_comm (fun (i : I) (c : Dev nD) => Φ i (nbr (e i) c))))

theorem toks_around : (bigSep Finset.univ fun c : Dev nD => (toks c : sProp 𝕄)) ⊢ bigSep Finset.univ fun c : Dev nD => payToks c := by
  have hB := deal_along (F := F) (fun a : Fin 3 => a) (fun a c => dutyTok ER (barCell c) 0 a)
  have hR := deal_along (F := F) tAx (fun j c => dutyTok ER (recvCell j c) 0 (0 : Fin 3))
  unfold toks payToks
  simp only [bigSep_sep']
  rw [hB, hR]

/-- The tokens dealt to the devices that pay them. -/
theorem regroup :
    (bigSep Finset.univ fun c : Dev nD => iprop((bigSep Finset.univ fun k : Fin 25 => iprop(∃ κ : ℕ, cellInv ER (rd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (rd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hr, Hz⟩
  isplitr; · iempintro
  isplitl [Hz]; · iexact Hz
  iexists (commFinal m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- The run: every device's body obligation launched; the arguments end unchanged and the result at `outAt`. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.AG

end
-- ==== Proof.Mesh.lean ====
import proofs.«900494_g7700000000000495_dist_ag_gemm_m2048_k2048_n2048_f32_none_v7x_i8_1_alg».proof.Proof.Setup

noncomputable section

namespace Cert.KernelIdeal.AG

open Cert.KernelIdeal Cert.KernelIdeal.Gen
open Idealize.ShloMosaic Idealize.ShloMosaic.TcCoe Idealize.SL.Sem

/-- The device numbers and row offsets the body computes are the cube's neighbours and the blocks' first rows. -/
theorem dev1_val : ∀ c : Dev nD, k0_dev1 c = (nbr 0 c).val := by decide +kernel
theorem dev1_eq (c : Dev nD) : (⟨k0_dev1 c, k0_dev1_lt c⟩ : Dev nD) = nbr 0 c := Fin.ext (dev1_val c)
theorem dev2_val : ∀ c : Dev nD, k0_dev2 c = (nbr 1 c).val := by decide +kernel
theorem dev2_eq (c : Dev nD) : (⟨k0_dev2 c, k0_dev2_lt c⟩ : Dev nD) = nbr 1 c := Fin.ext (dev2_val c)
theorem dev3_val : ∀ c : Dev nD, k0_dev3 c = (nbr 2 c).val := by decide +kernel
theorem dev3_eq (c : Dev nD) : (⟨k0_dev3 c, k0_dev3_lt c⟩ : Dev nD) = nbr 2 c := Fin.ext (dev3_val c)
theorem dev4_val : ∀ c : Dev nD, k0_dev4 c = (tgt 0 c).val := by decide +kernel
theorem dev4_eq (c : Dev nD) : (⟨k0_dev4 c, k0_dev4_lt c⟩ : Dev nD) = tgt 0 c := Fin.ext (dev4_val c)
theorem dev5_val : ∀ c : Dev nD, k0_dev5 c = (tgt 1 c).val := by decide +kernel
theorem dev5_eq (c : Dev nD) : (⟨k0_dev5 c, k0_dev5_lt c⟩ : Dev nD) = tgt 1 c := Fin.ext (dev5_val c)
theorem dev6_val : ∀ c : Dev nD, k0_dev6 c = (tgt 2 c).val := by decide +kernel
theorem dev6_eq (c : Dev nD) : (⟨k0_dev6 c, k0_dev6_lt c⟩ : Dev nD) = tgt 2 c := Fin.ext (dev6_val c)
theorem dev7_val : ∀ c : Dev nD, k0_dev7 c = (tgt 3 c).val := by decide +kernel
theorem dev7_eq (c : Dev nD) : (⟨k0_dev7 c, k0_dev7_lt c⟩ : Dev nD) = tgt 3 c := Fin.ext (dev7_val c)
theorem dev8_val : ∀ c : Dev nD, k0_dev8 c = (tgt 4 c).val := by decide +kernel
theorem dev8_eq (c : Dev nD) : (⟨k0_dev8 c, k0_dev8_lt c⟩ : Dev nD) = tgt 4 c := Fin.ext (dev8_val c)
theorem dev9_val : ∀ c : Dev nD, k0_dev9 c = (tgt 5 c).val := by decide +kernel
theorem dev9_eq (c : Dev nD) : (⟨k0_dev9 c, k0_dev9_lt c⟩ : Dev nD) = tgt 5 c := Fin.ext (dev9_val c)
theorem dev10_val : ∀ c : Dev nD, k0_dev10 c = (tgt 6 c).val := by decide +kernel
theorem dev10_eq (c : Dev nD) : (⟨k0_dev10 c, k0_dev10_lt c⟩ : Dev nD) = tgt 6 c := Fin.ext (dev10_val c)
theorem dev11_val : ∀ c : Dev nD, k0_dev11 c = (tgt 7 c).val := by decide +kernel
theorem dev11_eq (c : Dev nD) : (⟨k0_dev11 c, k0_dev11_lt c⟩ : Dev nD) = tgt 7 c := Fin.ext (dev11_val c)
theorem dev12_val : ∀ c : Dev nD, k0_dev12 c = (tgt 8 c).val := by decide +kernel
theorem dev12_eq (c : Dev nD) : (⟨k0_dev12 c, k0_dev12_lt c⟩ : Dev nD) = tgt 8 c := Fin.ext (dev12_val c)
theorem dev13_val : ∀ c : Dev nD, k0_dev13 c = (tgt 9 c).val := by decide +kernel
theorem dev13_eq (c : Dev nD) : (⟨k0_dev13 c, k0_dev13_lt c⟩ : Dev nD) = tgt 9 c := Fin.ext (dev13_val c)
theorem dev14_val : ∀ c : Dev nD, k0_dev14 c = (tgt 10 c).val := by decide +kernel
theorem dev14_eq (c : Dev nD) : (⟨k0_dev14 c, k0_dev14_lt c⟩ : Dev nD) = tgt 10 c := Fin.ext (dev14_val c)
theorem dev15_val : ∀ c : Dev nD, k0_dev15 c = (tgt 11 c).val := by decide +kernel
theorem dev15_eq (c : Dev nD) : (⟨k0_dev15 c, k0_dev15_lt c⟩ : Dev nD) = tgt 11 c := Fin.ext (dev15_val c)

theorem off1_eq : ∀ c : Dev nD, k0_off1 c = ![256 * c.val, 0] := k0_off1_eq
theorem off2_eq : ∀ c : Dev nD, k0_off2 c = ![256 * (og 0 c).val, 0] := by decide +kernel
theorem off3_eq : ∀ c : Dev nD, k0_off3 c = ![256 * (og 1 c).val, 0] := by decide +kernel
theorem off4_eq : ∀ c : Dev nD, k0_off4 c = ![256 * (og 2 c).val, 0] := by decide +kernel
theorem off5_eq : ∀ c : Dev nD, k0_off5 c = ![256 * (og 3 c).val, 0] := by decide +kernel
theorem off6_eq : ∀ c : Dev nD, k0_off6 c = ![256 * (og 4 c).val, 0] := by decide +kernel
theorem off7_eq : ∀ c : Dev nD, k0_off7 c = ![256 * (og 5 c).val, 0] := by decide +kernel
theorem off8_eq : ∀ c : Dev nD, k0_off8 c = ![256 * (og 6 c).val, 0] := by decide +kernel

end Cert.KernelIdeal.AG

end
-- ==== Proof.Regions.lean ====
import proofs.«900494_g7700000000000495_dist_ag_gemm_m2048_k2048_n2048_f32_none_v7x_i8_1_alg».proof.Proof.Setup
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Rows `lo ..< lo + n` of slot `s`, as a set of indices of the scratch buffer. -/
theorem mem_unit_rows {n : ℕ} {sz : Fin 3 → ℕ} (hsz : sz = ![1, n, 2048]) {s lo : ℕ}
    {h : ∀ a, (![s, lo, 0] : Fin 3 → Nat) a + sz a ≤ S7x256x2048.size a} {i : S7x256x2048.Idx} :
    i ∈ (Rect.unit (s := S7x256x2048) ![s, lo, 0] sz h).set ↔ (i 0).val = s ∧ lo ≤ (i 1).val ∧ (i 1).val < lo + n := by
  subst hsz
  rw [Rect.mem_set_unit]
  have h2 : (i 2).val < 2048 := (i 2).isLt
  constructor
  · intro H
    have H0 : s ≤ (i 0).val ∧ (i 0).val < s + 1 := H (0 : Fin 3)
    have H1 : lo ≤ (i 1).val ∧ (i 1).val < lo + n := H (1 : Fin 3)
    omega
  · rintro ⟨e0, e1, e2⟩ a
    fin_cases a
    · show s ≤ (i 0).val ∧ (i 0).val < s + 1; omega
    · show lo ≤ (i 1).val ∧ (i 1).val < lo + n; omega
    · show 0 ≤ (i 2).val ∧ (i 2).val < 0 + 2048; omega

theorem set_sl {n s lo : ℕ} {h hq} :
    (sl n s lo h hq).view.set = (Rect.unit (s := S7x256x2048) ![s, lo, 0] ![1, n, 2048] h).set :=
  (View.set_reshape _ _).trans (View.set_slice_whole _ _)

theorem mem_sl {n s lo : ℕ} {h hq} {i : S7x256x2048.Idx} :
    i ∈ (sl n s lo h hq).view.set ↔ (i 0).val = s ∧ lo ≤ (i 1).val ∧ (i 1).val < lo + n := by
  rw [set_sl]; exact mem_unit_rows rfl

/-- A load of slot `s` reads exactly the slot's elements. -/
theorem load_set_eq {s : ℕ} {h : ∀ a, (![s, 0, 0] : Fin 3 → Nat) a + S1x256x2048.size a ≤ S7x256x2048.size a} :
    (cM : Memref sig .tc .vmem S7x256x2048 .f32).view.setOn (Rect.unit (s := S7x256x2048) ![s, 0, 0] S1x256x2048.size h).toLoadRect.set
      = (sl256 s 0 h : Memref sig .tc .vmem S256x2048 .f32).view.set := by
  rw [set_sl]
  exact Finset.map_refl

/-- The points-to laws (union, carving out a subset, halving a share) as equations. -/
theorem pt_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩
theorem pt_carve {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩
theorem pt_halves {ℓ : Loc nD τ sig} {I : Finset (Idx ℓ)} (q : PosShare TreeShare) {f : Buf (Elt F) ℓ} :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

theorem dstP_eq (j : Fin 12) (c : Dev nD) (f : Buf (Elt F) ((c : Thread nD τ).loc cc0_scratch0)) :
    (dstP j c f : sProp 𝕄) = (((c : Thread nD τ).loc cc0_scratch0) ↦[dstSet j]{fullShare} f) := by
  fin_cases j <;> rfl

theorem mem_dst0 {i : S7x256x2048.Idx} : i ∈ dstSet 0 ↔ (i 0).val = 0 ∧ 0 ≤ (i 1).val ∧ (i 1).val < 0 + 256 := mem_sl (n := 256) (s := 0) (lo := 0) (h := by decide) (hq := by decide)
theorem mem_dst1 {i : S7x256x2048.Idx} : i ∈ dstSet 1 ↔ (i 0).val = 1 ∧ 0 ≤ (i 1).val ∧ (i 1).val < 0 + 256 := mem_sl (n := 256) (s := 1) (lo := 0) (h := by decide) (hq := by decide)
theorem mem_dst2 {i : S7x256x2048.Idx} : i ∈ dstSet 2 ↔ (i 0).val = 2 ∧ 0 ≤ (i 1).val ∧ (i 1).val < 0 + 256 := mem_sl (n := 256) (s := 2) (lo := 0) (h := by decide) (hq := by decide)
theorem mem_dst3 {i : S7x256x2048.Idx} : i ∈ dstSet 3 ↔ (i 0).val = 3 ∧ 0 ≤ (i 1).val ∧ (i 1).val < 0 + 128 := mem_sl (n := 128) (s := 3) (lo := 0) (h := by decide) (hq := by decide)
theorem mem_dst4 {i : S7x256x2048.Idx} : i ∈ dstSet 4 ↔ (i 0).val = 4 ∧ 0 ≤ (i 1).val ∧ (i 1).val < 0 + 128 := mem_sl (n := 128) (s := 4) (lo := 0) (h := by decide) (hq := by decide)
theorem mem_dst5 {i : S7x256x2048.Idx} : i ∈ dstSet 5 ↔ (i 0).val = 3 ∧ 128 ≤ (i 1).val ∧ (i 1).val < 128 + 128 := mem_sl (n := 128) (s := 3) (lo := 128) (h := by decide) (hq := by decide)
theorem mem_dst6 {i : S7x256x2048.Idx} : i ∈ dstSet 6 ↔ (i 0).val = 5 ∧ 0 ≤ (i 1).val ∧ (i 1).val < 0 + 128 := mem_sl (n := 128) (s := 5) (lo := 0) (h := by decide) (hq := by decide)
theorem mem_dst7 {i : S7x256x2048.Idx} : i ∈ dstSet 7 ↔ (i 0).val = 4 ∧ 128 ≤ (i 1).val ∧ (i 1).val < 128 + 128 := mem_sl (n := 128) (s := 4) (lo := 128) (h := by decide) (hq := by decide)
theorem mem_dst8 {i : S7x256x2048.Idx} : i ∈ dstSet 8 ↔ (i 0).val = 5 ∧ 128 ≤ (i 1).val ∧ (i 1).val < 128 + 128 := mem_sl (n := 128) (s := 5) (lo := 128) (h := by decide) (hq := by decide)
theorem mem_dst9 {i : S7x256x2048.Idx} : i ∈ dstSet 9 ↔ (i 0).val = 6 ∧ 176 ≤ (i 1).val ∧ (i 1).val < 176 + 80 := mem_sl (n := 80) (s := 6) (lo := 176) (h := by decide) (hq := by decide)
theorem mem_dst10 {i : S7x256x2048.Idx} : i ∈ dstSet 10 ↔ (i 0).val = 6 ∧ 88 ≤ (i 1).val ∧ (i 1).val < 88 + 88 := mem_sl (n := 88) (s := 6) (lo := 88) (h := by decide) (hq := by decide)
theorem mem_dst11 {i : S7x256x2048.Idx} : i ∈ dstSet 11 ↔ (i 0).val = 6 ∧ 0 ≤ (i 1).val ∧ (i 1).val < 0 + 88 := mem_sl (n := 88) (s := 6) (lo := 0) (h := by decide) (hq := by decide)

/-- The twelve written sets partition the scratch buffer. -/
theorem dst_cover : (Finset.univ : Finset S7x256x2048.Idx) = dstSet 0 ∪ (dstSet 1 ∪ (dstSet 2 ∪ (dstSet 3 ∪ (dstSet 4 ∪ (dstSet 5 ∪ (dstSet 6 ∪ (dstSet 7 ∪ (dstSet 8 ∪ (dstSet 9 ∪ (dstSet 10 ∪ (dstSet 11))))))))))) := by
  ext i
  have h0 : (i 0).val < 7 := (i 0).isLt
  have h1 : (i 1).val < 256 := (i 1).isLt
  simp only [mem_dst0, mem_dst1, mem_dst2, mem_dst3, mem_dst4, mem_dst5, mem_dst6, mem_dst7, mem_dst8, mem_dst9, mem_dst10, mem_dst11, Finset.mem_union, Finset.mem_univ, true_iff]
  omega

theorem dst_disj0 : Disjoint (dstSet 0) (dstSet 1 ∪ (dstSet 2 ∪ (dstSet 3 ∪ (dstSet 4 ∪ (dstSet 5 ∪ (dstSet 6 ∪ (dstSet 7 ∪ (dstSet 8 ∪ (dstSet 9 ∪ (dstSet 10 ∪ (dstSet 11))))))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj1 : Disjoint (dstSet 1) (dstSet 2 ∪ (dstSet 3 ∪ (dstSet 4 ∪ (dstSet 5 ∪ (dstSet 6 ∪ (dstSet 7 ∪ (dstSet 8 ∪ (dstSet 9 ∪ (dstSet 10 ∪ (dstSet 11)))))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj2 : Disjoint (dstSet 2) (dstSet 3 ∪ (dstSet 4 ∪ (dstSet 5 ∪ (dstSet 6 ∪ (dstSet 7 ∪ (dstSet 8 ∪ (dstSet 9 ∪ (dstSet 10 ∪ (dstSet 11))))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj3 : Disjoint (dstSet 3) (dstSet 4 ∪ (dstSet 5 ∪ (dstSet 6 ∪ (dstSet 7 ∪ (dstSet 8 ∪ (dstSet 9 ∪ (dstSet 10 ∪ (dstSet 11)))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj4 : Disjoint (dstSet 4) (dstSet 5 ∪ (dstSet 6 ∪ (dstSet 7 ∪ (dstSet 8 ∪ (dstSet 9 ∪ (dstSet 10 ∪ (dstSet 11))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj5 : Disjoint (dstSet 5) (dstSet 6 ∪ (dstSet 7 ∪ (dstSet 8 ∪ (dstSet 9 ∪ (dstSet 10 ∪ (dstSet 11)))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj6 : Disjoint (dstSet 6) (dstSet 7 ∪ (dstSet 8 ∪ (dstSet 9 ∪ (dstSet 10 ∪ (dstSet 11))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj7 : Disjoint (dstSet 7) (dstSet 8 ∪ (dstSet 9 ∪ (dstSet 10 ∪ (dstSet 11)))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj8 : Disjoint (dstSet 8) (dstSet 9 ∪ (dstSet 10 ∪ (dstSet 11))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj9 : Disjoint (dstSet 9) (dstSet 10 ∪ (dstSet 11)) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj10 : Disjoint (dstSet 10) (dstSet 11) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega

theorem scratch_split_eq (c : Dev nD) (f : Buf (Elt F) ((c : Thread nD τ).loc cc0_scratch0)) :
    ((((c : Thread nD τ).loc cc0_scratch0) ↦{fullShare} f) : sProp 𝕄)
      = iprop(dstP 0 c f ∗ dstP 1 c f ∗ dstP 2 c f ∗ dstP 3 c f ∗ dstP 4 c f ∗ dstP 5 c f ∗ dstP 6 c f ∗ dstP 7 c f ∗ dstP 8 c f ∗ dstP 9 c f ∗ dstP 10 c f ∗ dstP 11 c f) := by
  simp only [dstP_eq]
  refine (congrArg (fun S => ((((c : Thread nD τ).loc cc0_scratch0) ↦[S]{fullShare} f) : sProp 𝕄)) dst_cover).trans ?_
  show ((((c : Thread nD τ).loc cc0_scratch0) ↦[dstSet 0 ∪ (dstSet 1 ∪ (dstSet 2 ∪ (dstSet 3 ∪ (dstSet 4 ∪ (dstSet 5 ∪ (dstSet 6 ∪ (dstSet 7 ∪ (dstSet 8 ∪ (dstSet 9 ∪ (dstSet 10 ∪ (dstSet 11)))))))))))]{fullShare} f) : sProp 𝕄) = _
  rw [pt_union dst_disj0, pt_union dst_disj1, pt_union dst_disj2, pt_union dst_disj3, pt_union dst_disj4, pt_union dst_disj5,
    pt_union dst_disj6, pt_union dst_disj7, pt_union dst_disj8, pt_union dst_disj9, pt_union dst_disj10]

/-- The whole scratch buffer is the twelve parts the transfers write. -/
theorem scratch_split (c : Dev nD) (f : Buf (Elt F) ((c : Thread nD τ).loc cc0_scratch0)) :
    ((((c : Thread nD τ).loc cc0_scratch0) ↦{fullShare} f) : sProp 𝕄)
      ⊣⊢ iprop(dstP 0 c f ∗ dstP 1 c f ∗ dstP 2 c f ∗ dstP 3 c f ∗ dstP 4 c f ∗ dstP 5 c f ∗ dstP 6 c f ∗ dstP 7 c f ∗ dstP 8 c f ∗ dstP 9 c f ∗ dstP 10 c f ∗ dstP 11 c f) :=
  BiEntails.of_eq (scratch_split_eq c f)

theorem scratch_split_ex (c : Dev nD) :
    (iprop(∃ f, (((c : Thread nD τ).loc cc0_scratch0) ↦{fullShare} f)) : sProp 𝕄)
      ⊢ iprop((∃ f, dstP 0 c f) ∗ (∃ f, dstP 1 c f) ∗ (∃ f, dstP 2 c f) ∗ (∃ f, dstP 3 c f) ∗ (∃ f, dstP 4 c f) ∗ (∃ f, dstP 5 c f) ∗ (∃ f, dstP 6 c f) ∗ (∃ f, dstP 7 c f) ∗ (∃ f, dstP 8 c f) ∗ (∃ f, dstP 9 c f) ∗ (∃ f, dstP 10 c f) ∗ (∃ f, dstP 11 c f)) := by
  iintro ⟨%f, H⟩
  ihave H := (scratch_split c f).1 $$ H
  icases H with ⟨H0, H1, H2, H3, H4, H5, H6, H7, H8, H9, H10, H11⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  isplitl [H9]; · iexists f; iexact H9
  isplitl [H10]; · iexists f; iexact H10
  iexists f; iexact H11

theorem xM_set : (xM : Memref sig .tc .vmem S256x2048 .f32).view.set = Finset.univ := View.set_whole _

/-- The share of the own block of `x` kept for loading it; `x_split` deals the other three to the one-hop sends. -/
def xLd (m : (ℓ : Loc nD τ sig) → Buf (Elt F) ℓ) (c : Dev nD) : sProp 𝕄 :=
  (xM : Memref sig .tc .vmem S256x2048 .f32).view.loc (c : Thread nD τ) ↦[(xM : Memref sig .tc .vmem S256x2048 .f32).view.set]{qRRR} xstg m c

theorem x_split (m : (ℓ : Loc nD τ sig) → Buf (Elt F) ℓ) (c : Dev nD) :
    (((xM : Memref sig .tc .vmem S256x2048 .f32).view.loc (c : Thread nD τ) ↦[(xM : Memref sig .tc .vmem S256x2048 .f32).view.set]{fullShare} xstg m c) : sProp 𝕄)
      ⊣⊢ iprop(srcP m 0 c ∗ srcP m 1 c ∗ srcP m 2 c ∗ xLd m c) := by
  refine BiEntails.of_eq ?_
  rw [pt_halves fullShare, pt_halves fullShare.right, pt_halves fullShare.right.right]
  rfl

theorem sub_sl {n s lo : ℕ} {h hq h'} (hlo : lo + n ≤ 256) :
    (sl n s lo h hq).view.set ⊆ (sl256 s 0 h').view.set := by
  intro i hi; rw [mem_sl] at hi ⊢; omega

/-- Set algebra of the halves and thirds of one slot. -/
theorem halves_union {s : ℕ} {h₀ h₁ h} :
    (sl128 s 0 h₀ : Memref sig .tc .vmem S128x2048 .f32).view.set ∪ (sl128 s 128 h₁ : Memref sig .tc .vmem S128x2048 .f32).view.set
      = (sl256 s 0 h : Memref sig .tc .vmem S256x2048 .f32).view.set := by
  ext i; rw [Finset.mem_union, mem_sl, mem_sl, mem_sl]; omega
theorem halves_disj {s : ℕ} {h₀ h₁} :
    Disjoint (sl128 s 0 h₀ : Memref sig .tc .vmem S128x2048 .f32).view.set (sl128 s 128 h₁ : Memref sig .tc .vmem S128x2048 .f32).view.set := by
  rw [Finset.disjoint_left]; intro i hi hj; rw [mem_sl] at hi hj; omega
theorem sdiff_upper {s : ℕ} {h₀ h₁ h} :
    (sl256 s 0 h : Memref sig .tc .vmem S256x2048 .f32).view.set \ (sl128 s 128 h₁ : Memref sig .tc .vmem S128x2048 .f32).view.set
      = (sl128 s 0 h₀ : Memref sig .tc .vmem S128x2048 .f32).view.set := by
  ext i; rw [Finset.mem_sdiff, mem_sl, mem_sl, mem_sl]; omega
theorem thirds_union {s : ℕ} {h₀ h₁ h₂ h} :
    (sl80 s 176 h₂ : Memref sig .tc .vmem S80x2048 .f32).view.set ∪ ((sl88 s 88 h₁ : Memref sig .tc .vmem S88x2048 .f32).view.set ∪ (sl88 s 0 h₀ : Memref sig .tc .vmem S88x2048 .f32).view.set)
      = (sl256 s 0 h : Memref sig .tc .vmem S256x2048 .f32).view.set := by
  ext i; rw [Finset.mem_union, Finset.mem_union, mem_sl, mem_sl, mem_sl, mem_sl]; omega
theorem thirds_disj₁ {s : ℕ} {h₀ h₁ h₂} :
    Disjoint (sl80 s 176 h₂ : Memref sig .tc .vmem S80x2048 .f32).view.set ((sl88 s 88 h₁ : Memref sig .tc .vmem S88x2048 .f32).view.set ∪ (sl88 s 0 h₀ : Memref sig .tc .vmem S88x2048 .f32).view.set) := by
  rw [Finset.disjoint_left]; intro i hi hj; rw [Finset.mem_union, mem_sl, mem_sl] at hj; rw [mem_sl] at hi; omega
theorem thirds_disj₂ {s : ℕ} {h₀ h₁} :
    Disjoint (sl88 s 88 h₁ : Memref sig .tc .vmem S88x2048 .f32).view.set (sl88 s 0 h₀ : Memref sig .tc .vmem S88x2048 .f32).view.set := by
  rw [Finset.disjoint_left]; intro i hi hj; rw [mem_sl] at hi hj; omega

theorem sepC (P Q : sProp 𝕄) : iprop(P ∗ Q) = iprop(Q ∗ P) :=
  BI.equiv_iff.mp ⟨(Laws.sep_comm (P := P) (Q := Q)).1, (Laws.sep_comm (P := P) (Q := Q)).2⟩
theorem sepA (P Q R : sProp 𝕄) : iprop((P ∗ Q) ∗ R) = iprop(P ∗ Q ∗ R) :=
  BI.equiv_iff.mp ⟨(Laws.sep_assoc (P := P) (Q := Q) (R := R)).1, (Laws.sep_assoc (P := P) (Q := Q) (R := R)).2⟩
instance sepCommI : Std.Commutative (α := sProp 𝕄) (fun P Q => iprop(P ∗ Q)) := ⟨sepC⟩
instance sepAssocI : Std.Associative (α := sProp 𝕄) (fun P Q => iprop(P ∗ Q)) := ⟨sepA⟩

/-- Slot `s` whole, at its final contents, at the share kept for loading it. -/
def ldP (m : (ℓ : Loc nD τ sig) → Buf (Elt F) ℓ) (s : Fin 7) (c : Dev nD) : sProp 𝕄 :=
  match s with
  | 0 => (((c : Thread nD τ).loc cc0_scratch0) ↦[(sl256 0 0 inb_S7x256x2048_S1x256x2048_0_0_0 : Memref sig .tc .vmem S256x2048 .f32).view.set]{qRR} commFinal m c)
  | 1 => (((c : Thread nD τ).loc cc0_scratch0) ↦[(sl256 1 0 inb_S7x256x2048_S1x256x2048_1_0_0 : Memref sig .tc .vmem S256x2048 .f32).view.set]{qR} commFinal m c)
  | 2 => (((c : Thread nD τ).loc cc0_scratch0) ↦[(sl256 2 0 inb_S7x256x2048_S1x256x2048_2_0_0 : Memref sig .tc .vmem S256x2048 .f32).view.set]{qRR} commFinal m c)
  | 3 => (((c : Thread nD τ).loc cc0_scratch0) ↦[(sl256 3 0 inb_S7x256x2048_S1x256x2048_3_0_0 : Memref sig .tc .vmem S256x2048 .f32).view.set]{qR} commFinal m c)
  | 4 => (((c : Thread nD τ).loc cc0_scratch0) ↦[(sl256 4 0 inb_S7x256x2048_S1x256x2048_4_0_0 : Memref sig .tc .vmem S256x2048 .f32).view.set]{qR} commFinal m c)
  | 5 => (((c : Thread nD τ).loc cc0_scratch0) ↦[(sl256 5 0 inb_S7x256x2048_S1x256x2048_5_0_0 : Memref sig .tc .vmem S256x2048 .f32).view.set]{qR} commFinal m c)
  | 6 => (((c : Thread nD τ).loc cc0_scratch0) ↦[(sl256 6 0 inb_S7x256x2048_S1x256x2048_6_0_0 : Memref sig .tc .vmem S256x2048 .f32).view.set]{fullShare} commFinal m c)

/-- What of a slot neither a relay nor the load uses (`junk0` … `junk5`). -/
def junk0 (m : (ℓ : Loc nD τ sig) → Buf (Elt F) ℓ) (c : Dev nD) : sProp 𝕄 :=
  iprop((((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qL} commFinal m c) ∗ (((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qRL} commFinal m c))
def junk2 (m : (ℓ : Loc nD τ sig) → Buf (Elt F) ℓ) (c : Dev nD) : sProp 𝕄 :=
  iprop((((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qL} commFinal m c) ∗ (((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qRL} commFinal m c))
def junk3 (m : (ℓ : Loc nD τ sig) → Buf (Elt F) ℓ) (c : Dev nD) : sProp 𝕄 := (((c : Thread nD τ).loc cc0_scratch0) ↦[(sl256 3 0 inb_S7x256x2048_S1x256x2048_3_0_0 : Memref sig .tc .vmem S256x2048 .f32).view.set \ (sl80 3 176 inb_S7x256x2048_S1x80x2048_3_176_0 : Memref sig .tc .vmem S80x2048 .f32).view.set]{qL} commFinal m c)
def junk4 (m : (ℓ : Loc nD τ sig) → Buf (Elt F) ℓ) (c : Dev nD) : sProp 𝕄 := (((c : Thread nD τ).loc cc0_scratch0) ↦[(sl256 4 0 inb_S7x256x2048_S1x256x2048_4_0_0 : Memref sig .tc .vmem S256x2048 .f32).view.set \ (sl88 4 88 inb_S7x256x2048_S1x88x2048_4_88_0 : Memref sig .tc .vmem S88x2048 .f32).view.set]{qL} commFinal m c)
def junk5 (m : (ℓ : Loc nD τ sig) → Buf (Elt F) ℓ) (c : Dev nD) : sProp 𝕄 := (((c : Thread nD τ).loc cc0_scratch0) ↦[(sl256 5 0 inb_S7x256x2048_S1x256x2048_5_0_0 : Memref sig .tc .vmem S256x2048 .f32).view.set \ (sl88 5 0 inb_S7x256x2048_S1x88x2048_5_0_0 : Memref sig .tc .vmem S88x2048 .f32).view.set]{qL} commFinal m c)

/-- What a slot's receive waits hand over, regrouped into what its relays and its load need (`slot0` … `slot6`). -/
theorem slot0 (m : (ℓ : Loc nD τ sig) → Buf (Elt F) ℓ) (c : Dev nD) :
    (recvPay m 0 c : sProp 𝕄) ⊣⊢ iprop(srcP m 3 c ∗ srcP m 4 c ∗ ldP m 0 c ∗ junk0 m c) := by
  refine BiEntails.of_eq ?_
  show (((c : Thread nD τ).loc cc0_scratch0) ↦[(sl256 0 0 inb_S7x256x2048_S1x256x2048_0_0_0 : Memref sig .tc .vmem S256x2048 .f32).view.set]{fullShare} commFinal m c)
    = iprop((((c : Thread nD τ).loc cc0_scratch0) ↦[(sl128 0 0 inb_S7x256x2048_S1x128x2048_0_0_0 : Memref sig .tc .vmem S128x2048 .f32).view.set]{qL} commFinal m c) ∗ (((c : Thread nD τ).loc cc0_scratch0) ↦[(sl128 0 0 inb_S7x256x2048_S1x128x2048_0_0_0 : Memref sig .tc .vmem S128x2048 .f32).view.set]{qRL} commFinal m c) ∗ (((c : Thread nD τ).loc cc0_scratch0) ↦[(sl256 0 0 inb_S7x256x2048_S1x256x2048_0_0_0 : Memref sig .tc .vmem S256x2048 .f32).view.set]{qRR} commFinal m c)
        ∗ ((((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qL} commFinal m c) ∗ (((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qRL} commFinal m c)))
  rw [pt_halves fullShare, pt_halves fullShare.right,
    pt_carve (ℓ := ((c : Thread nD τ).loc cc0_scratch0)) (I := (sl128 0 0 inb_S7x256x2048_S1x128x2048_0_0_0 : Memref sig .tc .vmem S128x2048 .f32).view.set) (S := (sl256 0 0 inb_S7x256x2048_S1x256x2048_0_0_0 : Memref sig .tc .vmem S256x2048 .f32).view.set) (q := fullShare.left) (f := commFinal m c) (sub_sl (by decide)),
    pt_carve (ℓ := ((c : Thread nD τ).loc cc0_scratch0)) (I := (sl128 0 0 inb_S7x256x2048_S1x128x2048_0_0_0 : Memref sig .tc .vmem S128x2048 .f32).view.set) (S := (sl256 0 0 inb_S7x256x2048_S1x256x2048_0_0_0 : Memref sig .tc .vmem S256x2048 .f32).view.set) (q := fullShare.right.left) (f := commFinal m c) (sub_sl (by decide))]
  ac_rfl

theorem slot2 (m : (ℓ : Loc nD τ sig) → Buf (Elt F) ℓ) (c : Dev nD) :
    (recvPay m 2 c : sProp 𝕄) ⊣⊢ iprop(srcP m 7 c ∗ srcP m 8 c ∗ ldP m 2 c ∗ junk2 m c) := by
  refine BiEntails.of_eq ?_
  show (((c : Thread nD τ).loc cc0_scratch0) ↦[(sl256 2 0 inb_S7x256x2048_S1x256x2048_2_0_0 : Memref sig .tc .vmem S256x2048 .f32).view.set]{fullShare} commFinal m c)
    = iprop((((c : Thread nD τ).loc cc0_scratch0) ↦[(sl128 2 128 inb_S7x256x2048_S1x128x2048_2_128_0 : Memref sig .tc .vmem S128x2048 .f32).view.set]{qL} commFinal m c) ∗ (((c : Thread nD τ).loc cc0_scratch0) ↦[(sl128 2 128 inb_S7x256x2048_S1x128x2048_2_128_0 : Memref sig .tc .vmem S128x2048 .f32).view.set]{qRL} commFinal m c) ∗ (((c : Thread nD τ).loc cc0_scratch0) ↦[(sl256 2 0 inb_S7x256x2048_S1x256x2048_2_0_0 : Memref sig .tc .vmem S256x2048 .f32).view.set]{qRR} commFinal m c)
        ∗ ((((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qL} commFinal m c) ∗ (((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qRL} commFinal m c)))
  rw [pt_halves fullShare, pt_halves fullShare.right,
    pt_carve (ℓ := ((c : Thread nD τ).loc cc0_scratch0)) (I := (sl128 2 128 inb_S7x256x2048_S1x128x2048_2_128_0 : Memref sig .tc .vmem S128x2048 .f32).view.set) (S := (sl256 2 0 inb_S7x256x2048_S1x256x2048_2_0_0 : Memref sig .tc .vmem S256x2048 .f32).view.set) (q := fullShare.left) (f := commFinal m c) (sub_sl (by decide)),
    pt_carve (ℓ := ((c : Thread nD τ).loc cc0_scratch0)) (I := (sl128 2 128 inb_S7x256x2048_S1x128x2048_2_128_0 : Memref sig .tc .vmem S128x2048 .f32).view.set) (S := (sl256 2 0 inb_S7x256x2048_S1x256x2048_2_0_0 : Memref sig .tc .vmem S256x2048 .f32).view.set) (q := fullShare.right.left) (f := commFinal m c) (sub_sl (by decide))]
  ac_rfl

theorem slot1 (m : (ℓ : Loc nD τ sig) → Buf (Elt F) ℓ) (c : Dev nD) :
    (recvPay m 1 c : sProp 𝕄) ⊣⊢ iprop(srcP m 5 c ∗ srcP m 6 c ∗ ldP m 1 c) := by
  refine BiEntails.of_eq ?_
  show (((c : Thread nD τ).loc cc0_scratch0) ↦[(sl256 1 0 inb_S7x256x2048_S1x256x2048_1_0_0 : Memref sig .tc .vmem S256x2048 .f32).view.set]{fullShare} commFinal m c)
    = iprop((((c : Thread nD τ).loc cc0_scratch0) ↦[(sl128 1 128 inb_S7x256x2048_S1x128x2048_1_128_0 : Memref sig .tc .vmem S128x2048 .f32).view.set]{qL} commFinal m c) ∗ (((c : Thread nD τ).loc cc0_scratch0) ↦[(sl128 1 0 inb_S7x256x2048_S1x128x2048_1_0_0 : Memref sig .tc .vmem S128x2048 .f32).view.set]{qL} commFinal m c) ∗ (((c : Thread nD τ).loc cc0_scratch0) ↦[(sl256 1 0 inb_S7x256x2048_S1x256x2048_1_0_0 : Memref sig .tc .vmem S256x2048 .f32).view.set]{qR} commFinal m c))
  rw [pt_halves fullShare, pt_carve (ℓ := ((c : Thread nD τ).loc cc0_scratch0)) (I := (sl128 1 128 inb_S7x256x2048_S1x128x2048_1_128_0 : Memref sig .tc .vmem S128x2048 .f32).view.set) (S := (sl256 1 0 inb_S7x256x2048_S1x256x2048_1_0_0 : Memref sig .tc .vmem S256x2048 .f32).view.set) (q := fullShare.left) (f := commFinal m c) (sub_sl (by decide)), sdiff_upper (h₀ := inb_S7x256x2048_S1x128x2048_1_0_0)]
  ac_rfl

theorem slot3 (m : (ℓ : Loc nD τ sig) → Buf (Elt F) ℓ) (c : Dev nD) :
    (iprop(recvPay m 3 c ∗ recvPay m 5 c) : sProp 𝕄) ⊣⊢ iprop(srcP m 9 c ∗ ldP m 3 c ∗ junk3 m c) := by
  refine BiEntails.of_eq ?_
  show iprop((((c : Thread nD τ).loc cc0_scratch0) ↦[(sl128 3 0 inb_S7x256x2048_S1x128x2048_3_0_0 : Memref sig .tc .vmem S128x2048 .f32).view.set]{fullShare} commFinal m c) ∗ (((c : Thread nD τ).loc cc0_scratch0) ↦[(sl128 3 128 inb_S7x256x2048_S1x128x2048_3_128_0 : Memref sig .tc .vmem S128x2048 .f32).view.set]{fullShare} commFinal m c))
    = iprop((((c : Thread nD τ).loc cc0_scratch0) ↦[(sl80 3 176 inb_S7x256x2048_S1x80x2048_3_176_0 : Memref sig .tc .vmem S80x2048 .f32).view.set]{qL} commFinal m c) ∗ (((c : Thread nD τ).loc cc0_scratch0) ↦[(sl256 3 0 inb_S7x256x2048_S1x256x2048_3_0_0 : Memref sig .tc .vmem S256x2048 .f32).view.set]{qR} commFinal m c) ∗ (((c : Thread nD τ).loc cc0_scratch0) ↦[(sl256 3 0 inb_S7x256x2048_S1x256x2048_3_0_0 : Memref sig .tc .vmem S256x2048 .f32).view.set \ (sl80 3 176 inb_S7x256x2048_S1x80x2048_3_176_0 : Memref sig .tc .vmem S80x2048 .f32).view.set]{qL} commFinal m c))
  rw [← pt_union halves_disj, halves_union (h := inb_S7x256x2048_S1x256x2048_3_0_0), pt_halves fullShare,
    pt_carve (ℓ := ((c : Thread nD τ).loc cc0_scratch0)) (I := (sl80 3 176 inb_S7x256x2048_S1x80x2048_3_176_0 : Memref sig .tc .vmem S80x2048 .f32).view.set) (S := (sl256 3 0 inb_S7x256x2048_S1x256x2048_3_0_0 : Memref sig .tc .vmem S256x2048 .f32).view.set) (q := fullShare.left) (f := commFinal m c) (sub_sl (by decide))]
  ac_rfl

theorem slot4 (m : (ℓ : Loc nD τ sig) → Buf (Elt F) ℓ) (c : Dev nD) :
    (iprop(recvPay m 4 c ∗ recvPay m 7 c) : sProp 𝕄) ⊣⊢ iprop(srcP m 10 c ∗ ldP m 4 c ∗ junk4 m c) := by
  refine BiEntails.of_eq ?_
  show iprop((((c : Thread nD τ).loc cc0_scratch0) ↦[(sl128 4 0 inb_S7x256x2048_S1x128x2048_4_0_0 : Memref sig .tc .vmem S128x2048 .f32).view.set]{fullShare} commFinal m c) ∗ (((c : Thread nD τ).loc cc0_scratch0) ↦[(sl128 4 128 inb_S7x256x2048_S1x128x2048_4_128_0 : Memref sig .tc .vmem S128x2048 .f32).view.set]{fullShare} commFinal m c))
    = iprop((((c : Thread nD τ).loc cc0_scratch0) ↦[(sl88 4 88 inb_S7x256x2048_S1x88x2048_4_88_0 : Memref sig .tc .vmem S88x2048 .f32).view.set]{qL} commFinal m c) ∗ (((c : Thread nD τ).loc cc0_scratch0) ↦[(sl256 4 0 inb_S7x256x2048_S1x256x2048_4_0_0 : Memref sig .tc .vmem S256x2048 .f32).view.set]{qR} commFinal m c) ∗ (((c : Thread nD τ).loc cc0_scratch0) ↦[(sl256 4 0 inb_S7x256x2048_S1x256x2048_4_0_0 : Memref sig .tc .vmem S256x2048 .f32).view.set \ (sl88 4 88 inb_S7x256x2048_S1x88x2048_4_88_0 : Memref sig .tc .vmem S88x2048 .f32).view.set]{qL} commFinal m c))
  rw [← pt_union halves_disj, halves_union (h := inb_S7x256x2048_S1x256x2048_4_0_0), pt_halves fullShare,
    pt_carve (ℓ := ((c : Thread nD τ).loc cc0_scratch0)) (I := (sl88 4 88 inb_S7x256x2048_S1x88x2048_4_88_0 : Memref sig .tc .vmem S88x2048 .f32).view.set) (S := (sl256 4 0 inb_S7x256x2048_S1x256x2048_4_0_0 : Memref sig .tc .vmem S256x2048 .f32).view.set) (q := fullShare.left) (f := commFinal m c) (sub_sl (by decide))]
  ac_rfl

theorem slot5 (m : (ℓ : Loc nD τ sig) → Buf (Elt F) ℓ) (c : Dev nD) :
    (iprop(recvPay m 6 c ∗ recvPay m 8 c) : sProp 𝕄) ⊣⊢ iprop(srcP m 11 c ∗ ldP m 5 c ∗ junk5 m c) := by
  refine BiEntails.of_eq ?_
  show iprop((((c : Thread nD τ).loc cc0_scratch0) ↦[(sl128 5 0 inb_S7x256x2048_S1x128x2048_5_0_0 : Memref sig .tc .vmem S128x2048 .f32).view.set]{fullShare} commFinal m c) ∗ (((c : Thread nD τ).loc cc0_scratch0) ↦[(sl128 5 128 inb_S7x256x2048_S1x128x2048_5_128_0 : Memref sig .tc .vmem S128x2048 .f32).view.set]{fullShare} commFinal m c))
    = iprop((((c : Thread nD τ).loc cc0_scratch0) ↦[(sl88 5 0 inb_S7x256x2048_S1x88x2048_5_0_0 : Memref sig .tc .vmem S88x2048 .f32).view.set]{qL} commFinal m c) ∗ (((c : Thread nD τ).loc cc0_scratch0) ↦[(sl256 5 0 inb_S7x256x2048_S1x256x2048_5_0_0 : Memref sig .tc .vmem S256x2048 .f32).view.set]{qR} commFinal m c) ∗ (((c : Thread nD τ).loc cc0_scratch0) ↦[(sl256 5 0 inb_S7x256x2048_S1x256x2048_5_0_0 : Memref sig .tc .vmem S256x2048 .f32).view.set \ (sl88 5 0 inb_S7x256x2048_S1x88x2048_5_0_0 : Memref sig .tc .vmem S88x2048 .f32).view.set]{qL} commFinal m c))
  rw [← pt_union halves_disj, halves_union (h := inb_S7x256x2048_S1x256x2048_5_0_0), pt_halves fullShare,
    pt_carve (ℓ := ((c : Thread nD τ).loc cc0_scratch0)) (I := (sl88 5 0 inb_S7x256x2048_S1x88x2048_5_0_0 : Memref sig .tc .vmem S88x2048 .f32).view.set) (S := (sl256 5 0 inb_S7x256x2048_S1x256x2048_5_0_0 : Memref sig .tc .vmem S256x2048 .f32).view.set) (q := fullShare.left) (f := commFinal m c) (sub_sl (by decide))]
  ac_rfl

theorem slot6 (m : (ℓ : Loc nD τ sig) → Buf (Elt F) ℓ) (c : Dev nD) :
    (iprop(recvPay m 9 c ∗ recvPay m 10 c ∗ recvPay m 11 c) : sProp 𝕄) ⊣⊢ ldP m 6 c := by
  refine BiEntails.of_eq ?_
  show iprop((((c : Thread nD τ).loc cc0_scratch0) ↦[(sl80 6 176 inb_S7x256x2048_S1x80x2048_6_176_0 : Memref sig .tc .vmem S80x2048 .f32).view.set]{fullShare} commFinal m c) ∗ (((c : Thread nD τ).loc cc0_scratch0) ↦[(sl88 6 88 inb_S7x256x2048_S1x88x2048_6_88_0 : Memref sig .tc .vmem S88x2048 .f32).view.set]{fullShare} commFinal m c) ∗ (((c : Thread nD τ).loc cc0_scratch0) ↦[(sl88 6 0 inb_S7x256x2048_S1x88x2048_6_0_0 : Memref sig .tc .vmem S88x2048 .f32).view.set]{fullShare} commFinal m c))
    = (((c : Thread nD τ).loc cc0_scratch0) ↦[(sl256 6 0 inb_S7x256x2048_S1x256x2048_6_0_0 : Memref sig .tc .vmem S256x2048 .f32).view.set]{fullShare} commFinal m c)
  rw [← pt_union thirds_disj₂, ← pt_union thirds_disj₁, thirds_union (h := inb_S7x256x2048_S1x256x2048_6_0_0)]

theorem slot6' (m : (ℓ : Loc nD τ sig) → Buf (Elt F) ℓ) (c : Dev nD) :
    (iprop(recvPay m 11 c ∗ recvPay m 10 c ∗ recvPay m 9 c) : sProp 𝕄) ⊣⊢ ldP m 6 c := by
  refine BiEntails.of_eq ?_
  rw [← BI.equiv_iff.mp ⟨(slot6 m c).1, (slot6 m c).2⟩]
  ac_rfl

theorem ldP_0 (m : (ℓ : Loc nD τ sig) → Buf (Elt F) ℓ) (c : Dev nD) : (ldP m 0 c : sProp 𝕄) = (((c : Thread nD τ).loc cc0_scratch0) ↦[(sl256 0 0 inb_S7x256x2048_S1x256x2048_0_0_0 : Memref sig .tc .vmem S256x2048 .f32).view.set]{qRR} commFinal m c) := rfl
theorem ldP_1 (m : (ℓ : Loc nD τ sig) → Buf (Elt F) ℓ) (c : Dev nD) : (ldP m 1 c : sProp 𝕄) = (((c : Thread nD τ).loc cc0_scratch0) ↦[(sl256 1 0 inb_S7x256x2048_S1x256x2048_1_0_0 : Memref sig .tc .vmem S256x2048 .f32).view.set]{qR} commFinal m c) := rfl
theorem ldP_2 (m : (ℓ : Loc nD τ sig) → Buf (Elt F) ℓ) (c : Dev nD) : (ldP m 2 c : sProp 𝕄) = (((c : Thread nD τ).loc cc0_scratch0) ↦[(sl256 2 0 inb_S7x256x2048_S1x256x2048_2_0_0 : Memref sig .tc .vmem S256x2048 .f32).view.set]{qRR} commFinal m c) := rfl
theorem ldP_3 (m : (ℓ : Loc nD τ sig) → Buf (Elt F) ℓ) (c : Dev nD) : (ldP m 3 c : sProp 𝕄) = (((c : Thread nD τ).loc cc0_scratch0) ↦[(sl256 3 0 inb_S7x256x2048_S1x256x2048_3_0_0 : Memref sig .tc .vmem S256x2048 .f32).view.set]{qR} commFinal m c) := rfl
theorem ldP_4 (m : (ℓ : Loc nD τ sig) → Buf (Elt F) ℓ) (c : Dev nD) : (ldP m 4 c : sProp 𝕄) = (((c : Thread nD τ).loc cc0_scratch0) ↦[(sl256 4 0 inb_S7x256x2048_S1x256x2048_4_0_0 : Memref sig .tc .vmem S256x2048 .f32).view.set]{qR} commFinal m c) := rfl
theorem ldP_5 (m : (ℓ : Loc nD τ sig) → Buf (Elt F) ℓ) (c : Dev nD) : (ldP m 5 c : sProp 𝕄) = (((c : Thread nD τ).loc cc0_scratch0) ↦[(sl256 5 0 inb_S7x256x2048_S1x256x2048_5_0_0 : Memref sig .tc .vmem S256x2048 .f32).view.set]{qR} commFinal m c) := rfl
theorem ldP_6 (m : (ℓ : Loc nD τ sig) → Buf (Elt F) ℓ) (c : Dev nD) : (ldP m 6 c : sProp 𝕄) = (((c : Thread nD τ).loc cc0_scratch0) ↦[(sl256 6 0 inb_S7x256x2048_S1x256x2048_6_0_0 : Memref sig .tc .vmem S256x2048 .f32).view.set]{fullShare} commFinal m c) := rfl

/-- Every transfer landed: the scratch buffer whole at its final contents. -/
theorem scratch_join (m : (ℓ : Loc nD τ sig) → Buf (Elt F) ℓ) (c : Dev nD) :
    (iprop(recvPay m 0 c ∗ recvPay m 1 c ∗ recvPay m 2 c ∗ recvPay m 3 c ∗ recvPay m 4 c ∗ recvPay m 5 c ∗ recvPay m 6 c ∗ recvPay m 7 c ∗ recvPay m 8 c ∗ recvPay m 9 c ∗ recvPay m 10 c ∗ recvPay m 11 c) : sProp 𝕄)
      ⊢ (((c : Thread nD τ).loc cc0_scratch0) ↦{fullShare} commFinal m c) :=
  (scratch_split c (commFinal m c)).2

end Cert.KernelIdeal.AG

end
-- ==== Proof.Landing.lean ====
import proofs.«900494_g7700000000000495_dist_ag_gemm_m2048_k2048_n2048_f32_none_v7x_i8_1_alg».proof.Proof.Setup
import Idealize.ShloMosaic.Lib.Pipeline.Value
import Idealize.ShloMosaic.Lib.ValueLayout

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Element `(p, q)` of rows `lo ..< lo + n` of slot `s` is element `(s, lo + p, q)` of the scratch buffer. -/
theorem emb_sl {n : ℕ} (s lo : ℕ) (h) (hq) (p : Fin n) (q : Fin 2048) (a : Fin 3) :
    (((sl n s lo h hq : Memref sig .tc .vmem _ .f32).view.emb (ValueIdx.ix2 p q)) a : ℕ) = ![s, lo + p.val, q.val] a := by
  show ((Rect.unit (s := S7x256x2048) ![s, lo, 0] ![1, n, 2048] h).emb (Shape.reshapeEquiv hq.numel_eq (ValueIdx.ix2 p q)) a : ℕ) = _
  rw [ValueIdx.reshapeEquiv_ix2_1ab, Rect.emb_apply]
  match a with
  | ⟨0, _⟩ => rfl
  | ⟨1, _⟩ => show lo + 1 * p.val = lo + p.val; rw [Nat.one_mul]
  | ⟨2, _⟩ => show 0 + 1 * q.val = q.val; rw [Nat.one_mul, Nat.zero_add]

/-- The final contents at an element of slot `s`, by coordinates: an entry of the block of `og s c`. -/
theorem commFinal_at (c d : Dev nD) (i : S7x256x2048.Idx) (r k : ℕ) (s : Fin 7) (h0 : (i 0).val = s.val) (hd : og s c = d)
    (h1 : (i 1).val = r) (h2 : (i 2).val = k) {hr : r < 256} {hk : k < 2048} :
    commFinal m c i = xstg m d (ValueIdx.ix2 ⟨r, hr⟩ ⟨k, hk⟩) := by
  unfold commFinal
  rw [show (i 0 : Fin 7) = s from Fin.ext h0, hd]
  congr 1
  funext a
  match a with
  | ⟨0, _⟩ => exact Fin.ext h1
  | ⟨1, _⟩ => exact Fin.ext h2

theorem commFinal_congr (c c' : Dev nD) (i i' : S7x256x2048.Idx) (s s' : Fin 7) (h0 : (i 0).val = s.val) (h0' : (i' 0).val = s'.val)
    (hd : og s c = og s' c') (h1 : (i 1).val = (i' 1).val) (h2 : (i 2).val = (i' 2).val) :
    commFinal m c i = commFinal m c' i' :=
  (commFinal_at m c _ i _ _ s h0 hd h1 h2 (hr := (i' 1).isLt) (hk := (i' 2).isLt)).trans
    (commFinal_at m c' _ i' _ _ s' h0' rfl rfl rfl).symm

/-- A whole block of `x` sent to slot `s` of `d`, which is to hold `c`'s block, lands `d`'s final contents. -/
theorem land_x (s : Fin 7) (h) (c d : Dev nD) (hog : og s d = c) (fd : Buf (Elt F) ((d : Thread nD τ).loc cc0_scratch0)) :
    ((((d : Thread nD τ).loc cc0_scratch0) ↦[(sl256 s 0 h).view.set]{fullShare}
        ((sl256 s 0 h).view.write (Elt F) fd ((xM : Memref sig .tc .vmem S256x2048 .f32).view.read (Elt F) (xstg m c)) Finset.univ)) : sProp 𝕄)
      ⊢ (((d : Thread nD τ).loc cc0_scratch0) ↦[(sl256 s 0 h).view.set]{fullShare} commFinal m d) := by
  refine Entails.of_eq (pointsTo_congr fun i hi => ?_)
  obtain ⟨y, rfl⟩ := View.exists_emb_of_mem_set _ hi
  obtain ⟨p, q, rfl⟩ : ∃ (p : Fin 256) (q : Fin 2048), y = ValueIdx.ix2 p q := ⟨y 0, y 1, ValueIdx.eq_ix2 y⟩
  rw [View.write_emb_of_mem _ _ (Finset.mem_univ _), View.read_whole]
  exact (commFinal_at m d c _ p.val q.val s (emb_sl s 0 h _ p q 0) hog ((emb_sl s 0 h _ p q 1).trans (Nat.zero_add _)) (emb_sl s 0 h _ p q 2)).symm

/-- Rows relayed from slot `s` of `c` to the same rows of slot `s'` of `d` land `d`'s final contents when both slots hold one device's block. -/
theorem relay {n : ℕ} (s s' : Fin 7) (lo : ℕ) (h h' hq) (c d : Dev nD) (hog : og s c = og s' d)
    (fd : Buf (Elt F) ((d : Thread nD τ).loc cc0_scratch0)) :
    ((((d : Thread nD τ).loc cc0_scratch0) ↦[(sl n s' lo h' hq).view.set]{fullShare}
        ((sl n s' lo h' hq).view.write (Elt F) fd ((sl n s lo h hq).view.read (Elt F) (commFinal m c)) Finset.univ)) : sProp 𝕄)
      ⊢ (((d : Thread nD τ).loc cc0_scratch0) ↦[(sl n s' lo h' hq).view.set]{fullShare} commFinal m d) := by
  refine Entails.of_eq (pointsTo_congr fun i hi => ?_)
  obtain ⟨y, rfl⟩ := View.exists_emb_of_mem_set _ hi
  obtain ⟨p, q, rfl⟩ : ∃ (p : Fin n) (q : Fin 2048), y = ValueIdx.ix2 p q := ⟨y 0, y 1, ValueIdx.eq_ix2 y⟩
  rw [View.write_emb_of_mem _ _ (Finset.mem_univ _), View.read_apply]
  exact commFinal_congr m c d _ _ s s' (emb_sl s lo h hq p q 0) (emb_sl s' lo h' hq p q 0) hog
    ((emb_sl s lo h hq p q 1).trans (emb_sl s' lo h' hq p q 1).symm) ((emb_sl s lo h hq p q 2).trans (emb_sl s' lo h' hq p q 2).symm)

/-- What transfer `j` lands on its addressee is the addressee's final contents there. -/
theorem land : ∀ (j : Fin 12) (c : Dev nD) (fd : Buf (Elt F) ((dstM j).view.loc (tgt j c : Thread nD τ))),
    (((dstM j).view.loc (tgt j c : Thread nD τ) ↦[(dstM j).view.set]{fullShare}
        ((dstM j).view.write (Elt F) fd ((srcM j).view.read (Elt F) (srcF m j c)) Finset.univ)) : sProp 𝕄) ⊢ recvPay m j (tgt j c) := by
  intro j; fin_cases j <;> intro c fd
  · exact land_x m 0 _ c _ ((by decide : ∀ c : Dev nD, og 0 (tgt 0 c) = c) c) fd
  · exact land_x m 1 _ c _ ((by decide : ∀ c : Dev nD, og 1 (tgt 1 c) = c) c) fd
  · exact land_x m 2 _ c _ ((by decide : ∀ c : Dev nD, og 2 (tgt 2 c) = c) c) fd
  · exact relay m 0 3 0 (by decide) (by decide) (by decide) c _ ((by decide : ∀ c : Dev nD, og 0 c = og 3 (tgt 3 c)) c) fd
  · exact relay m 0 4 0 (by decide) (by decide) (by decide) c _ ((by decide : ∀ c : Dev nD, og 0 c = og 4 (tgt 4 c)) c) fd
  · exact relay m 1 3 128 (by decide) (by decide) (by decide) c _ ((by decide : ∀ c : Dev nD, og 1 c = og 3 (tgt 5 c)) c) fd
  · exact relay m 1 5 0 (by decide) (by decide) (by decide) c _ ((by decide : ∀ c : Dev nD, og 1 c = og 5 (tgt 6 c)) c) fd
  · exact relay m 2 4 128 (by decide) (by decide) (by decide) c _ ((by decide : ∀ c : Dev nD, og 2 c = og 4 (tgt 7 c)) c) fd
  · exact relay m 2 5 128 (by decide) (by decide) (by decide) c _ ((by decide : ∀ c : Dev nD, og 2 c = og 5 (tgt 8 c)) c) fd
  · exact relay m 3 6 176 (by decide) (by decide) (by decide) c _ ((by decide : ∀ c : Dev nD, og 3 c = og 6 (tgt 9 c)) c) fd
  · exact relay m 4 6 88 (by decide) (by decide) (by decide) c _ ((by decide : ∀ c : Dev nD, og 4 c = og 6 (tgt 10 c)) c) fd
  · exact relay m 5 6 0 (by decide) (by decide) (by decide) c _ ((by decide : ∀ c : Dev nD, og 5 c = og 6 (tgt 11 c)) c) fd

end Cert.KernelIdeal.AG

end
-- ==== Proof.Steps.lean ====
import proofs.«900494_g7700000000000495_dist_ag_gemm_m2048_k2048_n2048_f32_none_v7x_i8_1_alg».proof.Proof.Tables
import proofs.«900494_g7700000000000495_dist_ag_gemm_m2048_k2048_n2048_f32_none_v7x_i8_1_alg».proof.Proof.Landing

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 25 → ℕ)

instance records_persistent : BI.Persistent (records m K) := by unfold records; infer_instance

/-- A cell's invariant and its round-0 fact, out of the records. -/
theorem inv_at (ck : Dev nD × Fin 25) : records m K ⊢ cellInv ER (rd m) (K ck) (kcell ck) := by
  unfold records
  exact (BI.Entails.trans BI.sep_and and_elimL).trans (bigSep_elim (Finset.mem_univ ck))
theorem reached_at (ck : Dev nD × Fin 25) : records m K ⊢ reached ER (kcell ck) 0 := by
  unfold records
  exact (BI.Entails.trans BI.sep_and and_elimR).trans (bigSep_elim (Finset.mem_univ ck))

/-- The index, among a device's twenty-five cells, of the send and of the receive cell of transfer `j`. -/
abbrev kS : Fin 12 → Fin 25 := ![1, 2, 3, 7, 8, 9, 10, 11, 12, 21, 20, 19]
abbrev kR : Fin 12 → Fin 25 := ![4, 5, 6, 13, 14, 15, 16, 17, 18, 24, 23, 22]

theorem csem_send : ∀ j : Fin 12, csem (kS j) = .dma (sSem j) := by decide
theorem csem_recv : ∀ j : Fin 12, csem (kR j) = .dma (rSem j) := by decide
theorem kcell_send (j : Fin 12) (c : Dev nD) : kcell (c, kS j) = sendCell j c := by show (_, _) = (_, _); rw [csem_send]
theorem kcell_recv (j : Fin 12) (c : Dev nD) : kcell (c, kR j) = recvCell j c := by show (_, _) = (_, _); rw [csem_recv]
theorem inv_bar (c : Dev nD) : records m K ⊢ cellInv ER (rd m) (K (c, 0)) (barCell c) := inv_at m K (c, 0)
theorem inv_send (j : Fin 12) (c : Dev nD) : records m K ⊢ cellInv ER (rd m) (K (c, kS j)) (sendCell j c) := by
  have h := inv_at m K (c, kS j); rwa [kcell_send] at h
theorem inv_recv (j : Fin 12) (c : Dev nD) : records m K ⊢ cellInv ER (rd m) (K (c, kR j)) (recvCell j c) := by
  have h := inv_at m K (c, kR j); rwa [kcell_recv] at h
theorem reached_bar (c : Dev nD) : records m K ⊢ reached ER (barCell c) 0 := reached_at m K (c, 0)
theorem reached_send (j : Fin 12) (c : Dev nD) : records m K ⊢ reached ER (sendCell j c) 0 := by
  have h := reached_at m K (c, kS j); rwa [kcell_send] at h
theorem reached_recv (j : Fin 12) (c : Dev nD) : records m K ⊢ reached ER (recvCell j c) 0 := by
  have h := reached_at m K (c, kR j); rwa [kcell_recv] at h

/-- The unit signalled to the neighbour along `a` pays duty `a` of its barrier cell, handing over the parts of `c`'s scratch it will write. -/
theorem step_signal (c n : Dev nD) (a : Fin 3) (hn : n = nbr a c)
    {α : Type} {Q : α → sProp 𝕄} {k : PUnit → Prog (TpuEff nD τ sig (Elt F) Λ₀ .tc) α}
    (O : CellTallies nD τ sig Unit) (W : Waits sig Unit) :
    iprop(records m K ∗ owes (c : Thread nD τ) (O + tallyAt (barCell (nbr a c)) () 1) W
        ∗ dutyTok ER (barCell (nbr a c)) 0 a ∗ barPay (F := F) (nbr a c) a)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#Hrec, HO, Htok, Hpay⟩
  iapply (Rounds.wp_signal 𝒱₀ ER (rd m) (c : Thread nD τ) none (dst := (nbr a c : Thread nD τ)) (κ := K (nbr a c, 0))
      (d := a) (by rw [duties_bar]; exact Finset.mem_univ _) ((amount_bar m (nbr a c) a).trans (by decide)) () O rfl) $$ [HO Htok Hpay]
  isplitr; · iapply (inv_bar m K (nbr a c)); iexact Hrec
  isplitl [HO]; · iexact HO
  isplitl [Htok]; · iexact Htok
  isplitl [Hpay]; · rw [payload_bar]; iexact Hpay
  iapply (reached_bar m K (nbr a c)); iexact Hrec

/-- The wait for the three units of the own barrier cell, owing the twelve receive credits: each neighbour's part of its scratch comes with it. -/
theorem step_bar_wait (c : Dev nD)
    {α : Type} {Q : α → sProp 𝕄} {k : PUnit → Prog (TpuEff nD τ sig (Elt F) Λ₀ .tc) α}
    (W : Waits sig Unit) :
    iprop(records m K ∗ levAts L lv ∗ cred (tallyAt (barCell c) () 3) ∗ owes (c : Thread nD τ) (owedFrom c 0) W
        ∗ atPos ER (barCell c) 0 (∅ : Finset (Fin 3)) 0)
      ⊢ iprop(((owes (c : Thread nD τ) (owedFrom c 0) (insert (SemLoc.reg barS, ()) W) ∗ atPos ER (barCell c) 1 (∅ : Finset (Fin 3)) 0
              ∗ barPay (F := F) c 0 ∗ barPay (F := F) c 1 ∗ barPay (F := F) c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toNat) k) Q) := by
  iintro ⟨#Hrec, #Hlev, Hc, HO, Hat⟩ Hk
  iapply (Rounds.wp_wait_rest_token 𝒱₀ ER (rd m) (c : Thread nD τ) none (κ := K (c, 0))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk $$ [$]

omit [FloatOps F] in
/-- The elements transfer `j` writes, seen through the slice the transfer is addressed to. -/
theorem dstP_at (j : Fin 12) (d : Dev nD) (f : Buf (Elt F) ((d : Thread nD τ).loc cc0_scratch0)) :
    ∃ f' : Buf (Elt F) ((dstM j).view.loc (d : Thread nD τ)),
      (dstP j d f : sProp 𝕄) = ((dstM j).view.loc (d : Thread nD τ) ↦[(dstM j).view.set]{fullShare} f') := by
  fin_cases j <;> exact ⟨f, rfl⟩
theorem dst_credit (j : Fin 12) : (dstM j).view.dmaCredit = amt j := by fin_cases j <;> rfl

/-- Transfer `j` of `c`: its receive credit comes off what `c` owes, its send credit comes back, and what lands is the addressee's final contents (`land`). -/
theorem step_send (j : Fin 12) (c n : Dev nD) (hn : n = tgt j c)
    {hsc : ((dstM j : Memref sig (Dev.tc n : Thread nD τ).2.kind .vmem (tS j) .f32)).view.ref.isScScratch = false}
    {hsrc : (srcM j).view.WordExact} {hdst : (dstM j).view.WordExact}
    {hsem : DmaTarget.Typed .vmem (.dma (rSem j)) (.remote (Dev.tc n : Thread nD τ) (dstM j) (.dma (sSem j)) hsc)}
    {α : Type} {Q : α → sProp 𝕄} {k : PUnit → Prog (TpuEff nD τ sig (Elt F) Λ₀ .tc) α}
    (O₀ O : CellTallies nD τ sig Unit) (hO : O₀ = O + tallyAt (recvCell j (tgt j c)) () (amt j)) (W : Waits sig Unit) :
    iprop(records m K ∗ srcP m j c ∗ (∃ f, dstP (F := F) j (tgt j c) f) ∗ owes (c : Thread nD τ) O₀ W
        ∗ dutyTok ER (sendCell j c) 0 (0 : Fin 3) ∗ dutyTok ER (recvCell j (tgt j c)) 0 (0 : Fin 3))
      ⊢ iprop(((cred (tallyAt (sendCell j c) () (amt j)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM j) (.remote (Dev.tc n : Thread nD τ) (dstM j) (.dma (sSem j)) hsc) (.dma (rSem j)) hsrc hdst hsem) k) Q) := by
  subst hn
  unfold srcP
  iintro ⟨#Hrec, Hs, ⟨%f, Hd⟩, HO, Ht₁, Ht₂⟩
  obtain ⟨fd, e⟩ := dstP_at (F := F) j (tgt j c) f
  ihave Hd := (Entails.of_eq e) $$ Hd
  iapply (Rounds.wp_send_pointsTo 𝒱₀ ER (rd m) (c : Thread nD τ) none (c' := (tgt j c : Thread nD τ)) (src := srcM j) (dst := dstM j) (q := srcQ j)
      (sS := .dma (sSem j)) (sem := .dma (rSem j))
      (fs := srcF m j c) (fd := fd) (κ₁ := K (c, kS j)) (κ₂ := K (tgt j c, kR j)) (r₁ := 0) (r₂ := 0) (d₁ := (0 : Fin 3)) (d₂ := (0 : Fin 3))
      (by rw [duties_send]; exact Finset.mem_singleton_self _) (by rw [duties_recv]; exact Finset.mem_singleton_self _)
      () () (amt j) (dst_credit j) (amount_send m j c 0) (amount_recv m j (tgt j c) 0) O hO (W := W)
      (by rw [payload_send]; exact BI.Entails.refl _) (by rw [payload_recv]; exact land m j c fd)) $$ [Hs Hd HO Ht₁ Ht₂]
  isplitr; · iapply (inv_send m K j c); iexact Hrec
  isplitr; · iapply (inv_recv m K j (tgt j c)); iexact Hrec
  isplitl [Hs]; · iexact Hs
  isplitl [Hd]; · iexact Hd
  isplitl [HO]; · iexact HO
  isplitl [Ht₁]; · iexact Ht₁
  isplitr; · iapply (reached_send m K j c); iexact Hrec
  isplitl [Ht₂]; · iexact Ht₂
  iapply (reached_recv m K j (tgt j c)); iexact Hrec

/-- The wait on the receive cell of transfer `j`, allowed by the levels: the elements it wrote, at their final contents. -/
theorem step_recv_wait (j : Fin 12) (c : Dev nD) {sp sp' : Space} {s s' : Shape} {e e' : EltTy} {κ' : Kind}
    {src : Memref sig .tc sp' s' e'} {dst : Memref sig κ' sp s e} {hs : src.view.WordExact} {hd : dst.view.WordExact}
    (hamt : dst.view.dmaCredit = amt j)
    {α : Type} {Q : α → sProp 𝕄} {k : PUnit → Prog (TpuEff nD τ sig (Elt F) Λ₀ .tc) α}
    (O : CellTallies nD τ sig Unit) (W : Waits sig Unit) (hmw : (levAts L lv : sProp 𝕄) ⊢ MayWait (c : Thread nD τ) (.dma (rSem j)) () O) :
    iprop(records m K ∗ levAts L lv ∗ cred (tallyAt (recvCell j c) () (amt j)) ∗ owes (c : Thread nD τ) O W
        ∗ atPos ER (recvCell j c) 0 (∅ : Finset (Fin 3)) 0)
      ⊢ iprop(((owes (c : Thread nD τ) O (insert (SemLoc.dma (rSem j), ()) W) ∗ atPos ER (recvCell j c) 1 (∅ : Finset (Fin 3)) 0 ∗ recvPay m j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rSem j) src dst hs hd) k) Q) := by
  rw [← hamt]
  iintro ⟨#Hrec, #Hlev, Hc, HO, Hat⟩ Hk
  iapply (Rounds.wp_wait_rest_token 𝒱₀ ER (rd m) (c : Thread nD τ) none (κ := K (c, kR j))
      (wpE_waitDma2_eq 𝒱₀ (c : Thread nD τ) none Set.univ) (Set.mem_univ _) () (O := O) (W := W) (R := 0) (m := 0) (T := ∅)
      (by rw [Nat.zero_add, expect_recv, hamt])) $$ [Hc HO Hat]
  · isplitr; · iapply (inv_recv m K j c); iexact Hrec
    isplitl [Hc]; · iexact Hc
    isplitl [HO]; · iexact HO
    isplitr; · iapply hmw; iexact Hlev
    iexact Hat
  iintro ⟨HO, Hat, -, Hpay⟩
  ihave Hp := (Entails.of_eq (rest_recv m j c)) $$ Hpay
  iapply Hk $$ [$]

/-- The wait on the send cell of transfer `j` once nothing is owed: the share of the source it read. -/
theorem step_send_wait_zero (j : Fin 12) (c : Dev nD) {sp sp' : Space} {s s' : Shape} {e e' : EltTy} {κ' : Kind}
    {src : Memref sig .tc sp' s' e'} {dst : Memref sig κ' sp s e} {hs : src.view.WordExact} {hd : dst.view.WordExact}
    (hamt : dst.view.dmaCredit = amt j)
    {α : Type} {Q : α → sProp 𝕄} {k : PUnit → Prog (TpuEff nD τ sig (Elt F) Λ₀ .tc) α}
    (W : Waits sig Unit) :
    iprop(records m K ∗ cred (tallyAt (sendCell j c) () (amt j)) ∗ owes (c : Thread nD τ) 0 W
        ∗ atPos ER (sendCell j c) 0 (∅ : Finset (Fin 3)) 0)
      ⊢ iprop(((owes (c : Thread nD τ) 0 (insert (SemLoc.dma (sSem j), ()) W) ∗ atPos ER (sendCell j c) 1 (∅ : Finset (Fin 3)) 0 ∗ srcP m j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sSem j) src dst hs hd) k) Q) := by
  rw [← hamt]
  iintro ⟨#Hrec, Hc, HO, Hat⟩ Hk
  iapply (Rounds.wp_wait_rest_token 𝒱₀ ER (rd m) (c : Thread nD τ) none (κ := K (c, kS j))
      (wpE_waitDma2_eq 𝒱₀ (c : Thread nD τ) none Set.univ) (Set.mem_univ _) () (O := 0) (W := W) (R := 0) (m := 0) (T := ∅)
      (by rw [Nat.zero_add, expect_send, hamt])) $$ [Hc HO Hat]
  · isplitr; · iapply (inv_send m K j c); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m j c)) $$ Hpay
  iapply Hk $$ [$]

/-- A cell at the start of round 1 closes: no later round has a duty, so its counter reads zero. -/
theorem step_close (ck : Dev nD × Fin 25) :
    iprop(records m K ∗ atPos ER (kcell ck) 1 (∅ : Finset (Fin 3)) 0) ⊢ iprop(|={Set.univ}=> semVal (kcell ck) 0) := by
  iintro ⟨#Hrec, Hat⟩
  iapply (Rounds.cell_close ER (rd m) (Set.mem_univ (K ck)) (fun h => h) (R := 1) (duties_later m (kcell ck)))
  isplitr; · iapply (inv_at m K ck); iexact Hrec
  iexact Hat
theorem step_close_send (j : Fin 12) (c : Dev nD) :
    iprop(records m K ∗ atPos ER (sendCell j c) 1 (∅ : Finset (Fin 3)) 0) ⊢ iprop(|={Set.univ}=> semVal (sendCell j c) 0) := by
  have h := step_close m K (c, kS j); rwa [kcell_send] at h
theorem step_close_recv (j : Fin 12) (c : Dev nD) :
    iprop(records m K ∗ atPos ER (recvCell j c) 1 (∅ : Finset (Fin 3)) 0) ⊢ iprop(|={Set.univ}=> semVal (recvCell j c) 0) := by
  have h := step_close m K (c, kR j); rwa [kcell_recv] at h

end Cert.KernelIdeal.AG

end
-- ==== Proof.ValueK.lean ====
import proofs.«900494_g7700000000000495_dist_ag_gemm_m2048_k2048_n2048_f32_none_v7x_i8_1_alg».proof.Proof.Setup
import proofs.«900494_g7700000000000495_dist_ag_gemm_m2048_k2048_n2048_f32_none_v7x_i8_1_alg».proof.Proof.Mesh
import Idealize.ShloMosaic.Lib.Pipeline.Value
import Idealize.ShloMosaic.Lib.ValueIdx

noncomputable section

namespace Cert.KernelIdeal.AG

open Cert.KernelIdeal Cert.KernelIdeal.Gen
open Idealize.ShloMosaic Idealize.ShloMosaic.TcCoe Idealize.SL.Sem
open Idealize.ShloMosaic.ValueIdx

variable {F : FTy → Type} [FloatOps F]

theorem zeros2 : (![0, 0] : Fin 2 → Nat) = fun _ => 0 := funext fun a => by fin_cases a <;> rfl

theorem read_x (f : (cc0_stg0_0 : Ref sig .tc).ty.Contents (Elt F)) :
    (xM : Memref sig .tc .vmem S256x2048 .f32).view.readAt (Elt F)
      (Rect.unit (s := S256x2048) ![0, 0] S256x2048.size inb_S256x2048_S256x2048_0_0).toLoadRect f = f :=
  Memref.readAt_unit_zero (Elt F) cc0_stg0_0 zeros2 _ f

theorem read_w (f : (cc0_stg1_0 : Ref sig .tc).ty.Contents (Elt F)) :
    (wM : Memref sig .tc .vmem S2048x256 .f32).view.readAt (Elt F)
      (Rect.unit (s := S2048x256) ![0, 0] S2048x256.size inb_S2048x256_S2048x256_0_0).toLoadRect f = f :=
  Memref.readAt_unit_zero (Elt F) cc0_stg1_0 zeros2 _ f

/-- A load of slot `s` off the final contents reads the row block of `x` of `og s c`. -/
theorem read_slot (m : (ℓ : Loc nD τ sig) → Buf (Elt F) ℓ) (c : Dev nD) (k : ℕ) (hk : k < 7)
    (inb : ∀ a, (![k, 0, 0] : Fin 3 → Nat) a + S1x256x2048.size a ≤ S7x256x2048.size a) :
    shapeCast S256x2048
      ((cM : Memref sig .tc .vmem S7x256x2048 .f32).view.readAt (Elt F)
        (Rect.unit (s := S7x256x2048) ![k, 0, 0] S1x256x2048.size inb).toLoadRect (commFinal m c))
      shapeCasts_S1x256x2048_S256x2048 = xstg m (og ⟨k, hk⟩ c) := by
  funext j
  rw [shapeCast_dropUnit_apply (n := 2) ![256, 2048]]
  rw [View.readAt_apply, View.read_apply]
  show commFinal m c _ = _
  unfold commFinal
  have key : ∀ (I : S7x256x2048.Idx), (I 0).val = k → (I 1).val = (j 0).val → (I 2).val = (j 1).val →
      xstg m (og (I 0) c) (ix2 (I 1) (I 2)) = xstg m (og ⟨k, hk⟩ c) j := by
    intro I h0 h1 h2
    have e0 : I 0 = (⟨k, hk⟩ : Fin 7) := Fin.ext h0
    have e1 : (ix2 (I 1) (I 2) : S256x2048.Idx) = j :=
      funext fun a => Fin.ext (match a with | ⟨0, _⟩ => h1 | ⟨1, _⟩ => h2)
    exact (congrArg (fun d => xstg m (og d c) (ix2 (I 1) (I 2))) e0).trans (congrArg (xstg m (og ⟨k, hk⟩ c)) e1)
  refine key _ ?_ ?_ ?_
  · show k + 1 * 0 = k; omega
  · show 0 + 1 * (j 0).val = (j 0).val; omega
  · show 0 + 1 * (j 1).val = (j 1).val; omega

theorem pay_slot (m : (ℓ : Loc nD τ sig) → Buf (Elt F) ℓ) (c : Dev nD) (k : ℕ) (hk : k < 7)
    (inb : ∀ a, (![k, 0, 0] : Fin 3 → Nat) a + S1x256x2048.size a ≤ S7x256x2048.size a) (w : Vec F S2048x256 .f32) :
    matmul dot_S256x2048_S2048x256_S256x256_1_0_0_1_n_n none
      (shapeCast S256x2048
        ((cM : Memref sig .tc .vmem S7x256x2048 .f32).view.readAt (Elt F)
          (Rect.unit (s := S7x256x2048) ![k, 0, 0] S1x256x2048.size inb).toLoadRect (commFinal m c))
        shapeCasts_S1x256x2048_S256x2048)
      (shapeCast S2048x256 w shapeCasts_S2048x256_S2048x256) (constant S256x256 .f32 0x00000000#32)
      = gemmBlk (xstg m (og ⟨k, hk⟩ c)) w := by
  rw [read_slot m c k hk inb, shapeCast_self]; rfl

theorem pay12_eq (x : Vec F S256x2048 .f32) (w : Vec F S2048x256 .f32) : k0_pay2 (k0_pay1 x) w = gemmBlk x w := by
  show matmul dot_S256x2048_S2048x256_S256x256_1_0_0_1_n_n none (shapeCast S256x2048 x shapeCasts_S256x2048_S256x2048)
    (shapeCast S2048x256 w shapeCasts_S2048x256_S2048x256) (constant S256x256 .f32 0x00000000#32) = _
  rw [shapeCast_self, shapeCast_self]; rfl

theorem pay3_eq (m : (ℓ : Loc nD τ sig) → Buf (Elt F) ℓ) (c : Dev nD) (w : Vec F S2048x256 .f32) :
    k0_pay3 ((cM : Memref sig .tc .vmem S7x256x2048 .f32).view.readAt (Elt F) (Rect.unit (s := S7x256x2048) ![0, 0, 0] S1x256x2048.size inb_S7x256x2048_S1x256x2048_0_0_0).toLoadRect (commFinal m c)) w
      = gemmBlk (xstg m (og 0 c)) w := pay_slot m c 0 (by decide) _ w
theorem pay4_eq (m : (ℓ : Loc nD τ sig) → Buf (Elt F) ℓ) (c : Dev nD) (w : Vec F S2048x256 .f32) :
    k0_pay4 ((cM : Memref sig .tc .vmem S7x256x2048 .f32).view.readAt (Elt F) (Rect.unit (s := S7x256x2048) ![1, 0, 0] S1x256x2048.size inb_S7x256x2048_S1x256x2048_1_0_0).toLoadRect (commFinal m c)) w
      = gemmBlk (xstg m (og 1 c)) w := pay_slot m c 1 (by decide) _ w
theorem pay5_eq (m : (ℓ : Loc nD τ sig) → Buf (Elt F) ℓ) (c : Dev nD) (w : Vec F S2048x256 .f32) :
    k0_pay5 ((cM : Memref sig .tc .vmem S7x256x2048 .f32).view.readAt (Elt F) (Rect.unit (s := S7x256x2048) ![2, 0, 0] S1x256x2048.size inb_S7x256x2048_S1x256x2048_2_0_0).toLoadRect (commFinal m c)) w
      = gemmBlk (xstg m (og 2 c)) w := pay_slot m c 2 (by decide) _ w
theorem pay6_eq (m : (ℓ : Loc nD τ sig) → Buf (Elt F) ℓ) (c : Dev nD) (w : Vec F S2048x256 .f32) :
    k0_pay6 ((cM : Memref sig .tc .vmem S7x256x2048 .f32).view.readAt (Elt F) (Rect.unit (s := S7x256x2048) ![3, 0, 0] S1x256x2048.size inb_S7x256x2048_S1x256x2048_3_0_0).toLoadRect (commFinal m c)) w
      = gemmBlk (xstg m (og 3 c)) w := pay_slot m c 3 (by decide) _ w
theorem pay78_eq (m : (ℓ : Loc nD τ sig) → Buf (Elt F) ℓ) (c : Dev nD) (w : Vec F S2048x256 .f32) :
    k0_pay8 (k0_pay7 ((cM : Memref sig .tc .vmem S7x256x2048 .f32).view.readAt (Elt F) (Rect.unit (s := S7x256x2048) ![4, 0, 0] S1x256x2048.size inb_S7x256x2048_S1x256x2048_4_0_0).toLoadRect (commFinal m c))) w
      = gemmBlk (xstg m (og 4 c)) w := pay_slot m c 4 (by decide) _ w
theorem pay9_eq (m : (ℓ : Loc nD τ sig) → Buf (Elt F) ℓ) (c : Dev nD) (w : Vec F S2048x256 .f32) :
    k0_pay9 ((cM : Memref sig .tc .vmem S7x256x2048 .f32).view.readAt (Elt F) (Rect.unit (s := S7x256x2048) ![5, 0, 0] S1x256x2048.size inb_S7x256x2048_S1x256x2048_5_0_0).toLoadRect (commFinal m c)) w
      = gemmBlk (xstg m (og 5 c)) w := pay_slot m c 5 (by decide) _ w
theorem pay10_eq (m : (ℓ : Loc nD τ sig) → Buf (Elt F) ℓ) (c : Dev nD) (w : Vec F S2048x256 .f32) :
    k0_pay10 ((cM : Memref sig .tc .vmem S7x256x2048 .f32).view.readAt (Elt F) (Rect.unit (s := S7x256x2048) ![6, 0, 0] S1x256x2048.size inb_S7x256x2048_S1x256x2048_6_0_0).toLoadRect (commFinal m c)) w
      = gemmBlk (xstg m (og 6 c)) w := pay_slot m c 6 (by decide) _ w

theorem write_blk (off : Fin 2 → Nat) (inb : ∀ a, off a + S256x256.size a ≤ S2048x256.size a) (d : Dev nD)
    (hoff : off = ![256 * d.val, 0]) (f : (cc0_stg2_0 : Ref sig .tc).ty.Contents (Elt F)) (v : FVec F S256x256 .f32)
    (i : S2048x256.Idx) :
    ((oM : Memref sig .tc .vmem S2048x256 .f32).access (Rect.unit (s := S2048x256) off S256x256.size inb) : View sig .tc _ _ _).write (Elt F) f v Finset.univ i
      = if (i 0).val / 256 = d.val then v (ix2 ⟨(i 0).val % 256, row_mod_lt (i 0)⟩ (i 1)) else f i := by
  subst hoff
  by_cases h : (i 0).val / 256 = d.val
  · rw [if_pos h]
    have hx : ((oM : Memref sig .tc .vmem S2048x256 .f32).access (Rect.unit (s := S2048x256) ![256 * d.val, 0] S256x256.size inb) : View sig .tc _ _ _).emb
        (ix2 ⟨(i 0).val % 256, row_mod_lt (i 0)⟩ (i 1)) = i := by
      funext a
      refine Fin.ext ?_
      match a with
      | ⟨0, _⟩ => show 256 * d.val + 1 * ((i 0).val % 256) = (i 0).val; have := Nat.div_add_mod (i 0).val 256; omega
      | ⟨1, _⟩ => show 0 + 1 * (i 1).val = (i 1).val; omega
    have hw := View.write_emb_of_mem (v := ((oM : Memref sig .tc .vmem S2048x256 .f32).access (Rect.unit (s := S2048x256) ![256 * d.val, 0] S256x256.size inb) : View sig .tc _ _ _))
      (Val := Elt F) f v (M := Finset.univ) (x := ix2 ⟨(i 0).val % 256, row_mod_lt (i 0)⟩ (i 1)) (Finset.mem_univ _)
    rw [hx] at hw
    rw [hw]; rfl
  · rw [if_neg h]
    refine View.write_of_not_mem (v := ((oM : Memref sig .tc .vmem S2048x256 .f32).access (Rect.unit (s := S2048x256) ![256 * d.val, 0] S256x256.size inb) : View sig .tc _ _ _))
      (Val := Elt F) f v Finset.univ ?_
    intro hmem
    rw [View.setOn, Finset.mem_map] at hmem
    obtain ⟨x, -, hx⟩ := hmem
    have h0 : 256 * d.val + 1 * (x 0).val = (i 0).val := congrArg (fun j : S2048x256.Idx => (j 0).val) hx
    have hlt : (x 0).val < 256 := (x 0).isLt
    exact h (by omega)

theorem og_cover : ∀ (c q : Dev nD), q.val = c.val ∨ q.val = (og 0 c).val ∨ q.val = (og 1 c).val ∨ q.val = (og 2 c).val
    ∨ q.val = (og 3 c).val ∨ q.val = (og 4 c).val ∨ q.val = (og 5 c).val ∨ q.val = (og 6 c).val := by decide

/-- The eight stores, one row block each, leave the result at `outAt`. -/
theorem out_writes (m : (ℓ : Loc nD τ sig) → Buf (Elt F) ℓ) (c : Dev nD) (f0 : (cc0_stg2_0 : Ref sig .tc).ty.Contents (Elt F)) :
    ((oM : Memref sig .tc .vmem S2048x256 .f32).access (Rect.unit (s := S2048x256) (k0_off8 c) S256x256.size (k0_off8_inb c)) : View sig .tc _ _ _).write (Elt F)
      (((oM : Memref sig .tc .vmem S2048x256 .f32).access (Rect.unit (s := S2048x256) (k0_off7 c) S256x256.size (k0_off7_inb c)) : View sig .tc _ _ _).write (Elt F)
        (((oM : Memref sig .tc .vmem S2048x256 .f32).access (Rect.unit (s := S2048x256) (k0_off6 c) S256x256.size (k0_off6_inb c)) : View sig .tc _ _ _).write (Elt F)
          (((oM : Memref sig .tc .vmem S2048x256 .f32).access (Rect.unit (s := S2048x256) (k0_off5 c) S256x256.size (k0_off5_inb c)) : View sig .tc _ _ _).write (Elt F)
            (((oM : Memref sig .tc .vmem S2048x256 .f32).access (Rect.unit (s := S2048x256) (k0_off4 c) S256x256.size (k0_off4_inb c)) : View sig .tc _ _ _).write (Elt F)
              (((oM : Memref sig .tc .vmem S2048x256 .f32).access (Rect.unit (s := S2048x256) (k0_off3 c) S256x256.size (k0_off3_inb c)) : View sig .tc _ _ _).write (Elt F)
                (((oM : Memref sig .tc .vmem S2048x256 .f32).access (Rect.unit (s := S2048x256) (k0_off2 c) S256x256.size (k0_off2_inb c)) : View sig .tc _ _ _).write (Elt F)
                  (((oM : Memref sig .tc .vmem S2048x256 .f32).access (Rect.unit (s := S2048x256) (k0_off1 c) S256x256.size (k0_off1_inb c)) : View sig .tc _ _ _).write (Elt F)
                    f0 (gemmBlk (xstg m c) (wstg m c)) Finset.univ)
                  (gemmBlk (xstg m (og 0 c)) (wstg m c)) Finset.univ)
                (gemmBlk (xstg m (og 1 c)) (wstg m c)) Finset.univ)
              (gemmBlk (xstg m (og 2 c)) (wstg m c)) Finset.univ)
            (gemmBlk (xstg m (og 3 c)) (wstg m c)) Finset.univ)
          (gemmBlk (xstg m (og 4 c)) (wstg m c)) Finset.univ)
        (gemmBlk (xstg m (og 5 c)) (wstg m c)) Finset.univ)
      (gemmBlk (xstg m (og 6 c)) (wstg m c)) Finset.univ
      = outAt m c := by
  funext i
  rw [write_blk _ _ (og 6 c) (off8_eq c), write_blk _ _ (og 5 c) (off7_eq c), write_blk _ _ (og 4 c) (off6_eq c),
    write_blk _ _ (og 3 c) (off5_eq c), write_blk _ _ (og 2 c) (off4_eq c), write_blk _ _ (og 1 c) (off3_eq c),
    write_blk _ _ (og 0 c) (off2_eq c), write_blk _ _ c (off1_eq c)]
  unfold outAt
  have hd : ∀ d : Dev nD, (i 0).val / 256 = d.val → (⟨(i 0).val / 256, dev_of_row_lt (i 0)⟩ : Dev nD) = d := fun d h => Fin.ext h
  split_ifs with h6 h5 h4 h3 h2 h1 h0 hc
  · rw [hd _ h6]
  · rw [hd _ h5]
  · rw [hd _ h4]
  · rw [hd _ h3]
  · rw [hd _ h2]
  · rw [hd _ h1]
  · rw [hd _ h0]
  · rw [hd _ hc]
  · exfalso
    rcases og_cover c ⟨(i 0).val / 256, dev_of_row_lt (i 0)⟩ with h | h | h | h | h | h | h | h
    · exact hc h
    · exact h0 h
    · exact h1 h
    · exact h2 h
    · exact h3 h
    · exact h4 h
    · exact h5 h
    · exact h6 h

end Cert.KernelIdeal.AG

end
-- ==== Proof.CloseAll.lean ====
import proofs.«900494_g7700000000000495_dist_ag_gemm_m2048_k2048_n2048_f32_none_v7x_i8_1_alg».proof.Proof.Steps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin24 (Φ : Fin 24 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

/-- The twenty-four own cells of a device close at once. -/
theorem close_all (m : (ℓ : Loc nD τ sig) → Buf (Elt F) ℓ) (K : Dev nD × Fin 25 → ℕ) (c : Dev nD) :
    iprop(records m K
      ∗ (atPos ER (sendCell 0 c) 1 (∅ : Finset (Fin 3)) 0
      ∗ atPos ER (sendCell 1 c) 1 (∅ : Finset (Fin 3)) 0
      ∗ atPos ER (sendCell 2 c) 1 (∅ : Finset (Fin 3)) 0
      ∗ atPos ER (sendCell 3 c) 1 (∅ : Finset (Fin 3)) 0
      ∗ atPos ER (sendCell 4 c) 1 (∅ : Finset (Fin 3)) 0
      ∗ atPos ER (sendCell 5 c) 1 (∅ : Finset (Fin 3)) 0
      ∗ atPos ER (sendCell 6 c) 1 (∅ : Finset (Fin 3)) 0
      ∗ atPos ER (sendCell 7 c) 1 (∅ : Finset (Fin 3)) 0
      ∗ atPos ER (sendCell 8 c) 1 (∅ : Finset (Fin 3)) 0
      ∗ atPos ER (sendCell 9 c) 1 (∅ : Finset (Fin 3)) 0
      ∗ atPos ER (sendCell 10 c) 1 (∅ : Finset (Fin 3)) 0
      ∗ atPos ER (sendCell 11 c) 1 (∅ : Finset (Fin 3)) 0)
      ∗ (atPos ER (recvCell 0 c) 1 (∅ : Finset (Fin 3)) 0
      ∗ atPos ER (recvCell 1 c) 1 (∅ : Finset (Fin 3)) 0
      ∗ atPos ER (recvCell 2 c) 1 (∅ : Finset (Fin 3)) 0
      ∗ atPos ER (recvCell 3 c) 1 (∅ : Finset (Fin 3)) 0
      ∗ atPos ER (recvCell 4 c) 1 (∅ : Finset (Fin 3)) 0
      ∗ atPos ER (recvCell 5 c) 1 (∅ : Finset (Fin 3)) 0
      ∗ atPos ER (recvCell 6 c) 1 (∅ : Finset (Fin 3)) 0
      ∗ atPos ER (recvCell 7 c) 1 (∅ : Finset (Fin 3)) 0
      ∗ atPos ER (recvCell 8 c) 1 (∅ : Finset (Fin 3)) 0
      ∗ atPos ER (recvCell 9 c) 1 (∅ : Finset (Fin 3)) 0
      ∗ atPos ER (recvCell 10 c) 1 (∅ : Finset (Fin 3)) 0
      ∗ atPos ER (recvCell 11 c) 1 (∅ : Finset (Fin 3)) 0))
    ⊢ |={Set.univ}=> bigSep Finset.univ fun i : Fin 24 => semVal ((c : Thread nD τ), osem i) 0 := by
  rw [bigSep_fin24]
  iintro ⟨#HR, ⟨S0, S1, S2, S3, S4, S5, S6, S7, S8, S9, S10, S11⟩, R0, R1, R2, R3, R4, R5, R6, R7, R8, R9, R10, R11⟩
  imod (step_close_send m K 0 c) $$ [$] with VS0
  imod (step_close_send m K 1 c) $$ [$] with VS1
  imod (step_close_send m K 2 c) $$ [$] with VS2
  imod (step_close_send m K 3 c) $$ [$] with VS3
  imod (step_close_send m K 4 c) $$ [$] with VS4
  imod (step_close_send m K 5 c) $$ [$] with VS5
  imod (step_close_send m K 6 c) $$ [$] with VS6
  imod (step_close_send m K 7 c) $$ [$] with VS7
  imod (step_close_send m K 8 c) $$ [$] with VS8
  imod (step_close_send m K 9 c) $$ [$] with VS9
  imod (step_close_send m K 10 c) $$ [$] with VS10
  imod (step_close_send m K 11 c) $$ [$] with VS11
  imod (step_close_recv m K 0 c) $$ [$] with VR0
  imod (step_close_recv m K 1 c) $$ [$] with VR1
  imod (step_close_recv m K 2 c) $$ [$] with VR2
  imod (step_close_recv m K 3 c) $$ [$] with VR3
  imod (step_close_recv m K 4 c) $$ [$] with VR4
  imod (step_close_recv m K 5 c) $$ [$] with VR5
  imod (step_close_recv m K 6 c) $$ [$] with VR6
  imod (step_close_recv m K 7 c) $$ [$] with VR7
  imod (step_close_recv m K 8 c) $$ [$] with VR8
  imod (step_close_recv m K 9 c) $$ [$] with VR9
  imod (step_close_recv m K 10 c) $$ [$] with VR10
  imod (step_close_recv m K 11 c) $$ [$] with VR11
  imodintro
  isplitl [VS0]; · iexact VS0
  isplitl [VS1]; · iexact VS1
  isplitl [VS2]; · iexact VS2
  isplitl [VR0]; · iexact VR0
  isplitl [VR1]; · iexact VR1
  isplitl [VR2]; · iexact VR2
  isplitl [VS3]; · iexact VS3
  isplitl [VS4]; · iexact VS4
  isplitl [VS5]; · iexact VS5
  isplitl [VS6]; · iexact VS6
  isplitl [VS7]; · iexact VS7
  isplitl [VS8]; · iexact VS8
  isplitl [VR3]; · iexact VR3
  isplitl [VR4]; · iexact VR4
  isplitl [VR5]; · iexact VR5
  isplitl [VR6]; · iexact VR6
  isplitl [VR7]; · iexact VR7
  isplitl [VR8]; · iexact VR8
  isplitl [VS11]; · iexact VS11
  isplitl [VS10]; · iexact VS10
  isplitl [VS9]; · iexact VS9
  isplitl [VR11]; · iexact VR11
  isplitl [VR10]; · iexact VR10
  iexact VR9

end Cert.KernelIdeal.AG

end
-- ==== Proof.Body.lean ====
import proofs.«900494_g7700000000000495_dist_ag_gemm_m2048_k2048_n2048_f32_none_v7x_i8_1_alg».proof.Proof.Setup
import proofs.«900494_g7700000000000495_dist_ag_gemm_m2048_k2048_n2048_f32_none_v7x_i8_1_alg».proof.Proof.Mesh
import proofs.«900494_g7700000000000495_dist_ag_gemm_m2048_k2048_n2048_f32_none_v7x_i8_1_alg».proof.Proof.Regions
import proofs.«900494_g7700000000000495_dist_ag_gemm_m2048_k2048_n2048_f32_none_v7x_i8_1_alg».proof.Proof.Tables
import proofs.«900494_g7700000000000495_dist_ag_gemm_m2048_k2048_n2048_f32_none_v7x_i8_1_alg».proof.Proof.Steps
import proofs.«900494_g7700000000000495_dist_ag_gemm_m2048_k2048_n2048_f32_none_v7x_i8_1_alg».proof.Proof.ValueK
import proofs.«900494_g7700000000000495_dist_ag_gemm_m2048_k2048_n2048_f32_none_v7x_i8_1_alg».proof.Proof.CloseAll

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

def bodyPre (K : Dev nD × Fin 25 → ℕ) (c : Dev nD) : sProp 𝕄 :=
  iprop((ghost m K c ∗ cred (tallyAt (barCell c) () 3)
      ∗ (bigSep Finset.univ fun j : Fin 12 => cred (tallyAt (recvCell j c) () (amt j))) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m c ∗ (dats m ρ 0 c).owesAt () t₀.succ ∗ stg c cc0_stg0_0 (xstg m c) ∗ stg c cc0_stg1_0 (wstg m c)
    ∗ stg c cc0_stg2_0 (outAt m c))

abbrev oRect (off : Fin 2 → ℕ) (h : ∀ a, off a + S256x256.size a ≤ S2048x256.size a) : Rect S2048x256 :=
  Rect.unit (s := S2048x256) off S256x256.size h

abbrev sRect (s : ℕ) (h : ∀ a, (![s, 0, 0] : Fin 3 → Nat) a + S1x256x2048.size a ≤ S7x256x2048.size a) : LoadRect S7x256x2048 :=
  (Rect.unit (s := S7x256x2048) ![s, 0, 0] S1x256x2048.size h).toLoadRect

abbrev wRect : LoadRect S2048x256 := (Rect.unit (s := S2048x256) ![0, 0] S2048x256.size inb_S2048x256_S2048x256_0_0).toLoadRect

abbrev slotV (c : Dev nD) (s : ℕ) (h : ∀ a, (![s, 0, 0] : Fin 3 → Nat) a + S1x256x2048.size a ≤ S7x256x2048.size a) : Vec F S1x256x2048 .f32 :=
  (cM : Memref sig .tc .vmem S7x256x2048 .f32).view.readAt (Elt F) (sRect s h) (commFinal m c)
abbrev wV (c : Dev nD) : Vec F S2048x256 .f32 :=
  (wM : Memref sig .tc .vmem S2048x256 .f32).view.readAt (Elt F) wRect (wstg m c)

abbrev ldS (c : Dev nD) (s : ℕ) (h : ∀ a, (![s, 0, 0] : Fin 3 → Nat) a + S1x256x2048.size a ≤ S7x256x2048.size a) (q : PosShare TreeShare) : sProp 𝕄 :=
  (cM : Memref sig .tc .vmem S7x256x2048 .f32).view.loc (c : Thread nD τ) ↦[(sl256 s 0 h : Memref sig .tc .vmem S256x2048 .f32).view.set]{q} commFinal m c

abbrev wP (c : Dev nD) : sProp 𝕄 := (((c : Thread nD τ).loc cc0_stg1_0) ↦{fullShare} wstg m c)
abbrev oP (c : Dev nD) (g : (cc0_stg2_0 : Ref sig .tc).ty.Contents (Elt F)) : sProp 𝕄 := (((c : Thread nD τ).loc cc0_stg2_0) ↦{fullShare} g)

/-- One block product: the slot and the column block of `w` are loaded, the rectangle of the result overwritten with the product. -/
theorem gemm_slot (c : Dev nD) (s : ℕ) (h : ∀ a, (![s, 0, 0] : Fin 3 → Nat) a + S1x256x2048.size a ≤ S7x256x2048.size a)
    (off : Fin 2 → ℕ) (hoff : ∀ a, off a + S256x256.size a ≤ S2048x256.size a) (q : PosShare TreeShare)
    (pay : Vec F S1x256x2048 .f32 → Vec F S2048x256 .f32 → FVec F S256x256 .f32)
    (g : (cc0_stg2_0 : Ref sig .tc).ty.Contents (Elt F))
    {hl1 hl2 hl3 hx hm} {α : Type} {Q : α → sProp 𝕄} {k : PUnit → Prog (TpuEff nD τ sig (Elt F) Λ₀ .tc) α} :
    iprop(ldS m c s h q ∗ wP m c ∗ oP c g)
      ⊢ iprop(((ldS m c s h q ∗ wP m c
              ∗ oP c (((oM : Memref sig .tc .vmem S2048x256 .f32).access (oRect off hoff) : View sig .tc _ _ _).write (Elt F) g (pay (slotV m c s h) (wV m c)) Finset.univ))
            -∗ wp frame (wpE (defs₀ (F := F)) 𝒱₀ c none) Set.univ (k ⟨⟩) Q)
          -∗ wp frame (wpE (defs₀ (F := F)) 𝒱₀ c none) Set.univ
            (.op (.load (cM : Memref sig .tc .vmem S7x256x2048 .f32) (sRect s h) hl1) fun v =>
              .op (.load (wM : Memref sig .tc .vmem S2048x256 .f32) wRect hl2) fun w =>
                .op (.load (oM : Memref sig .tc .vmem S2048x256 .f32) (oRect off hoff).toLoadRect hl3) fun _ =>
                  .op (.store (oM : Memref sig .tc .vmem S2048x256 .f32) (oRect off hoff) (pay v w) Finset.univ hx hm) k) Q) := by
  iintro ⟨Hs, Hw, Ho⟩ Hk
  iapply (wp_load 𝒱₀ (c : Thread nD τ) none Set.univ (m := cM) (by rw [load_set_eq])) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect off hoff) (Mk := Finset.univ) (Finset.subset_univ _)) $$ Ho; iintro Ho
  iapply Hk $$ [$]

abbrev TS (j : Fin 12) (c : Dev nD) : sProp 𝕄 := dutyTok ER (sendCell j c) 0 (0 : Fin 3)
abbrev TR (j : Fin 12) (c : Dev nD) : sProp 𝕄 := dutyTok ER (recvCell j (tgt j c)) 0 (0 : Fin 3)
abbrev CS (j : Fin 12) (c : Dev nD) : sProp 𝕄 := cred (tallyAt (sendCell j c) () (amt j))
abbrev CR (j : Fin 12) (c : Dev nD) : sProp 𝕄 := cred (tallyAt (recvCell j c) () (amt j))
abbrev AS (j : Fin 12) (c : Dev nD) (r : ℕ) : sProp 𝕄 := atPos ER (sendCell j c) r (∅ : Finset (Fin 3)) 0
abbrev AR (j : Fin 12) (c : Dev nD) (r : ℕ) : sProp 𝕄 := atPos ER (recvCell j c) r (∅ : Finset (Fin 3)) 0
abbrev DX (j : Fin 12) (c : Dev nD) : sProp 𝕄 := iprop(∃ f, dstP (F := F) j (tgt j c) f)
abbrev OW (c : Dev nD) (k : ℕ) (W : Waits sig Unit) : sProp 𝕄 := owes (c : Thread nD τ) (owedFrom c k) W
abbrev RS (j : Fin 12) : SemLoc sig × Unit := (SemLoc.dma (rSem j), ())
abbrev SS (j : Fin 12) : SemLoc sig × Unit := (SemLoc.dma (sSem j), ())
abbrev BS : SemLoc sig × Unit := (SemLoc.reg barS, ())

abbrev xRect : LoadRect S256x2048 := (Rect.unit (s := S256x2048) ![0, 0] S256x2048.size inb_S256x2048_S256x2048_0_0).toLoadRect
abbrev xV (c : Dev nD) : Vec F S256x2048 .f32 := (xM : Memref sig .tc .vmem S256x2048 .f32).view.readAt (Elt F) xRect (xstg m c)

abbrev oW (off : Fin 2 → ℕ) (hoff : ∀ a, off a + S256x256.size a ≤ S2048x256.size a) (g : (cc0_stg2_0 : Ref sig .tc).ty.Contents (Elt F))
    (v : FVec F S256x256 .f32) : (cc0_stg2_0 : Ref sig .tc).ty.Contents (Elt F) :=
  ((oM : Memref sig .tc .vmem S2048x256 .f32).access (oRect off hoff) : View sig .tc _ _ _).write (Elt F) g v Finset.univ

theorem barPay_0 (c : Dev nD) : barPay (F := F) c 0 = iprop(DX 0 c ∗ DX 5 c ∗ DX 7 c ∗ DX 11 c) := rfl
theorem barPay_1 (c : Dev nD) : barPay (F := F) c 1 = iprop(DX 1 c ∗ DX 3 c ∗ DX 8 c ∗ DX 10 c) := rfl
theorem barPay_2 (c : Dev nD) : barPay (F := F) c 2 = iprop(DX 2 c ∗ DX 4 c ∗ DX 6 c ∗ DX 9 c) := rfl

omit [FloatOps F] in
theorem OW_12 (c : Dev nD) (W : Waits sig Unit) : (OW (F := F) c 12 W) = owes (c : Thread nD τ) 0 W := rfl

omit [FloatOps F] in
theorem fin12_chain (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

omit [FloatOps F] in
theorem fin25_chain (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16
      ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

omit [FloatOps F] in
/-- A device's twenty-five positions, cell by cell in the order of the semaphores. -/
theorem atPos_cells (c : Dev nD) :
    (bigSep Finset.univ fun k : Fin 25 => (atPos ER (kcell (c, k)) 0 (∅ : Finset (Fin 3)) 0 : sProp 𝕄))
      = iprop(atPos ER (barCell c) 0 (∅ : Finset (Fin 3)) 0 ∗ AS 0 c 0 ∗ AS 1 c 0 ∗ AS 2 c 0 ∗ AR 0 c 0 ∗ AR 1 c 0 ∗ AR 2 c 0
          ∗ AS 3 c 0 ∗ AS 4 c 0 ∗ AS 5 c 0 ∗ AS 6 c 0 ∗ AS 7 c 0 ∗ AS 8 c 0 ∗ AR 3 c 0 ∗ AR 4 c 0 ∗ AR 5 c 0 ∗ AR 6 c 0 ∗ AR 7 c 0 ∗ AR 8 c 0
          ∗ AS 11 c 0 ∗ AS 10 c 0 ∗ AS 9 c 0 ∗ AR 11 c 0 ∗ AR 10 c 0 ∗ AR 9 c 0) := by
  rw [fin25_chain]; rfl

omit [FloatOps F] in
/-- The four parts of its own scratch `c` hands its neighbour along an axis with the barrier unit. -/
theorem barPay_give_0 (c : Dev nD) :
    iprop((∃ f, dstP (F := F) 0 c f) ∗ (∃ f, dstP (F := F) 5 c f) ∗ (∃ f, dstP (F := F) 7 c f) ∗ (∃ f, dstP (F := F) 11 c f)) ⊢ barPay (F := F) (nbr 0 c) 0 := by
  have h : barPay (F := F) (nbr 0 c) 0 = iprop((∃ f, dstP (F := F) 0 (nbr 0 (nbr 0 c)) f) ∗ (∃ f, dstP (F := F) 5 (nbr 0 (nbr 0 c)) f)
      ∗ (∃ f, dstP (F := F) 7 (nbr 0 (nbr 0 c)) f) ∗ (∃ f, dstP (F := F) 11 (nbr 0 (nbr 0 c)) f)) := rfl
  rw [h, nbr_nbr]
omit [FloatOps F] in
theorem barPay_give_1 (c : Dev nD) :
    iprop((∃ f, dstP (F := F) 1 c f) ∗ (∃ f, dstP (F := F) 3 c f) ∗ (∃ f, dstP (F := F) 8 c f) ∗ (∃ f, dstP (F := F) 10 c f)) ⊢ barPay (F := F) (nbr 1 c) 1 := by
  have h : barPay (F := F) (nbr 1 c) 1 = iprop((∃ f, dstP (F := F) 1 (nbr 1 (nbr 1 c)) f) ∗ (∃ f, dstP (F := F) 3 (nbr 1 (nbr 1 c)) f)
      ∗ (∃ f, dstP (F := F) 8 (nbr 1 (nbr 1 c)) f) ∗ (∃ f, dstP (F := F) 10 (nbr 1 (nbr 1 c)) f)) := rfl
  rw [h, nbr_nbr]
omit [FloatOps F] in
theorem barPay_give_2 (c : Dev nD) :
    iprop((∃ f, dstP (F := F) 2 c f) ∗ (∃ f, dstP (F := F) 4 c f) ∗ (∃ f, dstP (F := F) 6 c f) ∗ (∃ f, dstP (F := F) 9 c f)) ⊢ barPay (F := F) (nbr 2 c) 2 := by
  have h : barPay (F := F) (nbr 2 c) 2 = iprop((∃ f, dstP (F := F) 2 (nbr 2 (nbr 2 c)) f) ∗ (∃ f, dstP (F := F) 4 (nbr 2 (nbr 2 c)) f)
      ∗ (∃ f, dstP (F := F) 6 (nbr 2 (nbr 2 c)) f) ∗ (∃ f, dstP (F := F) 9 (nbr 2 (nbr 2 c)) f)) := rfl
  rw [h, nbr_nbr]

omit [FloatOps F] in
theorem x_whole_eq (c : Dev nD) :
    (((xM : Memref sig .tc .vmem S256x2048 .f32).view.loc (c : Thread nD τ) ↦[(xM : Memref sig .tc .vmem S256x2048 .f32).view.set]{fullShare} xstg m c) : sProp 𝕄)
      = (((c : Thread nD τ).loc cc0_stg0_0) ↦{fullShare} xstg m c) := by
  rw [xM_set]

set_option maxRecDepth 65536 in
/-- The body, stretch by stretch (`seg1` … `seg15`): signals and barrier wait, the one-hop sends, then per slot its receive wait, relays and product, last the send waits. -/
theorem seg1 (K : Dev nD × Fin 25 → ℕ) (c : Dev nD) (W : Waits sig Unit)
    (Kt : (Σ' (d0 : Dev nD) (v2 : BitVec 32) (v6 : BitVec 32) (v8 : BitVec 32) (v9 : BitVec 32) (v15 : BitVec 32) (v21 : BitVec 32) (v27 : BitVec 32), Sems sig S_) → sProp 𝕄) :
    iprop(records m K ∗ owes (c : Thread nD τ) (O₀ c) W ∗ dutyTok ER (barCell (nbr 0 c)) 0 (0 : Fin 3) ∗ dutyTok ER (barCell (nbr 1 c)) 0 (1 : Fin 3)
        ∗ barPay (F := F) (nbr 0 c) 0 ∗ barPay (F := F) (nbr 1 c) 1)
      ⊢ iprop((∀ v2 v6 v8 v9 v15 v21 v27, owes (c : Thread nD τ) (O₂ c) W -∗ Kt ⟨c, v2, v6, v8, v9, v15, v21, v27, SemArray.scalar (sig.barrier 0 rfl)⟩)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt) := by
  rw [k0_part1_eq_skeleton]; unfold k0_part1_skel
  simp only [semSignalWord, semWaitWord, Prog.lift, Prog.bind_op, Prog.bind_ret, Prog.pure_eq_ret, wp_deviceId]
  simp only [dev1_eq c, dev2_eq c]
  rw [show O₀ c = (O₂ c + tallyAt (barCell (nbr 1 c)) () 1) + tallyAt (barCell (nbr 0 c)) () 1 from rfl]
  iintro ⟨#Hrec, HO, HT0, HT1, HP0, HP1⟩ Hk
  iapply (step_signal m K c (nbr 0 c) 0 rfl (O₂ c + tallyAt (barCell (nbr 1 c)) () 1) W) $$ [$]
  iintro HO
  iapply (step_signal m K c (nbr 1 c) 1 rfl (O₂ c) W) $$ [$]
  iintro HO
  rw [wp_ret]; imodintro
  iapply Hk
  iexact HO

set_option maxRecDepth 65536 in
theorem seg2 (K : Dev nD × Fin 25 → ℕ) (c : Dev nD) (v15 v21 v27 : BitVec 32) (W : Waits sig Unit) (Kt : FVec F S256x2048 .f32 → sProp 𝕄) :
    iprop(records m K ∗ levAts L lv ∗ owes (c : Thread nD τ) (O₂ c) W ∗ dutyTok ER (barCell (nbr 2 c)) 0 (2 : Fin 3) ∗ barPay (F := F) (nbr 2 c) 2
        ∗ cred (tallyAt (barCell c) () 3) ∗ atPos ER (barCell c) 0 (∅ : Finset (Fin 3)) 0
        ∗ srcP m 0 c ∗ srcP m 1 c ∗ srcP m 2 c ∗ TS 0 c ∗ TR 0 c ∗ TS 1 c ∗ TR 1 c ∗ TS 2 c ∗ TR 2 c ∗ xLd m c)
      ⊢ iprop(((OW c 3 (insert BS W) ∗ atPos ER (barCell c) 1 (∅ : Finset (Fin 3)) 0 ∗ CS 0 c ∗ CS 1 c ∗ CS 2 c
              ∗ DX 3 c ∗ DX 4 c ∗ DX 5 c ∗ DX 6 c ∗ DX 7 c ∗ DX 8 c ∗ DX 9 c ∗ DX 10 c ∗ DX 11 c ∗ xLd m c) -∗ Kt (k0_pay1 (xV m c)))
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27 (SemArray.scalar (sig.barrier 0 rfl))) Kt) := by
  rw [k0_part2_eq_skeleton]; unfold k0_part2_skel
  simp only [semSignalWord, semWaitWord, Prog.lift, Prog.bind_op, Prog.bind_ret, Prog.pure_eq_ret]
  simp only [dev3_eq c]
  rw [show O₂ c = owedFrom c 0 + tallyAt (barCell (nbr 2 c)) () 1 from rfl]
  iintro ⟨#Hrec, #Hlev, HO, HT2, HP2, HcB, HAB, HS0, HS1, HS2, HTS0, HTR0, HTS1, HTR1, HTS2, HTR2, HxL⟩ Hk
  iapply (step_signal m K c (nbr 2 c) 2 rfl (owedFrom c 0) W) $$ [$]
  iintro HO
  iapply (step_bar_wait m K c W) $$ [$]
  iintro ⟨HO, HAB, HB0, HB1, HB2⟩
  ihave HB0 := (Entails.of_eq (barPay_0 c)) $$ HB0
  ihave HB1 := (Entails.of_eq (barPay_1 c)) $$ HB1
  ihave HB2 := (Entails.of_eq (barPay_2 c)) $$ HB2
  icases HB0 with ⟨HD0, HD5, HD7, HD11⟩
  icases HB1 with ⟨HD1, HD3, HD8, HD10⟩
  icases HB2 with ⟨HD2, HD4, HD6, HD9⟩
  iapply (step_send m K 0 c _ (dev4_eq c) (owedFrom c 0) (owedFrom c 1) rfl (insert BS W)) $$ [$]
  iintro ⟨HCS0, HO⟩
  iapply (step_send m K 1 c _ (dev5_eq c) (owedFrom c 1) (owedFrom c 2) rfl (insert BS W)) $$ [$]
  iintro ⟨HCS1, HO⟩
  iapply (step_send m K 2 c _ (dev6_eq c) (owedFrom c 2) (owedFrom c 3) rfl (insert BS W)) $$ [$]
  iintro ⟨HCS2, HO⟩
  unfold xLd
  iapply (wp_load 𝒱₀ (c : Thread nD τ) none Set.univ (m := xM) (by rw [xM_set]; exact Finset.subset_univ _)) $$ HxL; iintro HxL
  rw [wp_ret]; imodintro
  iapply Hk $$ [$]

set_option maxRecDepth 65536 in
theorem seg3 (K : Dev nD × Fin 25 → ℕ) (c : Dev nD) (v2 v15 v21 v27 : BitVec 32) (v60 : FVec F S256x2048 .f32) (W : Waits sig Unit)
    (g : (cc0_stg2_0 : Ref sig .tc).ty.Contents (Elt F)) (R : sProp 𝕄) (hs : recvPay m 0 c ⊢ iprop(srcP m 3 c ∗ R)) (Kt : PUnit → sProp 𝕄) :
    iprop(records m K ∗ levAts L lv ∗ wP m c ∗ oP c g ∗ CR 0 c ∗ AR 0 c 0 ∗ OW c 3 W ∗ TS 3 c ∗ TR 3 c ∗ DX 3 c)
      ⊢ iprop(((wP m c ∗ oP c (oW (k0_off1 c) (k0_off1_inb c) g (k0_pay2 v60 (wV m c))) ∗ AR 0 c 1 ∗ OW c 4 (insert (RS 0) W) ∗ CS 3 c ∗ R) -∗ Kt ⟨⟩)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v2 v15 v21 v27 v60) Kt) := by
  rw [k0_part3_eq_skeleton]; unfold k0_part3_skel
  simp only [semSignalWord, semWaitWord, Prog.lift, Prog.bind_op, Prog.bind_ret, Prog.pure_eq_ret]
  iintro ⟨#Hrec, #Hlev, Hw, Ho, HCR0, HAR0, HO, HTS3, HTR3, HD3⟩ Hk
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect (k0_off1 c) (k0_off1_inb c)) (Mk := Finset.univ) (Finset.subset_univ _)) $$ Ho; iintro Ho
  iapply (step_recv_wait m K 0 c (by rfl) (owedFrom c 3) W (mayWait_recv 0 c 3 (by decide))) $$ [$]
  iintro ⟨HO, HAR0, HRP0⟩
  ihave HR := hs $$ HRP0
  icases HR with ⟨HS3, HR⟩
  iapply (step_send m K 3 c _ (dev7_eq c) (owedFrom c 3) (owedFrom c 4) rfl (insert (RS 0) W)) $$ [$]
  iintro ⟨HCS3, HO⟩
  rw [wp_ret]; imodintro
  iapply Hk $$ [$]

set_option maxRecDepth 65536 in
theorem seg4 (K : Dev nD × Fin 25 → ℕ) (c : Dev nD) (v15 v21 v27 : BitVec 32) (W : Waits sig Unit)
    (R : sProp 𝕄) (hs : recvPay m 1 c ⊢ iprop(srcP m 5 c ∗ R)) (Kt : PUnit → sProp 𝕄) :
    iprop(records m K ∗ levAts L lv ∗ OW c 4 W ∗ srcP m 4 c ∗ DX 4 c ∗ TS 4 c ∗ TR 4 c ∗ CR 1 c ∗ AR 1 c 0 ∗ DX 5 c ∗ TS 5 c ∗ TR 5 c)
      ⊢ iprop(((OW c 6 (insert (RS 1) W) ∗ CS 4 c ∗ AR 1 c 1 ∗ CS 5 c ∗ R) -∗ Kt ⟨⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27) Kt) := by
  rw [k0_part4_eq_skeleton]; unfold k0_part4_skel
  simp only [semSignalWord, semWaitWord, Prog.lift, Prog.bind_op, Prog.bind_ret, Prog.pure_eq_ret]
  iintro ⟨#Hrec, #Hlev, HO, HS4, HD4, HTS4, HTR4, HCR1, HAR1, HD5, HTS5, HTR5⟩ Hk
  iapply (step_send m K 4 c _ (dev8_eq c) (owedFrom c 4) (owedFrom c 5) rfl W) $$ [$]
  iintro ⟨HCS4, HO⟩
  iapply (step_recv_wait m K 1 c (by rfl) (owedFrom c 5) W (mayWait_recv 1 c 5 (by decide))) $$ [$]
  iintro ⟨HO, HAR1, HRP1⟩
  ihave HR := hs $$ HRP1
  icases HR with ⟨HS5, HR⟩
  iapply (step_send m K 5 c _ (dev9_eq c) (owedFrom c 5) (owedFrom c 6) rfl (insert (RS 1) W)) $$ [$]
  iintro ⟨HCS5, HO⟩
  rw [wp_ret]; imodintro
  iapply Hk $$ [$]

set_option maxRecDepth 65536 in
theorem seg5 (K : Dev nD × Fin 25 → ℕ) (c : Dev nD) (v15 v21 v27 : BitVec 32) (W : Waits sig Unit)
    (R : sProp 𝕄) (hs : recvPay m 2 c ⊢ iprop(srcP m 7 c ∗ srcP m 8 c ∗ R)) (Kt : PUnit → sProp 𝕄) :
    iprop(records m K ∗ levAts L lv ∗ OW c 6 W ∗ srcP m 6 c ∗ DX 6 c ∗ TS 6 c ∗ TR 6 c ∗ CR 2 c ∗ AR 2 c 0
        ∗ DX 7 c ∗ TS 7 c ∗ TR 7 c ∗ DX 8 c ∗ TS 8 c ∗ TR 8 c)
      ⊢ iprop(((OW c 9 (insert (RS 2) W) ∗ CS 6 c ∗ AR 2 c 1 ∗ CS 7 c ∗ CS 8 c ∗ R) -∗ Kt ⟨⟩)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27) Kt) := by
  rw [k0_part5_eq_skeleton]; unfold k0_part5_skel
  simp only [semSignalWord, semWaitWord, Prog.lift, Prog.bind_op, Prog.bind_ret, Prog.pure_eq_ret]
  iintro ⟨#Hrec, #Hlev, HO, HS6, HD6, HTS6, HTR6, HCR2, HAR2, HD7, HTS7, HTR7, HD8, HTS8, HTR8⟩ Hk
  iapply (step_send m K 6 c _ (dev10_eq c) (owedFrom c 6) (owedFrom c 7) rfl W) $$ [$]
  iintro ⟨HCS6, HO⟩
  iapply (step_recv_wait m K 2 c (by rfl) (owedFrom c 7) W (mayWait_recv 2 c 7 (by decide))) $$ [$]
  iintro ⟨HO, HAR2, HRP2⟩
  ihave HR := hs $$ HRP2
  icases HR with ⟨HS7, HS8, HR⟩
  iapply (step_send m K 7 c _ (dev11_eq c) (owedFrom c 7) (owedFrom c 8) rfl (insert (RS 2) W)) $$ [$]
  iintro ⟨HCS7, HO⟩
  iapply (step_send m K 8 c _ (dev12_eq c) (owedFrom c 8) (owedFrom c 9) rfl (insert (RS 2) W)) $$ [$]
  iintro ⟨HCS8, HO⟩
  rw [wp_ret]; imodintro
  iapply Hk $$ [$]

set_option maxRecDepth 65536 in
theorem seg6 (c : Dev nD) (v6 v8 v9 : BitVec 32) (q0 q1 : PosShare TreeShare) (g : (cc0_stg2_0 : Ref sig .tc).ty.Contents (Elt F))
    (Kt : (Σ' (v176 : BitVec 32), BitVec 32) → sProp 𝕄) :
    iprop(ldS m c 0 inb_S7x256x2048_S1x256x2048_0_0_0 q0 ∗ ldS m c 1 inb_S7x256x2048_S1x256x2048_1_0_0 q1 ∗ wP m c ∗ oP c g)
      ⊢ iprop((∀ r, (ldS m c 0 inb_S7x256x2048_S1x256x2048_0_0_0 q0 ∗ ldS m c 1 inb_S7x256x2048_S1x256x2048_1_0_0 q1 ∗ wP m c
              ∗ oP c (oW (k0_off3 c) (k0_off3_inb c) (oW (k0_off2 c) (k0_off2_inb c) g (k0_pay3 (slotV m c 0 inb_S7x256x2048_S1x256x2048_0_0_0) (wV m c)))
                  (k0_pay4 (slotV m c 1 inb_S7x256x2048_S1x256x2048_1_0_0) (wV m c)))) -∗ Kt r)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v6 v8 v9) Kt) := by
  rw [k0_part6_eq_skeleton]; unfold k0_part6_skel
  simp only [semSignalWord, semWaitWord, Prog.lift, Prog.bind_op, Prog.bind_ret, Prog.pure_eq_ret]
  iintro ⟨H0, H1, Hw, Ho⟩ Hk
  iapply (gemm_slot m c 0 _ _ _ q0 k0_pay3 g) $$ [$]
  iintro ⟨H0, Hw, Ho⟩
  iapply (gemm_slot m c 1 _ _ _ q1 k0_pay4 _) $$ [$]
  iintro ⟨H1, Hw, Ho⟩
  rw [wp_ret]; imodintro
  iapply Hk $$ [$]

set_option maxRecDepth 65536 in
theorem seg7 (K : Dev nD × Fin 25 → ℕ) (c : Dev nD) (v15 v21 v176 v177 : BitVec 32) (q : PosShare TreeShare) (W : Waits sig Unit)
    (g : (cc0_stg2_0 : Ref sig .tc).ty.Contents (Elt F)) (Kt : PUnit → sProp 𝕄) :
    iprop(records m K ∗ levAts L lv ∗ ldS m c 2 inb_S7x256x2048_S1x256x2048_2_0_0 q ∗ wP m c ∗ oP c g ∗ CR 3 c ∗ AR 3 c 0 ∗ CR 5 c ∗ AR 5 c 0 ∗ OW c 9 W)
      ⊢ iprop(((ldS m c 2 inb_S7x256x2048_S1x256x2048_2_0_0 q ∗ wP m c ∗ oP c (oW (k0_off4 c) (k0_off4_inb c) g (k0_pay5 (slotV m c 2 inb_S7x256x2048_S1x256x2048_2_0_0) (wV m c)))
              ∗ OW c 9 (insert (RS 5) (insert (RS 3) W)) ∗ AR 3 c 1 ∗ AR 5 c 1 ∗ recvPay m 3 c ∗ recvPay m 5 c) -∗ Kt ⟨⟩)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v176 v177) Kt) := by
  rw [k0_part7_eq_skeleton]; unfold k0_part7_skel
  simp only [semSignalWord, semWaitWord, Prog.lift, Prog.bind_op, Prog.bind_ret, Prog.pure_eq_ret]
  iintro ⟨#Hrec, #Hlev, H2, Hw, Ho, HCR3, HAR3, HCR5, HAR5, HO⟩ Hk
  iapply (gemm_slot m c 2 _ _ _ q k0_pay5 g) $$ [$]
  iintro ⟨H2, Hw, Ho⟩
  iapply (step_recv_wait m K 3 c (by rfl) (owedFrom c 9) W (mayWait_recv 3 c 9 (by decide))) $$ [$]
  iintro ⟨HO, HAR3, HRP3⟩
  iapply (step_recv_wait m K 5 c (by rfl) (owedFrom c 9) (insert (RS 3) W) (mayWait_recv 5 c 9 (by decide))) $$ [$]
  iintro ⟨HO, HAR5, HRP5⟩
  rw [wp_ret]; imodintro
  iapply Hk $$ [$]

set_option maxRecDepth 65536 in
theorem seg8 (K : Dev nD × Fin 25 → ℕ) (c : Dev nD) (v15 v27 : BitVec 32) (W : Waits sig Unit) (Kt : BitVec 32 → sProp 𝕄) :
    iprop(records m K ∗ levAts L lv ∗ OW c 9 W ∗ srcP m 9 c ∗ DX 9 c ∗ TS 9 c ∗ TR 9 c ∗ CR 4 c ∗ AR 4 c 0 ∗ CR 7 c ∗ AR 7 c 0)
      ⊢ iprop((∀ r, (OW c 10 (insert (RS 7) (insert (RS 4) W)) ∗ CS 9 c ∗ AR 4 c 1 ∗ AR 7 c 1 ∗ recvPay m 4 c ∗ recvPay m 7 c) -∗ Kt r)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v27) Kt) := by
  rw [k0_part8_eq_skeleton]; unfold k0_part8_skel
  simp only [semSignalWord, semWaitWord, Prog.lift, Prog.bind_op, Prog.bind_ret, Prog.pure_eq_ret]
  iintro ⟨#Hrec, #Hlev, HO, HS9, HD9, HTS9, HTR9, HCR4, HAR4, HCR7, HAR7⟩ Hk
  iapply (step_send m K 9 c _ (dev13_eq c) (owedFrom c 9) (owedFrom c 10) rfl W) $$ [$]
  iintro ⟨HCS9, HO⟩
  iapply (step_recv_wait m K 4 c (by rfl) (owedFrom c 10) W (mayWait_recv 4 c 10 (by decide))) $$ [$]
  iintro ⟨HO, HAR4, HRP4⟩
  iapply (step_recv_wait m K 7 c (by rfl) (owedFrom c 10) (insert (RS 4) W) (mayWait_recv 7 c 10 (by decide))) $$ [$]
  iintro ⟨HO, HAR7, HRP7⟩
  rw [wp_ret]; imodintro
  iapply Hk $$ [$]

set_option maxRecDepth 65536 in
theorem seg9 (K : Dev nD × Fin 25 → ℕ) (c : Dev nD) (v15 v21 v27 c1 : BitVec 32) (W : Waits sig Unit) (Kt : BitVec 32 → sProp 𝕄) :
    iprop(records m K ∗ levAts L lv ∗ OW c 10 W ∗ srcP m 10 c ∗ DX 10 c ∗ TS 10 c ∗ TR 10 c ∗ CR 6 c ∗ AR 6 c 0 ∗ CR 8 c ∗ AR 8 c 0)
      ⊢ iprop((∀ r, (OW c 11 (insert (RS 8) (insert (RS 6) W)) ∗ CS 10 c ∗ AR 6 c 1 ∗ AR 8 c 1 ∗ recvPay m 6 c ∗ recvPay m 8 c) -∗ Kt r)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27 c1) Kt) := by
  rw [k0_part9_eq_skeleton]; unfold k0_part9_skel
  simp only [semSignalWord, semWaitWord, Prog.lift, Prog.bind_op, Prog.bind_ret, Prog.pure_eq_ret]
  iintro ⟨#Hrec, #Hlev, HO, HS10, HD10, HTS10, HTR10, HCR6, HAR6, HCR8, HAR8⟩ Hk
  iapply (step_send m K 10 c _ (dev14_eq c) (owedFrom c 10) (owedFrom c 11) rfl W) $$ [$]
  iintro ⟨HCS10, HO⟩
  iapply (step_recv_wait m K 6 c (by rfl) (owedFrom c 11) W (mayWait_recv 6 c 11 (by decide))) $$ [$]
  iintro ⟨HO, HAR6, HRP6⟩
  iapply (step_recv_wait m K 8 c (by rfl) (owedFrom c 11) (insert (RS 6) W) (mayWait_recv 8 c 11 (by decide))) $$ [$]
  iintro ⟨HO, HAR8, HRP8⟩
  rw [wp_ret]; imodintro
  iapply Hk $$ [$]

set_option maxRecDepth 65536 in
theorem seg10 (K : Dev nD × Fin 25 → ℕ) (c : Dev nD) (v6 v8 v9 v255 : BitVec 32) (q3 q4 : PosShare TreeShare) (W : Waits sig Unit)
    (g : (cc0_stg2_0 : Ref sig .tc).ty.Contents (Elt F)) (Kt : (Σ' (v286 : BitVec 32), FVec F S256x2048 .f32) → sProp 𝕄) :
    iprop(records m K ∗ OW c 11 W ∗ srcP m 11 c ∗ DX 11 c ∗ TS 11 c ∗ TR 11 c ∗ ldS m c 3 inb_S7x256x2048_S1x256x2048_3_0_0 q3 ∗ wP m c ∗ oP c g ∗ ldS m c 4 inb_S7x256x2048_S1x256x2048_4_0_0 q4)
      ⊢ iprop((∀ v286, (OW c 12 W ∗ CS 11 c ∗ ldS m c 3 inb_S7x256x2048_S1x256x2048_3_0_0 q3 ∗ wP m c
              ∗ oP c (oW (k0_off5 c) (k0_off5_inb c) g (k0_pay6 (slotV m c 3 inb_S7x256x2048_S1x256x2048_3_0_0) (wV m c))) ∗ ldS m c 4 inb_S7x256x2048_S1x256x2048_4_0_0 q4)
            -∗ Kt ⟨v286, k0_pay7 (slotV m c 4 inb_S7x256x2048_S1x256x2048_4_0_0)⟩)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v6 v8 v9 v255) Kt) := by
  rw [k0_part10_eq_skeleton]; unfold k0_part10_skel
  simp only [semSignalWord, semWaitWord, Prog.lift, Prog.bind_op, Prog.bind_ret, Prog.pure_eq_ret]
  iintro ⟨#Hrec, HO, HS11, HD11, HTS11, HTR11, H3, Hw, Ho, H4⟩ Hk
  iapply (step_send m K 11 c _ (dev15_eq c) (owedFrom c 11) (owedFrom c 12) rfl W) $$ [$]
  iintro ⟨HCS11, HO⟩
  iapply (gemm_slot m c 3 _ _ _ q3 k0_pay6 g) $$ [$]
  iintro ⟨H3, Hw, Ho⟩
  iapply (wp_load 𝒱₀ (c : Thread nD τ) none Set.univ (m := cM) (by rw [load_set_eq])) $$ H4; iintro H4
  rw [wp_ret]; imodintro
  iapply Hk $$ [$]

set_option maxRecDepth 65536 in
theorem seg11 (K : Dev nD × Fin 25 → ℕ) (c : Dev nD) (v6 v8 v9 v15 v286 : BitVec 32) (v288 : FVec F S256x2048 .f32) (q : PosShare TreeShare) (W : Waits sig Unit)
    (g : (cc0_stg2_0 : Ref sig .tc).ty.Contents (Elt F)) (Kt : PUnit → sProp 𝕄) :
    iprop(records m K ∗ levAts L lv ∗ wP m c ∗ oP c g ∗ ldS m c 5 inb_S7x256x2048_S1x256x2048_5_0_0 q ∗ CR 11 c ∗ AR 11 c 0 ∗ OW c 12 W)
      ⊢ iprop(((wP m c ∗ oP c (oW (k0_off7 c) (k0_off7_inb c) (oW (k0_off6 c) (k0_off6_inb c) g (k0_pay8 v288 (wV m c)))
                  (k0_pay9 (slotV m c 5 inb_S7x256x2048_S1x256x2048_5_0_0) (wV m c)))
              ∗ ldS m c 5 inb_S7x256x2048_S1x256x2048_5_0_0 q ∗ OW c 12 (insert (RS 11) W) ∗ AR 11 c 1 ∗ recvPay m 11 c) -∗ Kt ⟨⟩)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v6 v8 v9 v15 v286 v288) Kt) := by
  rw [k0_part11_eq_skeleton]; unfold k0_part11_skel
  simp only [semSignalWord, semWaitWord, Prog.lift, Prog.bind_op, Prog.bind_ret, Prog.pure_eq_ret]
  iintro ⟨#Hrec, #Hlev, Hw, Ho, H5, HCR11, HAR11, HO⟩ Hk
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect (k0_off6 c) (k0_off6_inb c)) (Mk := Finset.univ) (Finset.subset_univ _)) $$ Ho; iintro Ho
  iapply (gemm_slot m c 5 _ _ _ q k0_pay9 _) $$ [$]
  iintro ⟨H5, Hw, Ho⟩
  iapply (step_recv_wait m K 11 c (by rfl) (owedFrom c 12) W (mayWait_recv 11 c 12 (fun j' h => absurd j'.isLt (by omega)))) $$ [$]
  iintro ⟨HO, HAR11, HRP11⟩
  rw [wp_ret]; imodintro
  iapply Hk $$ [$]

set_option maxRecDepth 65536 in
theorem seg12 (K : Dev nD × Fin 25 → ℕ) (c : Dev nD) (v6 v8 v9 v21 v27 : BitVec 32) (q : PosShare TreeShare) (W : Waits sig Unit)
    (hs : iprop(recvPay m 11 c ∗ recvPay m 10 c ∗ recvPay m 9 c) ⊢ ldS m c 6 inb_S7x256x2048_S1x256x2048_6_0_0 q)
    (Kt : (Σ' (v341 : BitVec 32), FVec F S256x256 .f32) → sProp 𝕄) :
    iprop(records m K ∗ levAts L lv ∗ CR 10 c ∗ AR 10 c 0 ∗ CR 9 c ∗ AR 9 c 0 ∗ OW c 12 W ∗ recvPay m 11 c ∗ wP m c)
      ⊢ iprop((∀ v341, (OW c 12 (insert (RS 9) (insert (RS 10) W)) ∗ AR 10 c 1 ∗ AR 9 c 1 ∗ ldS m c 6 inb_S7x256x2048_S1x256x2048_6_0_0 q ∗ wP m c)
            -∗ Kt ⟨v341, k0_pay10 (slotV m c 6 inb_S7x256x2048_S1x256x2048_6_0_0) (wV m c)⟩)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 v6 v8 v9 v21 v27) Kt) := by
  rw [k0_part12_eq_skeleton]; unfold k0_part12_skel
  simp only [semSignalWord, semWaitWord, Prog.lift, Prog.bind_op, Prog.bind_ret, Prog.pure_eq_ret]
  iintro ⟨#Hrec, #Hlev, HCR10, HAR10, HCR9, HAR9, HO, HRP11, Hw⟩ Hk
  iapply (step_recv_wait m K 10 c (by rfl) (owedFrom c 12) W (mayWait_recv 10 c 12 (fun j' h => absurd j'.isLt (by omega)))) $$ [$]
  iintro ⟨HO, HAR10, HRP10⟩
  iapply (step_recv_wait m K 9 c (by rfl) (owedFrom c 12) (insert (RS 10) W) (mayWait_recv 9 c 12 (fun j' h => absurd j'.isLt (by omega)))) $$ [$]
  iintro ⟨HO, HAR9, HRP9⟩
  ihave H6 := hs $$ [$]
  iapply (wp_load 𝒱₀ (c : Thread nD τ) none Set.univ (m := cM) (by rw [load_set_eq])) $$ H6; iintro H6
  iapply (wp_load 𝒱₀ (c : Thread nD τ) none Set.univ (m := wM) (Finset.subset_univ _)) $$ Hw; iintro Hw
  rw [wp_ret]; imodintro
  iapply Hk $$ [$]

set_option maxRecDepth 65536 in
theorem seg13 (K : Dev nD × Fin 25 → ℕ) (c : Dev nD) (v341 : BitVec 32) (v346 : FVec F S256x256 .f32) (W : Waits sig Unit)
    (g : (cc0_stg2_0 : Ref sig .tc).ty.Contents (Elt F)) (Kt : PUnit → sProp 𝕄) :
    iprop(records m K ∗ oP c g ∗ owes (c : Thread nD τ) 0 W ∗ CS 0 c ∗ AS 0 c 0 ∗ CS 1 c ∗ AS 1 c 0 ∗ CS 2 c ∗ AS 2 c 0 ∗ CS 3 c ∗ AS 3 c 0)
      ⊢ iprop(((oP c (oW (k0_off8 c) (k0_off8_inb c) g v346) ∗ owes (c : Thread nD τ) 0 (insert (SS 3) (insert (SS 2) (insert (SS 1) (insert (SS 0) W))))
              ∗ AS 0 c 1 ∗ srcP m 0 c ∗ AS 1 c 1 ∗ srcP m 1 c ∗ AS 2 c 1 ∗ srcP m 2 c ∗ AS 3 c 1 ∗ srcP m 3 c) -∗ Kt ⟨⟩)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v341 v346) Kt) := by
  rw [k0_part13_eq_skeleton]; unfold k0_part13_skel
  simp only [semSignalWord, semWaitWord, Prog.lift, Prog.bind_op, Prog.bind_ret, Prog.pure_eq_ret]
  iintro ⟨#Hrec, Ho, HO, HCS0, HAS0, HCS1, HAS1, HCS2, HAS2, HCS3, HAS3⟩ Hk
  iapply (wp_load 𝒱₀ (c : Thread nD τ) none Set.univ (m := oM) (Finset.subset_univ _)) $$ Ho; iintro Ho
  iapply (wp_store 𝒱₀ (c : Thread nD τ) none Set.univ (m := oM) (r := oRect (k0_off8 c) (k0_off8_inb c)) (Mk := Finset.univ) (Finset.subset_univ _)) $$ Ho; iintro Ho
  iapply (step_send_wait_zero m K 0 c (by rfl) W) $$ [$]
  iintro ⟨HO, HAS0, HSP0⟩
  iapply (step_send_wait_zero m K 1 c (by rfl) (insert (SS 0) W)) $$ [$]
  iintro ⟨HO, HAS1, HSP1⟩
  iapply (step_send_wait_zero m K 2 c (by rfl) (insert (SS 1) (insert (SS 0) W))) $$ [$]
  iintro ⟨HO, HAS2, HSP2⟩
  iapply (step_send_wait_zero m K 3 c (by rfl) (insert (SS 2) (insert (SS 1) (insert (SS 0) W)))) $$ [$]
  iintro ⟨HO, HAS3, HSP3⟩
  rw [wp_ret]; imodintro
  iapply Hk $$ [$]

set_option maxRecDepth 65536 in
theorem seg14 (K : Dev nD × Fin 25 → ℕ) (c : Dev nD) (W : Waits sig Unit) (Kt : PUnit → sProp 𝕄) :
    iprop(records m K ∗ owes (c : Thread nD τ) 0 W ∗ CS 4 c ∗ AS 4 c 0 ∗ CS 5 c ∗ AS 5 c 0 ∗ CS 6 c ∗ AS 6 c 0 ∗ CS 7 c ∗ AS 7 c 0)
      ⊢ iprop(((owes (c : Thread nD τ) 0 (insert (SS 7) (insert (SS 6) (insert (SS 5) (insert (SS 4) W))))
              ∗ AS 4 c 1 ∗ srcP m 4 c ∗ AS 5 c 1 ∗ srcP m 5 c ∗ AS 6 c 1 ∗ srcP m 6 c ∗ AS 7 c 1 ∗ srcP m 7 c) -∗ Kt ⟨⟩)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt) := by
  rw [k0_part14_eq_skeleton]; unfold k0_part14_skel
  simp only [semSignalWord, semWaitWord, Prog.lift, Prog.bind_op, Prog.bind_ret, Prog.pure_eq_ret]
  iintro ⟨#Hrec, HO, HCS4, HAS4, HCS5, HAS5, HCS6, HAS6, HCS7, HAS7⟩ Hk
  iapply (step_send_wait_zero m K 4 c (by rfl) W) $$ [$]
  iintro ⟨HO, HAS4, HSP4⟩
  iapply (step_send_wait_zero m K 5 c (by rfl) (insert (SS 4) W)) $$ [$]
  iintro ⟨HO, HAS5, HSP5⟩
  iapply (step_send_wait_zero m K 6 c (by rfl) (insert (SS 5) (insert (SS 4) W))) $$ [$]
  iintro ⟨HO, HAS6, HSP6⟩
  iapply (step_send_wait_zero m K 7 c (by rfl) (insert (SS 6) (insert (SS 5) (insert (SS 4) W)))) $$ [$]
  iintro ⟨HO, HAS7, HSP7⟩
  rw [wp_ret]; imodintro
  iapply Hk $$ [$]

set_option maxRecDepth 65536 in
theorem seg15 (K : Dev nD × Fin 25 → ℕ) (c : Dev nD) (W : Waits sig Unit) (Kt : PUnit → sProp 𝕄) :
    iprop(records m K ∗ owes (c : Thread nD τ) 0 W ∗ CS 8 c ∗ AS 8 c 0 ∗ CS 9 c ∗ AS 9 c 0 ∗ CS 10 c ∗ AS 10 c 0)
      ⊢ iprop(((owes (c : Thread nD τ) 0 (insert (SS 10) (insert (SS 9) (insert (SS 8) W)))
              ∗ AS 8 c 1 ∗ srcP m 8 c ∗ AS 9 c 1 ∗ srcP m 9 c ∗ AS 10 c 1 ∗ srcP m 10 c) -∗ Kt ⟨⟩)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt) := by
  rw [k0_part15_eq_skeleton]; unfold k0_part15_skel
  simp only [semSignalWord, semWaitWord, Prog.lift, Prog.bind_op, Prog.bind_ret, Prog.pure_eq_ret]
  iintro ⟨#Hrec, HO, HCS8, HAS8, HCS9, HAS9, HCS10, HAS10⟩ Hk
  iapply (step_send_wait_zero m K 8 c (by rfl) W) $$ [$]
  iintro ⟨HO, HAS8, HSP8⟩
  iapply (step_send_wait_zero m K 9 c (by rfl) (insert (SS 8) W)) $$ [$]
  iintro ⟨HO, HAS9, HSP9⟩
  iapply (step_send_wait_zero m K 10 c (by rfl) (insert (SS 9) (insert (SS 8) W))) $$ [$]
  iintro ⟨HO, HAS10, HSP10⟩
  rw [wp_ret]; imodintro
  iapply Hk $$ [$]

set_option maxRecDepth 65536 in
set_option maxHeartbeats 3200000 in
/-- The stretches in sequence, from what the launch deals a device to the obligation's postcondition. -/
theorem sound_body (K : Dev nD × Fin 25 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt := by
  rw [cc0_body_eq_skeleton]; unfold cc0_body_skel
  simp only [Prog.lift, Prog.bind_op, Prog.bind_ret, Prog.pure_eq_ret, wp_bind]
  unfold bodyPre ghost linear payToks
  iintro ⟨⟨⟨⟨#Hrec, HAT, HTB, HTX⟩, HcB, HCR, #Hlev, ⟨%f0, Hscr⟩⟩, Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch_0 t₀)]; rfl
  have hw : g1 = wstg m c := by rw [hg1]; unfold Dat.before; rw [if_pos (fetch_1 t₀)]; rfl
  subst hx; subst hw
  unfold Dat.owesAt Pipeline.owesWithin
  icases Ho with ⟨%W, %hW, HO⟩
  rw [show (dats m ρ 0 c).owed t₀.castSucc = O₀ c from rfl]
  ihave HAT' := (Entails.of_eq (atPos_cells c)) $$ HAT
  icases HAT' with ⟨HAB, HAS0, HAS1, HAS2, HAR0, HAR1, HAR2, HAS3, HAS4, HAS5, HAS6, HAS7, HAS8, HAR3, HAR4, HAR5, HAR6, HAR7, HAR8, HAS11, HAS10, HAS9, HAR11, HAR10, HAR9⟩
  ihave HTB' := (Entails.of_eq (bigSep_fin3 _)) $$ HTB
  icases HTB' with ⟨HT0, HT1, HT2⟩
  ihave HTX' := (Entails.of_eq (fin12_chain _)) $$ HTX
  icases HTX' with ⟨⟨HTS0, HTR0⟩, ⟨HTS1, HTR1⟩, ⟨HTS2, HTR2⟩, ⟨HTS3, HTR3⟩, ⟨HTS4, HTR4⟩, ⟨HTS5, HTR5⟩, ⟨HTS6, HTR6⟩, ⟨HTS7, HTR7⟩, ⟨HTS8, HTR8⟩, ⟨HTS9, HTR9⟩, ⟨HTS10, HTR10⟩, ⟨HTS11, HTR11⟩⟩
  ihave HCR' := (Entails.of_eq (fin12_chain _)) $$ HCR
  icases HCR' with ⟨HCR0, HCR1, HCR2, HCR3, HCR4, HCR5, HCR6, HCR7, HCR8, HCR9, HCR10, HCR11⟩
  ihave HDs := (scratch_split_ex c) $$ [Hscr]
  · iexists f0; iexact Hscr
  icases HDs with ⟨HD0, HD1, HD2, HD3, HD4, HD5, HD6, HD7, HD8, HD9, HD10, HD11⟩
  ihave HP0 := (barPay_give_0 c) $$ [$]
  ihave HP1 := (barPay_give_1 c) $$ [$]
  ihave HP2 := (barPay_give_2 c) $$ [$]
  ihave HX := (x_split m c).1 $$ [Hx]
  · iapply (Entails.of_eq (x_whole_eq m c).symm); iexact Hx
  icases HX with ⟨HS0, HS1, HS2, HxL⟩
  iapply (seg1 m K c W _) $$ [$]
  iintro %v2 %v6 %v8 %v9 %v15 %v21 %v27 HO
  simp only [wp_bind]
  iapply (seg2 m K c v15 v21 v27 W _) $$ [$]
  iintro ⟨HO, HAB, HCS0, HCS1, HCS2, HD3, HD4, HD5, HD6, HD7, HD8, HD9, HD10, HD11, HxL⟩
  iapply (seg3 m K c v2 v15 v21 v27 _ (insert BS W) g2 (iprop(srcP m 4 c ∗ ldP m 0 c ∗ junk0 m c)) (slot0 m c).1 _) $$ [$]
  iintro ⟨Hw, Hout, HAR0, HO, HCS3, HS4, HL0, HJ0⟩
  iapply (seg4 m K c v15 v21 v27 (insert (RS 0) (insert BS W)) (iprop(srcP m 6 c ∗ ldP m 1 c)) (slot1 m c).1 _) $$ [$]
  iintro ⟨HO, HCS4, HAR1, HCS5, HS6, HL1⟩
  iapply (seg5 m K c v15 v21 v27 (insert (RS 1) (insert (RS 0) (insert BS W))) (iprop(ldP m 2 c ∗ junk2 m c)) (slot2 m c).1 _) $$ [$]
  iintro ⟨HO, HCS6, HAR2, HCS7, HCS8, HL2, HJ2⟩
  iapply (seg6 m c v6 v8 v9 qRR qR _ _) $$ [HL0 HL1 Hw Hout]
  · isplitl [HL0]; · (iapply (Entails.of_eq (ldP_0 m c)); iexact HL0)
    isplitl [HL1]; · (iapply (Entails.of_eq (ldP_1 m c)); iexact HL1)
    isplitl [Hw]; · iexact Hw
    iexact Hout
  iintro %r6 ⟨HL0, HL1, Hw, Hout⟩
  ihave HL0 := (Entails.of_eq (ldP_0 m c).symm) $$ HL0
  ihave HL1 := (Entails.of_eq (ldP_1 m c).symm) $$ HL1
  obtain ⟨v176, v177⟩ := r6
  simp only [wp_bind]
  iapply (seg7 m K c v15 v21 v176 v177 qRR (insert (RS 2) (insert (RS 1) (insert (RS 0) (insert BS W)))) _ _) $$ [HL2 Hw Hout HCR3 HAR3 HCR5 HAR5 HO]
  · isplitr; · iexact Hrec
    isplitr; · iexact Hlev
    isplitl [HL2]; · (iapply (Entails.of_eq (ldP_2 m c)); iexact HL2)
    isplitl [Hw]; · iexact Hw
    isplitl [Hout]; · iexact Hout
    isplitl [HCR3]; · iexact HCR3
    isplitl [HAR3]; · iexact HAR3
    isplitl [HCR5]; · iexact HCR5
    isplitl [HAR5]; · iexact HAR5
    iexact HO
  iintro ⟨HL2, Hw, Hout, HO, HAR3, HAR5, HRP3, HRP5⟩
  ihave HL2 := (Entails.of_eq (ldP_2 m c).symm) $$ HL2
  ihave H3 := ((slot3 m c).1) $$ [$]
  icases H3 with ⟨HS9, HL3, HJ3⟩
  iapply (seg8 m K c v15 v27 (insert (RS 5) (insert (RS 3) (insert (RS 2) (insert (RS 1) (insert (RS 0) (insert BS W)))))) _) $$ [$]
  iintro %r8 ⟨HO, HCS9, HAR4, HAR7, HRP4, HRP7⟩
  ihave H4 := ((slot4 m c).1) $$ [$]
  icases H4 with ⟨HS10, HL4, HJ4⟩
  iapply (seg9 m K c v15 v21 v27 r8 (insert (RS 7) (insert (RS 4) (insert (RS 5) (insert (RS 3) (insert (RS 2) (insert (RS 1) (insert (RS 0) (insert BS W)))))))) _) $$ [$]
  iintro %r9 ⟨HO, HCS10, HAR6, HAR8, HRP6, HRP8⟩
  ihave H5 := ((slot5 m c).1) $$ [$]
  icases H5 with ⟨HS11, HL5, HJ5⟩
  iapply (seg10 m K c v6 v8 v9 r9 qR qR (insert (RS 8) (insert (RS 6) (insert (RS 7) (insert (RS 4) (insert (RS 5) (insert (RS 3) (insert (RS 2) (insert (RS 1) (insert (RS 0) (insert BS W)))))))))) _ _) $$ [HO HS11 HD11 HTS11 HTR11 HL3 Hw Hout HL4]
  · isplitr; · iexact Hrec
    isplitl [HO]; · iexact HO
    isplitl [HS11]; · iexact HS11
    isplitl [HD11]; · iexact HD11
    isplitl [HTS11]; · iexact HTS11
    isplitl [HTR11]; · iexact HTR11
    isplitl [HL3]; · (iapply (Entails.of_eq (ldP_3 m c)); iexact HL3)
    isplitl [Hw]; · iexact Hw
    isplitl [Hout]; · iexact Hout
    (iapply (Entails.of_eq (ldP_4 m c)); iexact HL4)
  iintro %v286 ⟨HO, HCS11, HL3, Hw, Hout, HL4⟩
  ihave HL3 := (Entails.of_eq (ldP_3 m c).symm) $$ HL3
  ihave HL4 := (Entails.of_eq (ldP_4 m c).symm) $$ HL4
  simp only [wp_bind]
  iapply (seg11 m K c v6 v8 v9 v15 v286 _ qR (insert (RS 8) (insert (RS 6) (insert (RS 7) (insert (RS 4) (insert (RS 5) (insert (RS 3) (insert (RS 2) (insert (RS 1) (insert (RS 0) (insert BS W)))))))))) _ _) $$ [Hw Hout HL5 HCR11 HAR11 HO]
  · isplitr; · iexact Hrec
    isplitr; · iexact Hlev
    isplitl [Hw]; · iexact Hw
    isplitl [Hout]; · iexact Hout
    isplitl [HL5]; · (iapply (Entails.of_eq (ldP_5 m c)); iexact HL5)
    isplitl [HCR11]; · iexact HCR11
    isplitl [HAR11]; · iexact HAR11
    iexact HO
  iintro ⟨Hw, Hout, HL5, HO, HAR11, HRP11⟩
  ihave HL5 := (Entails.of_eq (ldP_5 m c).symm) $$ HL5
  iapply (seg12 m K c v6 v8 v9 v21 v27 fullShare (insert (RS 11) (insert (RS 8) (insert (RS 6) (insert (RS 7) (insert (RS 4) (insert (RS 5) (insert (RS 3) (insert (RS 2) (insert (RS 1) (insert (RS 0) (insert BS W))))))))))) ((slot6' m c).1.trans (Entails.of_eq (ldP_6 m c))) _) $$ [$]
  iintro %v341 ⟨HO, HAR10, HAR9, HL6, Hw⟩
  ihave HL6 := (Entails.of_eq (ldP_6 m c).symm) $$ HL6
  simp only [wp_bind]
  ihave HO := (Entails.of_eq (OW_12 c _)) $$ HO
  iapply (seg13 m K c v341 _ (insert (RS 9) (insert (RS 10) (insert (RS 11) (insert (RS 8) (insert (RS 6) (insert (RS 7) (insert (RS 4) (insert (RS 5) (insert (RS 3) (insert (RS 2) (insert (RS 1) (insert (RS 0) (insert BS W))))))))))))) _ _) $$ [$]
  iintro ⟨Hout, HO, HAS0, HSP0, HAS1, HSP1, HAS2, HSP2, HAS3, HSP3⟩
  iapply (seg14 m K c (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W))))))))))))))))) _) $$ [$]
  iintro ⟨HO, HAS4, HSP4, HAS5, HSP5, HAS6, HSP6, HAS7, HSP7⟩
  iapply (seg15 m K c (insert (SS 7) (insert (SS 6) (insert (SS 5) (insert (SS 4) (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W))))))))))))))))))))) _) $$ [$]
  iintro ⟨HO, HAS8, HSP8, HAS9, HSP9, HAS10, HSP10⟩
  iapply (step_send_wait_zero m K 11 c (by rfl) (insert (SS 10) (insert (SS 9) (insert (SS 8) (insert (SS 7) (insert (SS 6) (insert (SS 5) (insert (SS 4) (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W))))))))))))))))))))))))) $$ [$]
  iintro ⟨HO, HAS11, HSP11⟩
  imod (close_all m K c) $$ [$] with HZ
  ihave HRP0 := ((slot0 m c).2) $$ [$]
  ihave HRP1 := ((slot1 m c).2) $$ [$]
  ihave HRP2 := ((slot2 m c).2) $$ [$]
  ihave HR35 := ((slot3 m c).2) $$ [$]
  icases HR35 with ⟨HRP3, HRP5⟩
  ihave HR47 := ((slot4 m c).2) $$ [$]
  icases HR47 with ⟨HRP4, HRP7⟩
  ihave HR68 := ((slot5 m c).2) $$ [$]
  icases HR68 with ⟨HRP6, HRP8⟩
  ihave HR6 := (slot6 m c).2 $$ HL6
  icases HR6 with ⟨HRP9, HRP10, HRP11⟩
  ihave Hscr := (scratch_join m c) $$ [$]
  ihave Hx := (((x_split m c).2).trans (Entails.of_eq (x_whole_eq m c))) $$ [$]
  rw [wp_ret]; imodintro
  iapply Hk
  unfold bodyPost Φ₁ Dat.owesAt Pipeline.owesWithin
  rw [show (dats m ρ 0 c).owed t₀.succ = 0 from rfl]
  isplitl [Hscr HZ]
  · isplitl [Hscr]; · iexact Hscr
    iexact HZ
  isplitl [HO]
  · iexists (insert (SS 11) (insert (SS 10) (insert (SS 9) (insert (SS 8) (insert (SS 7) (insert (SS 6) (insert (SS 5) (insert (SS 4) (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W)))))))))))))))))))))))))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _
  isplitr
  rotate_left
  · iexact Hout
  · ipureintro
    rw [pay12_eq, pay3_eq, pay4_eq, pay5_eq, pay6_eq, pay78_eq, pay9_eq, pay10_eq, show xV m c = xstg m c from read_x _, show wV m c = wstg m c from read_w _]
    exact out_writes m c g2

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6) (fun _ => bodyPost m ρ c)
  unfold bodyPre' Φ₀ start
  iintro ⟨⟨⟨⟨%K, Hg⟩, Hrest⟩, Hscr⟩, Ho, Hx, Hw, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hw]; · iexact Hw
    iexact Hout
  · iintro H; iexact H

end Cert.KernelIdeal.AG

end
-- ==== Proof.Final.lean ====
import proofs.«900494_g7700000000000495_dist_ag_gemm_m2048_k2048_n2048_f32_none_v7x_i8_1_alg».proof.Proof.Setup
import Idealize.ShloMosaic.Lib.Pipeline.Value
import Idealize.ShloMosaic.Lib.ValueLayout

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem final_x (c : Dev nD) : (dats m ρ 0 c).arrAt (0 : Fin 3) cfg0.N = m ((c : Thread nD τ).loc main_arg0) :=
  (dats (F := F) m ρ 0 c).arrAt_in (0 : Fin 3) rfl _
theorem final_w (c : Dev nD) : (dats m ρ 0 c).arrAt (1 : Fin 3) cfg0.N = m ((c : Thread nD τ).loc main_arg1) :=
  (dats (F := F) m ρ 0 c).arrAt_in (1 : Fin 3) rfl _

/-- The result's one block is the whole result array. -/
theorem final_out (c : Dev nD) : (dats m ρ 0 c).arrAt (2 : Fin 3) cfg0.N = outAt m c := by
  have h : (win0_2.blk (0 : Fin 1)).view.read (Elt F) ((dats m ρ 0 c).arrAt (2 : Fin 3) cfg0.N) = outAt m c := by
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  rw [hr] at h
  exact h

end Cert.KernelIdeal.AG

end
-- ==== Proof.RefSide.lean ====
import proofs.«900494_g7700000000000495_dist_ag_gemm_m2048_k2048_n2048_f32_none_v7x_i8_1_alg».proof.Proof.Gen.ReferenceIdeal.Run
import proofs.«900494_g7700000000000495_dist_ag_gemm_m2048_k2048_n2048_f32_none_v7x_i8_1_alg».proof.Proof.Gen.ReferenceIdeal.Read
-- ==== Proof.ValueI.lean ====
import proofs.«900494_g7700000000000495_dist_ag_gemm_m2048_k2048_n2048_f32_none_v7x_i8_1_alg».proof.Proof.Setup
import proofs.«900494_g7700000000000495_dist_ag_gemm_m2048_k2048_n2048_f32_none_v7x_i8_1_alg».proof.Proof.RefSide
import Idealize.ShloMosaic.Lib.Layout
import Idealize.ShloMosaic.Lib.Pipeline.Value
import Idealize.ShloMosaic.Lib.ValueIdx
import Idealize.ShloMosaic.PureOps.Ideal.Laws

noncomputable section

namespace Cert.KernelIdeal.AG

open Cert.KernelIdeal Cert.KernelIdeal.Gen
open Idealize.ShloMosaic Idealize.ShloMosaic.TcCoe Idealize.SL.Sem
open Idealize.ShloMosaic.ValueIdx
open scoped BigOperators

theorem xstg_apply {F : FTy → Type} [FloatOps F] (m : (ℓ : Loc nD τ sig) → Buf (Elt F) ℓ) (c : Dev nD) (j : S256x2048.Idx) :
    xstg m c j = m ((c : Thread nD τ).loc main_arg0) j := by
  unfold xstg
  rw [View.read_apply]
  show m ((c : Thread nD τ).loc main_arg0) _ = _
  refine congrArg (m ((c : Thread nD τ).loc main_arg0)) (funext fun a => Fin.ext ?_)
  show 0 * _ + 1 * (j a).val = (j a).val
  omega

theorem wstg_apply {F : FTy → Type} [FloatOps F] (m : (ℓ : Loc nD τ sig) → Buf (Elt F) ℓ) (c : Dev nD) (j : S2048x256.Idx) :
    wstg m c j = m ((c : Thread nD τ).loc main_arg1) j := by
  unfold wstg
  rw [View.read_apply]
  show m ((c : Thread nD τ).loc main_arg1) _ = _
  refine congrArg (m ((c : Thread nD τ).loc main_arg1)) (funext fun a => Fin.ext ?_)
  show 0 * _ + 1 * (j a).val = (j a).val
  omega

theorem lhs_blk_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhs_blk_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem rhs_blk_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem rhs_blk_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

abbrev lidxB (i : S256x256.Idx) (k : Fin 2048) : S256x2048.Idx := fun a => match a with
  | ⟨0, _⟩ => ⟨(i 0).val, (i 0).isLt⟩
  | ⟨1, _⟩ => ⟨k.val, k.isLt⟩
abbrev ridxB (i : S256x256.Idx) (k : Fin 2048) : S2048x256.Idx := fun a => match a with
  | ⟨0, _⟩ => ⟨k.val, k.isLt⟩
  | ⟨1, _⟩ => ⟨(i 1).val, (i 1).isLt⟩

/-- An entry of a block product is the sum over the contracted axis. -/
theorem gemmBlk_apply (x : Vec Ideal S256x2048 .f32) (w : Vec Ideal S2048x256 .f32) (i : S256x256.Idx) :
    gemmBlk (F := Ideal) x w i = ∑ k : Fin 2048, x (lidxB i k) * w (ridxB i k) := by
  unfold gemmBlk
  simp only [matmul]
  rw [Ideal.matmul_constant_zero_apply, ← Equiv.sum_comp (ValueIdx.contrEquiv1 dot_S256x2048_S2048x256_S256x256_1_0_0_1_n_n 2048 rfl rfl).symm]
  refine Finset.sum_congr rfl fun k _ => ?_
  have hk := ValueIdx.contrEquiv1_symm_val dot_S256x2048_S2048x256_S256x256_1_0_0_1_n_n 2048 rfl rfl k
  have el : dot_S256x2048_S2048x256_S256x256_1_0_0_1_n_n.lhsIdx i ((ValueIdx.contrEquiv1 dot_S256x2048_S2048x256_S256x256_1_0_0_1_n_n 2048 rfl rfl).symm k) = lidxB i k := funext fun a => Fin.ext (by
    match a with
    | ⟨0, _⟩ => exact lhs_blk_0 _ _
    | ⟨1, _⟩ => exact (lhs_blk_1 _ _).trans hk)
  have er : dot_S256x2048_S2048x256_S256x256_1_0_0_1_n_n.rhsIdx i ((ValueIdx.contrEquiv1 dot_S256x2048_S2048x256_S256x256_1_0_0_1_n_n 2048 rfl rfl).symm k) = ridxB i k := funext fun a => Fin.ext (by
    match a with
    | ⟨0, _⟩ => exact (rhs_blk_0 _ _).trans hk
    | ⟨1, _⟩ => exact rhs_blk_1 _ _)
  rw [el, er]

/-- Device `c`'s result is block `c` of the reference's `x · w`. -/
theorem out_block (m : (ℓ : Loc nD τ sig) → Buf (Elt Ideal) ℓ)
    (X W : (⟨Cert.ReferenceIdeal.S2048x2048, .f32⟩ : BufTy).Contents (Elt Ideal))
    (hx : ∀ c : Dev nD, m ((c : Thread nD τ).loc main_arg0) = Layout.block ⟨2, ![256, 2048]⟩ ⟨2, ![2048, 2048]⟩ 0 8 c X)
    (hw : ∀ c : Dev nD, m ((c : Thread nD τ).loc main_arg1) = Layout.block ⟨2, ![2048, 256]⟩ ⟨2, ![2048, 2048]⟩ 1 8 c W)
    (c : Dev nD) :
    outAt (F := Ideal) m c = Layout.block ⟨2, ![2048, 256]⟩ ⟨2, ![2048, 2048]⟩ 1 8 c
      (Host.dotGeneral (F := Ideal) (φ₁ := .f32) (φ₂ := .f32) Cert.ReferenceIdeal.dot_S2048x2048_S2048x2048_S2048x2048_1_0_0_1_n_n none X W) := by
  funext i
  show (_ : EReal) = _
  rw [Layout.block_apply, Cert.ReferenceIdeal.Read.val_main_v0_eq, Cert.ReferenceIdeal.Read.val_main_v0_apply]
  unfold outAt
  rw [gemmBlk_apply]
  refine Finset.sum_congr rfl fun k _ => ?_
  rw [xstg_apply, wstg_apply, hx, hw, Layout.block_apply, Layout.block_apply]
  have hdm := Nat.div_add_mod (i 0).val 256
  congr 2
  · funext a
    refine Fin.ext ?_
    match a with
    | ⟨0, _⟩ => show (i 0).val / 256 * 256 + (i 0).val % 256 = (i 0).val; omega
    | ⟨1, _⟩ => rfl
  · funext a
    refine Fin.ext ?_
    match a with
    | ⟨0, _⟩ => rfl
    | ⟨1, _⟩ => rfl

end Cert.KernelIdeal.AG

end
-- ==== Proof.Bits.Setup.lean ====
import proofs.«900494_g7700000000000495_dist_ag_gemm_m2048_k2048_n2048_f32_none_v7x_i8_1_alg».proof.Proof.Gen.Kernel
import proofs.«900494_g7700000000000495_dist_ag_gemm_m2048_k2048_n2048_f32_none_v7x_i8_1_alg».proof.Proof.Gen.Kernel.Skeleton
import proofs.«900494_g7700000000000495_dist_ag_gemm_m2048_k2048_n2048_f32_none_v7x_i8_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

theorem fl_lt : ∀ (k : Fin 8) (c : Dev nD), c.val ^^^ k.val < nD := by decide

/-- The device whose number differs from `c`'s in the bits of `k`: the 3-cube in its Gray-coded numbering. -/
def fl (k : Fin 8) (c : Dev nD) : Dev nD := ⟨c.val ^^^ k.val, fl_lt k c⟩

abbrev axK : Fin 3 → Fin 8 := ![1, 3, 4]
abbrev slotK : Fin 7 → Fin 8 := ![1, 3, 4, 2, 5, 7, 6]

/-- The neighbour of `c` along cube axis `a`. -/
abbrev nbr (a : Fin 3) (c : Dev nD) : Dev nD := fl (axK a) c
/-- The device whose row block of `x` slot `s` of `c`'s scratch buffer ends holding. -/
abbrev og (s : Fin 7) (c : Dev nD) : Dev nD := fl (slotK s) c

theorem fl_fl (k : Fin 8) (c : Dev nD) : fl k (fl k c) = c := by revert k c; decide
theorem nbr_nbr (a : Fin 3) (c : Dev nD) : nbr a (nbr a c) = c := fl_fl _ c

abbrev tAx : Fin 12 → Fin 3 := ![0, 1, 2, 1, 2, 0, 2, 0, 1, 2, 1, 0]
/-- The device transfer `j` of `c` (in program order) is addressed to. -/
abbrev tgt (j : Fin 12) (c : Dev nD) : Dev nD := nbr (tAx j) c

abbrev xM : Memref sig .tc .vmem S256x2048 .f32 := Memref.whole cc0_stg0_0
abbrev wM : Memref sig .tc .vmem S2048x256 .f32 := Memref.whole cc0_stg1_0
abbrev oM : Memref sig .tc .vmem S2048x256 .f32 := Memref.whole cc0_stg2_0
abbrev cM : Memref sig .tc .vmem S7x256x2048 .f32 := Memref.whole cc0_scratch0

/-- Rows `lo ..< lo + n` of slot `s` of the scratch buffer. -/
abbrev sl (n s lo : ℕ) (h : ∀ a, (![s, lo, 0] : Fin 3 → ℕ) a + (![1, n, 2048] : Fin 3 → ℕ) a ≤ S7x256x2048.size a)
    (hq : Shape.Squeezes ⟨3, ![1, n, 2048]⟩ ⟨2, ![n, 2048]⟩) : Memref sig .tc .vmem ⟨2, ![n, 2048]⟩ .f32 :=
  (cM.slice (Rect.unit (s := S7x256x2048) ![s, lo, 0] ![1, n, 2048] h) (fun _ => rfl)).squeeze ⟨2, ![n, 2048]⟩ hq
abbrev sl256 (s lo : ℕ) (h) := sl 256 s lo h squeezes_S1x256x2048_S256x2048
abbrev sl128 (s lo : ℕ) (h) := sl 128 s lo h squeezes_S1x128x2048_S128x2048
abbrev sl88 (s lo : ℕ) (h) := sl 88 s lo h squeezes_S1x88x2048_S88x2048
abbrev sl80 (s lo : ℕ) (h) := sl 80 s lo h squeezes_S1x80x2048_S80x2048

/-- Transfer `j` moves rows of shape `tS j` from `srcM j` on its issuer to `dstM j` on its addressee. -/
abbrev tS : Fin 12 → Shape
  | 0 | 1 | 2 => S256x2048
  | 3 | 4 | 5 | 6 | 7 | 8 => S128x2048
  | 9 => S80x2048
  | 10 | 11 => S88x2048
abbrev srcM : (j : Fin 12) → Memref sig .tc .vmem (tS j) .f32
  | 0 | 1 | 2 => xM
  | 3 | 4 => sl128 0 0 (by decide)
  | 5 => sl128 1 128 (by decide)
  | 6 => sl128 1 0 (by decide)
  | 7 | 8 => sl128 2 128 (by decide)
  | 9 => sl80 3 176 (by decide)
  | 10 => sl88 4 88 (by decide)
  | 11 => sl88 5 0 (by decide)
abbrev dstM : (j : Fin 12) → Memref sig .tc .vmem (tS j) .f32
  | 0 => sl256 0 0 (by decide)
  | 1 => sl256 1 0 (by decide)
  | 2 => sl256 2 0 (by decide)
  | 3 => sl128 3 0 (by decide)
  | 4 => sl128 4 0 (by decide)
  | 5 => sl128 3 128 (by decide)
  | 6 => sl128 5 0 (by decide)
  | 7 => sl128 4 128 (by decide)
  | 8 => sl128 5 128 (by decide)
  | 9 => sl80 6 176 (by decide)
  | 10 => sl88 6 88 (by decide)
  | 11 => sl88 6 0 (by decide)

/-- The elements of the scratch buffer transfer `j` writes. -/
def dstSet : Fin 12 → Finset S7x256x2048.Idx
  | 0 => (dstM 0).view.set | 1 => (dstM 1).view.set | 2 => (dstM 2).view.set | 3 => (dstM 3).view.set
  | 4 => (dstM 4).view.set | 5 => (dstM 5).view.set | 6 => (dstM 6).view.set | 7 => (dstM 7).view.set
  | 8 => (dstM 8).view.set | 9 => (dstM 9).view.set | 10 => (dstM 10).view.set | 11 => (dstM 11).view.set

/-- Device `c`'s row block of `x`. -/
def xstg (c : Dev nD) : (cc0_stg0_0 : Ref sig .tc).ty.Contents (Elt F) :=
  (win0_0.blk (0 : Fin 1)).view.read (Elt F) (m ((c : Thread nD τ).loc main_arg0))
/-- Device `c`'s column block of `w`. -/
def wstg (c : Dev nD) : (cc0_stg1_0 : Ref sig .tc).ty.Contents (Elt F) :=
  (win0_1.blk (0 : Fin 1)).view.read (Elt F) (m ((c : Thread nD τ).loc main_arg1))

/-- The scratch buffer once everything has landed: slot `s` holds the row block of `x` of `og s c`. -/
def commFinal (c : Dev nD) : Buf (Elt F) ((c : Thread nD τ).loc cc0_scratch0) :=
  fun i => xstg m (og (i 0) c) (ValueIdx.ix2 (i 1) (i 2))

/-- A row block of `x` times a column block of `w`. -/
def gemmBlk (x : Vec F S256x2048 .f32) (w : Vec F S2048x256 .f32) : FVec F S256x256 .f32 :=
  matmul dot_S256x2048_S2048x256_S256x256_1_0_0_1_n_n none x w (constant S256x256 .f32 0x00000000#32)

theorem dev_of_row_lt (r : Fin 2048) : r.val / 256 < nD := by have := r.isLt; show r.val / 256 < 8; omega
theorem row_mod_lt (r : Fin 2048) : r.val % 256 < 256 := Nat.mod_lt _ (by decide)

/-- The result on `c`: row block `q` is `x_q · w_c`. -/
def outAt (c : Dev nD) : (cc0_stg2_0 : Ref sig .tc).ty.Contents (Elt F) :=
  fun i => gemmBlk (xstg m (⟨(i 0).val / 256, dev_of_row_lt (i 0)⟩ : Dev nD)) (wstg m c) (ValueIdx.ix2 ⟨(i 0).val % 256, row_mod_lt (i 0)⟩ (i 1))

abbrev barS : Sem sig := (SemArray.scalar (sig.barrier 0 rfl) : Sems sig S_).sem
abbrev barCell (c : Dev nD) : GSem nD τ sig := ((c : Thread nD τ), .reg barS)

abbrev sSem : Fin 12 → DmaSem sig := ![3, 4, 5, 9, 10, 11, 12, 13, 14, 23, 22, 21]
abbrev rSem : Fin 12 → DmaSem sig := ![6, 7, 8, 15, 16, 17, 18, 19, 20, 26, 25, 24]
abbrev sendCell (j : Fin 12) (c : Dev nD) : GSem nD τ sig := ((c : Thread nD τ), .dma (sSem j))
abbrev recvCell (j : Fin 12) (c : Dev nD) : GSem nD τ sig := ((c : Thread nD τ), .dma (rSem j))

/-- Which transfer completes on DMA semaphore `q`, and whether `q` is its receive semaphore. -/
def dmaRole (q : DmaSem sig) : Option (Bool × Fin 12) :=
  match q.val with
  | 3 => some (false, 0) | 4 => some (false, 1) | 5 => some (false, 2)
  | 6 => some (true, 0) | 7 => some (true, 1) | 8 => some (true, 2)
  | 9 => some (false, 3) | 10 => some (false, 4) | 11 => some (false, 5) | 12 => some (false, 6) | 13 => some (false, 7) | 14 => some (false, 8)
  | 15 => some (true, 3) | 16 => some (true, 4) | 17 => some (true, 5) | 18 => some (true, 6) | 19 => some (true, 7) | 20 => some (true, 8)
  | 21 => some (false, 11) | 22 => some (false, 10) | 23 => some (false, 9)
  | 24 => some (true, 11) | 25 => some (true, 10) | 26 => some (true, 9)
  | _ => none

abbrev osem : Fin 24 → SemLoc sig := fun i => .dma ⟨i.val + 3, by have := i.isLt; show i.val + 3 < 27; omega⟩
abbrev csem : Fin 25 → SemLoc sig := fun k => if k.val = 0 then .reg barS else .dma ⟨k.val + 2, by have := k.isLt; show k.val + 2 < 27; omega⟩
abbrev kcell (ck : Dev nD × Fin 25) : GSem nD τ sig := ((ck.1 : Thread nD τ), csem ck.2)

abbrev N256 : ℕ := (sl256 0 0 inb_S7x256x2048_S1x256x2048_0_0_0 : Memref sig .tc .vmem S256x2048 .f32).view.dmaCredit
abbrev N128 : ℕ := (sl128 3 0 inb_S7x256x2048_S1x128x2048_3_0_0 : Memref sig .tc .vmem S128x2048 .f32).view.dmaCredit
abbrev N88 : ℕ := (sl88 6 0 inb_S7x256x2048_S1x88x2048_6_0_0 : Memref sig .tc .vmem S88x2048 .f32).view.dmaCredit
abbrev N80 : ℕ := (sl80 6 176 inb_S7x256x2048_S1x80x2048_6_176_0 : Memref sig .tc .vmem S80x2048 .f32).view.dmaCredit
/-- The credit of transfer `j`, on its send cell and on its receive cell alike. -/
abbrev amt : Fin 12 → ℕ := ![N256, N256, N256, N128, N128, N128, N128, N128, N128, N80, N88, N88]
theorem amt_pos (j : Fin 12) : 0 < amt j := by
  fin_cases j <;> exact View.dmaCredit_pos _ (by decide)

abbrev qL : PosShare TreeShare := fullShare.left
abbrev qR : PosShare TreeShare := fullShare.right
abbrev qRL : PosShare TreeShare := fullShare.right.left
abbrev qRR : PosShare TreeShare := fullShare.right.right
abbrev qRRL : PosShare TreeShare := fullShare.right.right.left
abbrev qRRR : PosShare TreeShare := fullShare.right.right.right

/-- The elements transfer `j` writes on `d`, held in full at contents `f`. -/
def dstP (j : Fin 12) (d : Dev nD) (f : Buf (Elt F) ((d : Thread nD τ).loc cc0_scratch0)) : sProp 𝕄 :=
  ((d : Thread nD τ).loc cc0_scratch0) ↦[dstSet j]{fullShare} f

/-- The share at which transfer `j` reads its source; `srcF` is what the source holds. -/
abbrev srcQ : Fin 12 → PosShare TreeShare := ![qL, qRL, qRRL, qL, qRL, qL, qL, qL, qRL, qL, qL, qL]
def srcF : (j : Fin 12) → (c : Dev nD) → Buf (Elt F) ((srcM j).view.loc (c : Thread nD τ))
  | 0, c | 1, c | 2, c => xstg m c
  | 3, c | 4, c | 5, c | 6, c | 7, c | 8, c | 9, c | 10, c | 11, c => commFinal m c
/-- The share of its source transfer `j` of `c` reads; it comes back with the send credit. -/
def srcP (j : Fin 12) (c : Dev nD) : sProp 𝕄 :=
  (srcM j).view.loc (c : Thread nD τ) ↦[(srcM j).view.set]{srcQ j} srcF m j c

/-- What the neighbour along `a` hands `c` with its barrier unit: the parts of its scratch `c`'s transfers along `a` write. -/
def barPay (c : Dev nD) (a : Fin 3) : sProp 𝕄 :=
  match a with
  | 0 => iprop((∃ f, dstP 0 (nbr 0 c) f) ∗ (∃ f, dstP 5 (nbr 0 c) f) ∗ (∃ f, dstP 7 (nbr 0 c) f) ∗ (∃ f, dstP 11 (nbr 0 c) f))
  | 1 => iprop((∃ f, dstP 1 (nbr 1 c) f) ∗ (∃ f, dstP 3 (nbr 1 c) f) ∗ (∃ f, dstP 8 (nbr 1 c) f) ∗ (∃ f, dstP 10 (nbr 1 c) f))
  | 2 => iprop((∃ f, dstP 2 (nbr 2 c) f) ∗ (∃ f, dstP 4 (nbr 2 c) f) ∗ (∃ f, dstP 6 (nbr 2 c) f) ∗ (∃ f, dstP 9 (nbr 2 c) f))
/-- What landing transfer `j` hands its addressee: the elements written, at their final contents. -/
def recvPay (j : Fin 12) (c : Dev nD) : sProp 𝕄 := dstP j c (commFinal m c)

/-- One round: a barrier cell has a unit duty per neighbour; a transfer's send and receive cells one duty of its credit. -/
def rd : Rounds.Schedule (GSem nD τ sig) (Fin 3) 𝕄 where
  duties g r :=
    if r = 0 ∧ g.1.2 = .tc then
      (match g.2 with
        | .reg s => if s = barS then Finset.univ else ∅
        | .dma q => if (dmaRole q).isSome then {0} else ∅)
    else ∅
  amount g _ _ :=
    match g.2 with
    | .reg _ => 1
    | .dma q => (match dmaRole q with | some (_, j) => amt j | none => 1)
  payload g _ d :=
    match g.2 with
    | .reg s => if s = barS then barPay g.1.1 d else iprop(emp)
    | .dma q => (match dmaRole q with
        | some (false, j) => srcP m j g.1.1
        | some (true, j) => recvPay m j g.1.1
        | none => iprop(emp))
  amount_pos g _ _ _ := by
    cases hg : g.2 with
    | reg s => simp only [hg]; exact Nat.one_pos
    | dma q =>
      simp only [hg]
      cases hq : dmaRole q with
      | none => exact Nat.one_pos
      | some bj => exact amt_pos bj.2

/-- The receive credits of the last `n` transfers of `c`, the earliest of them the last summand. -/
def owedLast (c : Dev nD) : ℕ → CellTallies nD τ sig Unit
  | 0 => 0
  | n + 1 => owedLast c n + tallyAt (recvCell ⟨11 - n, by omega⟩ (tgt ⟨11 - n, by omega⟩ c)) () (amt ⟨11 - n, by omega⟩)
/-- The receive credits of the transfers `j ≥ k`: issuing transfer `k` peels the last summand. -/
def owedFrom (c : Dev nD) (k : ℕ) : CellTallies nD τ sig Unit := owedLast c (12 - k)
/-- What `c` owes at entry: the twelve receive credits, then a barrier unit per neighbour (`O₀`), peeled from the right. -/
def O₂ (c : Dev nD) : CellTallies nD τ sig Unit := owedFrom c 0 + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- Barrier cells at level 1, receive cells at 2, 3, 4 by hops made, all else at 0: a wait is below everything still owed. -/
def lv (g : GSem nD τ sig) (_ : Unit) : ℕ :=
  match g.2 with
  | .reg s => if s = barS then 1 else 0
  | .dma q => (match dmaRole q with
      | some (true, j) => if j.val < 3 then 2 else if j.val < 9 then 3 else 4
      | _ => 0)

/-- Every cell's invariant under the names `K`, and that every cell has reached round 0. -/
def records (K : Dev nD × Fin 25 → ℕ) : sProp 𝕄 :=
  iprop((bigSep Finset.univ fun ck : Dev nD × Fin 25 => cellInv ER (rd m) (K ck) (kcell ck))
    ∗ bigSep Finset.univ fun ck : Dev nD × Fin 25 => reached ER (kcell ck) 0)

/-- The tokens of the duties `c` pays: a barrier unit to each neighbour, and both cells of each of its transfers. -/
def payToks (c : Dev nD) : sProp 𝕄 :=
  iprop((bigSep Finset.univ fun a : Fin 3 => dutyTok ER (barCell (nbr a c)) 0 a)
    ∗ bigSep Finset.univ fun j : Fin 12 => iprop(dutyTok ER (sendCell j c) 0 (0 : Fin 3) ∗ dutyTok ER (recvCell j (tgt j c)) 0 (0 : Fin 3)))
def linear (c : Dev nD) : sProp 𝕄 :=
  iprop((bigSep Finset.univ fun k : Fin 25 => atPos ER (kcell (c, k)) 0 (∅ : Finset (Fin 3)) 0) ∗ payToks c)
def ghost (K : Dev nD × Fin 25 → ℕ) (c : Dev nD) : sProp 𝕄 := iprop(records m K ∗ linear c)

/-- What `c`'s body starts from: the ghost state, the credits of its barrier and receive cells, the level facts. -/
def start (c : Dev nD) : sProp 𝕄 :=
  iprop((∃ K, ghost m K c) ∗ cred (tallyAt (barCell c) () 3)
    ∗ (bigSep Finset.univ fun j : Fin 12 => cred (tallyAt (recvCell j c) () (amt j))) ∗ levAts L lv)

def Φ₀ (c : Dev nD) : sProp 𝕄 := iprop(start m c ∗ ∃ f, (((c : Thread nD τ).loc cc0_scratch0) ↦{fullShare} f))
/-- After the body: the scratch buffer whole at its final contents and the twenty-four own cells at zero. -/
def Φ₁ (c : Dev nD) : sProp 𝕄 :=
  iprop((((c : Thread nD τ).loc cc0_scratch0) ↦{fullShare} commFinal m c) ∗ bigSep Finset.univ fun i : Fin 24 => semVal ((c : Thread nD τ), osem i) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The one grid point's data: the three arrays end at `xstg`, `wstg`, `outAt`; `O₀` is owed before, nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.Bits.Tables.lean ====
import proofs.«900494_g7700000000000495_dist_ag_gemm_m2048_k2048_n2048_f32_none_v7x_i8_1_alg».proof.Proof.Bits.Setup

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem dmaRole_sSem (j : Fin 12) : dmaRole (sSem j) = some (false, j) := by fin_cases j <;> rfl
theorem dmaRole_rSem (j : Fin 12) : dmaRole (rSem j) = some (true, j) := by fin_cases j <;> rfl

section Sched

/-- The schedule's tables, cell by cell: duties, amounts, expected units, payloads. -/
theorem duties_bar (c : Dev nD) : (rd (F := F) m).duties (barCell c) 0 = Finset.univ := by
  dsimp only [rd]; rw [if_pos ⟨rfl, rfl⟩, if_pos rfl]
theorem duties_send (j : Fin 12) (c : Dev nD) : (rd (F := F) m).duties (sendCell j c) 0 = {0} := by
  dsimp only [rd]; rw [if_pos ⟨rfl, rfl⟩, dmaRole_sSem]; rfl
theorem duties_recv (j : Fin 12) (c : Dev nD) : (rd (F := F) m).duties (recvCell j c) 0 = {0} := by
  dsimp only [rd]; rw [if_pos ⟨rfl, rfl⟩, dmaRole_rSem]; rfl
theorem duties_later (g : GSem nD τ sig) : ∀ r, 1 ≤ r → (rd (F := F) m).duties g r = ∅ :=
  fun r hr => by dsimp only [rd]; rw [if_neg fun h => by omega]

theorem amount_bar (c : Dev nD) (d : Fin 3) : (rd (F := F) m).amount (barCell c) 0 d = 1 := rfl
theorem amount_send (j : Fin 12) (c : Dev nD) (d : Fin 3) : (rd (F := F) m).amount (sendCell j c) 0 d = amt j := by
  dsimp only [rd]; rw [dmaRole_sSem]
theorem amount_recv (j : Fin 12) (c : Dev nD) (d : Fin 3) : (rd (F := F) m).amount (recvCell j c) 0 d = amt j := by
  dsimp only [rd]; rw [dmaRole_rSem]

theorem expect_bar (c : Dev nD) : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (j : Fin 12) (c : Dev nD) : (rd (F := F) m).expect (sendCell j c) 0 = amt j := by
  unfold Schedule.expect Schedule.amountOf; rw [duties_send, Finset.sum_singleton, amount_send]
theorem expect_recv (j : Fin 12) (c : Dev nD) : (rd (F := F) m).expect (recvCell j c) 0 = amt j := by
  unfold Schedule.expect Schedule.amountOf; rw [duties_recv, Finset.sum_singleton, amount_recv]

theorem payload_bar (c : Dev nD) (a : Fin 3) : (rd (F := F) m).payload (barCell c) 0 a = barPay c a := by
  dsimp only [rd]; rw [if_pos rfl]
theorem payload_send (j : Fin 12) (c : Dev nD) (d : Fin 3) : (rd (F := F) m).payload (sendCell j c) 0 d = srcP m j c := by
  dsimp only [rd]; rw [dmaRole_sSem]
theorem payload_recv (j : Fin 12) (c : Dev nD) (d : Fin 3) : (rd (F := F) m).payload (recvCell j c) 0 d = recvPay m j c := by
  dsimp only [rd]; rw [dmaRole_rSem]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar (c : Dev nD) : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_fin3, payload_bar, payload_bar, payload_bar]
theorem rest_send (j : Fin 12) (c : Dev nD) : bigSep ((rd (F := F) m).duties (sendCell j c) 0 \ ∅) (fun d => (rd (F := F) m).payload (sendCell j c) 0 d) = srcP m j c := by
  rw [Finset.sdiff_empty, duties_send, bigSep_singleton, payload_send]
theorem rest_recv (j : Fin 12) (c : Dev nD) : bigSep ((rd (F := F) m).duties (recvCell j c) 0 \ ∅) (fun d => (rd (F := F) m).payload (recvCell j c) 0 d) = recvPay m j c := by
  rw [Finset.sdiff_empty, duties_recv, bigSep_singleton, payload_recv]

end Sched

instance dstP_storable (j : Fin 12) (d : Dev nD) (f : Buf (Elt F) ((d : Thread nD τ).loc cc0_scratch0)) :
    BI.Storable (upEmb : UEmb _ 𝕄) (dstP (F := F) j d f) := by
  unfold dstP; infer_instance
instance srcP_storable (j : Fin 12) (c : Dev nD) : BI.Storable (upEmb : UEmb _ 𝕄) (srcP (F := F) m j c) := by
  unfold srcP; infer_instance
instance recvPay_storable (j : Fin 12) (c : Dev nD) : BI.Storable (upEmb : UEmb _ 𝕄) (recvPay (F := F) m j c) := by
  unfold recvPay; infer_instance
instance barPay_storable (c : Dev nD) (a : Fin 3) : BI.Storable (upEmb : UEmb _ 𝕄) (barPay (F := F) c a) := by
  fin_cases a <;> (dsimp only [barPay]; infer_instance)

instance rd_payload_storable (g : GSem nD τ sig) (r : ℕ) (d : Fin 3) :
    BI.Storable (upEmb : UEmb _ 𝕄) ((rd (F := F) m).payload g r d) := by
  dsimp only [rd]
  split
  · split <;> infer_instance
  · split <;> infer_instance

theorem L_of_ne (g : GSem nD τ sig) (h : g.1.2 ≠ .tc) : L g = ∅ := if_neg h
theorem L_tc (c : Dev nD) (sm : SemLoc sig) : L ((c : Thread nD τ), sm) = {()} := if_pos rfl

/-- The level of the receive cell of transfer `j`: one more than the hops its block has made. -/
abbrev rlv (j : Fin 12) : ℕ := if j.val < 3 then 2 else if j.val < 9 then 3 else 4

theorem lv_bar (c : Dev nD) : lv (barCell c) () = 1 := by dsimp only [lv]; rw [if_pos rfl]
theorem lv_recv (j : Fin 12) (c : Dev nD) : lv (recvCell j c) () = rlv j := by dsimp only [lv]; rw [dmaRole_rSem]
theorem rlv_ge (j : Fin 12) : 2 ≤ rlv j := by dsimp only [rlv]; split_ifs <;> omega

theorem recv_ne_bar (q : DmaSem sig) (s : Sem sig) : (SemLoc.dma q : SemLoc sig) ≠ .reg s := fun h => by cases h
theorem recvCell_ne_barCell (j : Fin 12) (c d : Dev nD) : recvCell j c ≠ barCell d := fun h => recv_ne_bar _ _ (congrArg Prod.snd h)
theorem rSem_injective : Function.Injective (rSem : Fin 12 → DmaSem sig) := by decide

theorem bar_eq_iff {a b : Dev nD} : Iff (barCell a = barCell b) (a = b) :=
  ⟨fun h => Fin.ext (congrArg (fun g : GSem nD τ sig => g.1.1.val) h), fun h => h ▸ rfl⟩
theorem recv_eq_iff {j j' : Fin 12} {a b : Dev nD} : Iff (recvCell j a = recvCell j' b) (j = j' ∧ a = b) :=
  ⟨fun h => ⟨rSem_injective (SemLoc.dma.inj (congrArg Prod.snd h)), Fin.ext (congrArg (fun g : GSem nD τ sig => g.1.1.val) h)⟩,
    fun h => by rw [h.1, h.2]⟩

theorem owedFrom_ge (c : Dev nD) (n : ℕ) : owedFrom c (n + 12) = 0 := by
  unfold owedFrom; rw [show 12 - (n + 12) = 0 by omega]; rfl
/-- What is owed from transfer `k` on is what is owed from `k + 1` on and the receive credit of transfer `k`. -/
theorem owedFrom_step (c : Dev nD) (k : Fin 12) :
    owedFrom c k.val = owedFrom c (k.val + 1) + tallyAt (recvCell k (tgt k c)) () (amt k) := by
  fin_cases k <;> rfl

theorem owedFrom_pos_aux {c : Dev nD} {g : GSem nD τ sig} {u : Unit} :
    ∀ (i k : ℕ), k + i = 12 → 0 < owedFrom c k g u → ∃ j : Fin 12, k ≤ j.val ∧ g = recvCell j (tgt j c)
  | 0, k, hk, h => by
    obtain rfl : k = 0 + 12 := by omega
    rw [owedFrom_ge, Pi.zero_apply, Finsupp.zero_apply] at h; exact absurd h (Nat.lt_irrefl 0)
  | i + 1, k, hk, h => by
    have hk' : k < 12 := by omega
    have hs := owedFrom_step c ⟨k, hk'⟩
    dsimp only at hs
    rw [hs, Pi.add_apply, Finsupp.add_apply] at h
    rcases Nat.add_pos_iff_pos_or_pos.mp h with h1 | h2
    · obtain ⟨j, hj, hg⟩ := owedFrom_pos_aux i (k + 1) (by omega) h1
      exact ⟨j, by omega, hg⟩
    · rw [tallyAt_apply] at h2
      by_cases hh : g = recvCell ⟨k, hk'⟩ (tgt ⟨k, hk'⟩ c) ∧ u = ()
      · exact ⟨⟨k, hk'⟩, Nat.le_refl _, hh.1⟩
      · rw [if_neg hh] at h2; exact absurd h2 (Nat.lt_irrefl 0)

/-- A cell owed something from transfer `k` on is the addressee's receive cell of a transfer `j ≥ k`. -/
theorem owedFrom_pos {c : Dev nD} {k : ℕ} {g : GSem nD τ sig} {u : Unit} (h : 0 < owedFrom c k g u) :
    ∃ j : Fin 12, k ≤ j.val ∧ g = recvCell j (tgt j c) := by
  by_cases hk : k ≤ 12
  · exact owedFrom_pos_aux (12 - k) k (by omega) h
  · obtain ⟨n, rfl⟩ : ∃ n, k = n + 12 := ⟨k - 12, by omega⟩
    rw [owedFrom_ge, Pi.zero_apply, Finsupp.zero_apply] at h; exact absurd h (Nat.lt_irrefl 0)

theorem tallyAt_pos {g₀ g : GSem nD τ sig} {u : Unit} {n : ℕ} (h : 0 < tallyAt g₀ () n g u) : g = g₀ := by
  rw [tallyAt_apply] at h
  by_cases hh : g = g₀ ∧ u = ()
  · exact hh.1
  · rw [if_neg hh] at h; exact absurd h (Nat.lt_irrefl 0)

/-- A cell a device owes at launch is a neighbour's receive cell or a neighbour's barrier cell. -/
theorem O₀_pos {c : Dev nD} {g : GSem nD τ sig} {u : Unit} (h : 0 < O₀ c g u) :
    (∃ j : Fin 12, g = recvCell j (tgt j c)) ∨ ∃ a : Fin 3, g = barCell (nbr a c) := by
  unfold O₀ O₁ O₂ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨j, _, hg⟩ := owedFrom_pos h; exact .inl ⟨j, hg⟩
      · exact .inr ⟨2, tallyAt_pos h⟩
    · exact .inr ⟨1, tallyAt_pos h⟩
  · exact .inr ⟨0, tallyAt_pos h⟩

/-- A wait on a cell of level 0 is below everything owed. -/
theorem mayWait_stage_lv (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨a, rfl⟩ <;> exact Finset.mem_singleton_self _)
      (fun p hp => by rw [Finset.mem_singleton.mp hp]; exact le_of_eq hq)
      (fun g u hg => by
        rcases O₀_pos hg with ⟨j, rfl⟩ | ⟨a, rfl⟩
        · rw [lv_recv]; have := rlv_ge j; omega
        · rw [lv_bar]; decide)
  · rw [MayWait_zero]; iintro -; iempintro

theorem mayWait_stage (c : Dev nD) (q : DmaSem sig) (hq : dmaRole q = none) (O : CellTallies nD τ sig Unit)
    (hO : O = O₀ c ∨ O = 0) : (levAts L lv : sProp 𝕄) ⊢ MayWait (c : Thread nD τ) (.dma q) () O :=
  mayWait_stage_lv c q (by dsimp only [lv]; rw [hq]) O hO

/-- At its barrier wait a device owes receive credits only, all above its barrier cell. -/
theorem mayWait_bar (c : Dev nD) :
    (levAts L lv : sProp 𝕄) ⊢ MayWait (c : Thread nD τ) (.reg barS) () (owedFrom c 0) :=
  MayOwe.of_cut (L := L) (lev := lv) 1 (fun p hp => by rw [Finset.mem_singleton.mp hp, L_tc]; exact Finset.mem_singleton_self _)
    (fun g u hg => by obtain ⟨j, _, rfl⟩ := owedFrom_pos hg; exact Finset.mem_singleton_self _)
    (fun p hp => by rw [Finset.mem_singleton.mp hp]; exact le_of_eq (lv_bar c))
    (fun g u hg => by obtain ⟨j, _, rfl⟩ := owedFrom_pos hg; rw [lv_recv]; have := rlv_ge j; omega)

/-- At the receive wait of transfer `j` everything still owed relays a block that has made more hops. -/
theorem mayWait_recv (j : Fin 12) (c : Dev nD) (k : ℕ) (hk : ∀ j' : Fin 12, k ≤ j'.val → rlv j < rlv j') :
    (levAts L lv : sProp 𝕄) ⊢ MayWait (c : Thread nD τ) (.dma (rSem j)) () (owedFrom c k) :=
  MayOwe.of_cut (L := L) (lev := lv) (rlv j) (fun p hp => by rw [Finset.mem_singleton.mp hp, L_tc]; exact Finset.mem_singleton_self _)
    (fun g u hg => by obtain ⟨j', _, rfl⟩ := owedFrom_pos hg; exact Finset.mem_singleton_self _)
    (fun p hp => by rw [Finset.mem_singleton.mp hp]; exact le_of_eq (lv_recv j c))
    (fun g u hg => by obtain ⟨j', hj', rfl⟩ := owedFrom_pos hg; rw [lv_recv]; exact hk j' hj')

theorem owedFrom_bar (d c : Dev nD) (k : ℕ) : owedFrom d k (barCell c) () = 0 := by
  by_contra h
  obtain ⟨j, _, hg⟩ := owedFrom_pos (Nat.pos_of_ne_zero h)
  exact recvCell_ne_barCell j _ c hg.symm

/-- Of `d`'s transfers from `k` on only transfer `j` pays the receive cell of transfer `j` of `c`, and only if `d` is `c`'s neighbour along its axis. -/
theorem owedFrom_recv_aux (j : Fin 12) (d c : Dev nD) :
    ∀ (i k : ℕ), k + i = 12 → owedFrom d k (recvCell j c) () = if k ≤ j.val ∧ d = nbr (tAx j) c then amt j else 0
  | 0, k, hk => by
    obtain rfl : k = 0 + 12 := by omega
    rw [owedFrom_ge, Pi.zero_apply, Finsupp.zero_apply, if_neg (fun h => by have := j.isLt; have := h.1; omega)]
  | i + 1, k, hk => by
    have hk' : k < 12 := by omega
    have hs := owedFrom_step d ⟨k, hk'⟩
    dsimp only at hs
    rw [hs, Pi.add_apply, Finsupp.add_apply, owedFrom_recv_aux j d c i (k + 1) (by omega), tallyAt_apply]
    have hiff : (recvCell j c = recvCell ⟨k, hk'⟩ (tgt ⟨k, hk'⟩ d) ∧ () = ()) ↔ (j.val = k ∧ d = nbr (tAx j) c) := by
      constructor
      · rintro ⟨h, _⟩
        obtain ⟨h1, h2⟩ := recv_eq_iff.mp h
        subst h1
        exact ⟨rfl, by rw [h2]; exact (nbr_nbr _ d).symm⟩
      · rintro ⟨h1, h2⟩
        obtain rfl : j = ⟨k, hk'⟩ := Fin.ext h1
        exact ⟨recv_eq_iff.mpr ⟨rfl, by rw [h2]; exact (nbr_nbr _ c).symm⟩, rfl⟩
    by_cases h1 : j.val = k
    · rw [if_neg (fun h => by have := h.1; omega), Nat.zero_add]
      by_cases h2 : d = nbr (tAx j) c
      · rw [if_pos (hiff.mpr ⟨h1, h2⟩), if_pos ⟨by omega, h2⟩]
        exact congrArg amt (Fin.ext h1.symm)
      · rw [if_neg (fun h => h2 (hiff.mp h).2), if_neg (fun h => h2 h.2)]
    · rw [if_neg (fun h => h1 (hiff.mp h).1), Nat.add_zero]
      by_cases hh : k ≤ j.val ∧ d = nbr (tAx j) c
      · rw [if_pos ⟨by have := hh.1; omega, hh.2⟩, if_pos hh]
      · rw [if_neg (fun h => hh ⟨by have := h.1; omega, h.2⟩), if_neg hh]

/-- What `d` owes `c`'s barrier cell: a unit for each axis along which it is `c`'s neighbour. -/
theorem owed_bar (d c : Dev nD) : O₀ d (barCell c) () =
    (if d = nbr 2 c then 1 else 0) + (if d = nbr 1 c then 1 else 0) + (if d = nbr 0 c then 1 else 0) := by
  unfold O₀ O₁ O₂
  rw [Pi.add_apply, Finsupp.add_apply, Pi.add_apply, Finsupp.add_apply, Pi.add_apply, Finsupp.add_apply, owedFrom_bar, Nat.zero_add,
    tallyAt_apply, tallyAt_apply, tallyAt_apply]
  have key : ∀ a : Fin 3, (barCell c = barCell (nbr a d) ∧ () = ()) ↔ d = nbr a c := fun a =>
    ⟨fun h => by rw [bar_eq_iff.mp h.1]; exact (nbr_nbr a d).symm,
      fun h => ⟨bar_eq_iff.mpr (by rw [h]; exact (nbr_nbr a c).symm), rfl⟩⟩
  rw [if_congr (key 2) rfl rfl, if_congr (key 1) rfl rfl, if_congr (key 0) rfl rfl]

theorem owed_recv (j : Fin 12) (d c : Dev nD) : O₀ d (recvCell j c) () = if d = nbr (tAx j) c then amt j else 0 := by
  unfold O₀ O₁ O₂
  rw [Pi.add_apply, Finsupp.add_apply, Pi.add_apply, Finsupp.add_apply, Pi.add_apply, Finsupp.add_apply,
    tallyAt_ne_cell (recvCell_ne_barCell j c _), tallyAt_ne_cell (recvCell_ne_barCell j c _), tallyAt_ne_cell (recvCell_ne_barCell j c _),
    Finsupp.zero_apply, Nat.add_zero, Nat.add_zero, Nat.add_zero, owedFrom_recv_aux j d c 12 0 rfl]
  by_cases h : d = nbr (tAx j) c
  · rw [if_pos ⟨Nat.zero_le _, h⟩, if_pos h]
  · rw [if_neg (fun hh => h hh.2), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]

theorem launch_recv (j : Fin 12) (c : Dev nD) :
    tallyOn (recvCell j c) (launchCredit (Pipeline.owing O₀) 0 (recvCell j c)) = (tallyAt (recvCell j c) () (amt j) : CellTallies nD τ sig Unit) := by
  unfold tallyAt; refine congrArg _ (Finsupp.ext fun u => ?_); cases u
  rw [Pipeline.launchCredit_owing, Finsupp.single_eq_same, Finset.sum_congr rfl fun d _ => owed_recv j d c,
    Finset.sum_ite_eq' Finset.univ (nbr (tAx j) c) fun _ => amt j, if_pos (Finset.mem_univ _)]

/-- The launch credit of a device's cells: three barrier units and the credit of each of its twelve receive cells. -/
theorem creds (c : Dev nD) :
    (Pipeline.launchCred O₀ c : sProp 𝕄) ⊢ iprop(cred (tallyAt (barCell c) () 3) ∗ bigSep Finset.univ fun j : Fin 12 => cred (tallyAt (recvCell j c) () (amt j))) := by
  unfold Pipeline.launchCred
  rw [bigSep_univ_at _ (SemLoc.reg barS), launch_bar]
  refine sep_mono_right ?_
  let e : Fin 12 ↪ SemLoc sig := ⟨fun j => .dma (rSem j), fun a b h => rSem_injective (SemLoc.dma.inj h)⟩
  refine (bigSep_subset (t := Finset.univ.map e) (fun sm hsm => ?_)).trans ?_
  · obtain ⟨j, _, rfl⟩ := Finset.mem_map.mp hsm
    exact Finset.mem_erase.mpr ⟨recv_ne_bar _ _, Finset.mem_univ _⟩
  · rw [bigSep_map]
    exact bigSep_mono fun j _ => Entails.of_eq (congrArg cred (launch_recv j c))

end Cert.Kernel.AG

end
-- ==== Proof.Bits.Launch.lean ====
import proofs.«900494_g7700000000000495_dist_ag_gemm_m2048_k2048_n2048_f32_none_v7x_i8_1_alg».proof.Proof.Bits.Setup
import proofs.«900494_g7700000000000495_dist_ag_gemm_m2048_k2048_n2048_f32_none_v7x_i8_1_alg».proof.Proof.Bits.Tables

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 25 → SemLoc sig) := by decide
theorem csem_succ : ∀ i : Fin 24, csem i.succ = osem i := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def cubeCells : Finset (GSem nD τ sig) := Finset.univ.map ⟨kcell, kcell_injective⟩

theorem sSem_injective : Function.Injective sSem := by decide
theorem sSem_ne_rSem : ∀ j j' : Fin 12, sSem j ≠ rSem j' := by decide

abbrev TokIx : Type := Fin 3 ⊕ (Fin 12 ⊕ Fin 12)
def tokOf (cj : Dev nD × TokIx) : GSem nD τ sig × ℕ × Fin 3 := match cj.2 with
  | .inl a => (barCell cj.1, 0, a)
  | .inr (.inl j) => (sendCell j cj.1, 0, 0)
  | .inr (.inr j) => (recvCell j cj.1, 0, 0)
theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with a | j | j <;> rcases j' with a' | j' | j' <;> exact this
  subst h1
  have hs := congrArg (fun x : GSem nD τ sig × ℕ × Fin 3 => x.1.2) h
  have hd := congrArg (fun x : GSem nD τ sig × ℕ × Fin 3 => x.2.2) h
  have : j = j' := by
    rcases j with a | j | j <;> rcases j' with a' | j' | j' <;>
      first
        | exact congrArg Sum.inl hd
        | exact congrArg (fun x => Sum.inr (Sum.inl x)) (sSem_injective (SemLoc.dma.inj hs))
        | exact congrArg (fun x => Sum.inr (Sum.inr x)) (rSem_injective (SemLoc.dma.inj hs))
        | exact absurd (SemLoc.dma.inj hs) (sSem_ne_rSem _ _)
        | exact absurd (SemLoc.dma.inj hs).symm (sSem_ne_rSem _ _)
        | exact absurd hs (fun h' => by cases h')
  subst this; rfl
def cubeToks : Finset (GSem nD τ sig × ℕ × Fin 3) := Finset.univ.map ⟨tokOf, tokOf_injective⟩

def u₀ : UU :=
  (initOf (Pipeline.cells cfgs cellOf_inj) (Pipeline.launchToks cfgs cellOf_inj), initOf cubeCells cubeToks)

def toks (c : Dev nD) : sProp 𝕄 :=
  iprop((bigSep Finset.univ fun a : Fin 3 => dutyTok ER (barCell c) 0 a)
    ∗ (bigSep Finset.univ fun j : Fin 12 => dutyTok ER (sendCell j c) 0 (0 : Fin 3))
    ∗ bigSep Finset.univ fun j : Fin 12 => dutyTok ER (recvCell j c) 0 (0 : Fin 3))

def G (c : Dev nD) : sProp 𝕄 :=
  iprop((bigSep Finset.univ fun k : Fin 25 => roundState ER (rd m) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, ghost m K c)

/-- The cube's ghost state funded: every cell's invariant, position and duty tokens. -/
theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Fin 25 => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum, bigSep_univ_sum]; rfl
  iintro HX
  imod (Rounds.fund ER (rd m) cubeCells cubeToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun i : Fin 24 => semVal ((c : Thread nD τ), osem i) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_fin25 (Φ : Fin 25 → sProp 𝕄) : bigSep Finset.univ Φ = iprop(Φ 0 ∗ bigSep Finset.univ fun i : Fin 24 => Φ i.succ) := by
  rw [Fin.univ_succ, Finset.cons_eq_insert, bigSep_insert (by simp [Fin.succ_ne_zero]), bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  have hk : (fun i : Fin 24 => (semVal (kcell (c, i.succ)) 0 : sProp 𝕄)) = fun i : Fin 24 => semVal ((c : Thread nD τ), osem i) 0 :=
    funext fun i => by show semVal ((c : Thread nD τ), csem i.succ) 0 = _; rw [csem_succ]
  rw [ownSems0_eq, unscopedSems0_eq, bigSep_fin25, hk]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (rd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (rd m) (kcell (c, k)) 0)
      ⊢ (|={Set.univ}=> bigSep Finset.univ fun k : Fin 25 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance launch_records_persistent (K : Dev nD × Fin 25 → ℕ) : BI.Persistent (records m K) := by unfold records; infer_instance

theorem ghost_intro (K : Dev nD × Fin 25 → ℕ) (c : Dev nD) : iprop(records m K ∗ linear c) ⊢ G' m c := by
  unfold G' ghost
  iintro H
  iexists K
  iexact H

def nbrE (a : Fin 3) : Dev nD ≃ Dev nD := ⟨nbr a, nbr a, nbr_nbr a, nbr_nbr a⟩

theorem deal_along {I : Type} [Fintype I] (e : I → Fin 3) (Φ : I → Dev nD → sProp 𝕄) :
    (bigSep Finset.univ fun c : Dev nD => bigSep Finset.univ fun i : I => Φ i c)
      = bigSep Finset.univ fun c : Dev nD => bigSep Finset.univ fun i : I => Φ i (nbr (e i) c) :=
  (bigSep_univ_comm (fun (c : Dev nD) (i : I) => Φ i c)).trans
    ((bigSep_congr fun i _ => bigSep_univ_equiv (nbrE (e i)) (fun c : Dev nD => Φ i c)).trans
      (bigSep_univ_comm (fun (i : I) (c : Dev nD) => Φ i (nbr (e i) c))))

theorem toks_around : (bigSep Finset.univ fun c : Dev nD => (toks c : sProp 𝕄)) ⊢ bigSep Finset.univ fun c : Dev nD => payToks c := by
  have hB := deal_along (F := F) (fun a : Fin 3 => a) (fun a c => dutyTok ER (barCell c) 0 a)
  have hR := deal_along (F := F) tAx (fun j c => dutyTok ER (recvCell j c) 0 (0 : Fin 3))
  unfold toks payToks
  simp only [bigSep_sep']
  rw [hB, hR]

/-- The tokens dealt to the devices that pay them. -/
theorem regroup :
    (bigSep Finset.univ fun c : Dev nD => iprop((bigSep Finset.univ fun k : Fin 25 => iprop(∃ κ : ℕ, cellInv ER (rd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (rd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hr, Hz⟩
  isplitr; · iempintro
  isplitl [Hz]; · iexact Hz
  iexists (commFinal m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- The run: every device's body obligation launched; the arguments end unchanged and the result at `outAt`. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.AG

end
-- ==== Proof.Bits.Mesh.lean ====
import proofs.«900494_g7700000000000495_dist_ag_gemm_m2048_k2048_n2048_f32_none_v7x_i8_1_alg».proof.Proof.Bits.Setup

noncomputable section

namespace Cert.Kernel.AG

open Cert.Kernel Cert.Kernel.Gen
open Idealize.ShloMosaic Idealize.ShloMosaic.TcCoe Idealize.SL.Sem

/-- The device numbers and row offsets the body computes are the cube's neighbours and the blocks' first rows. -/
theorem dev1_val : ∀ c : Dev nD, k0_dev1 c = (nbr 0 c).val := by decide +kernel
theorem dev1_eq (c : Dev nD) : (⟨k0_dev1 c, k0_dev1_lt c⟩ : Dev nD) = nbr 0 c := Fin.ext (dev1_val c)
theorem dev2_val : ∀ c : Dev nD, k0_dev2 c = (nbr 1 c).val := by decide +kernel
theorem dev2_eq (c : Dev nD) : (⟨k0_dev2 c, k0_dev2_lt c⟩ : Dev nD) = nbr 1 c := Fin.ext (dev2_val c)
theorem dev3_val : ∀ c : Dev nD, k0_dev3 c = (nbr 2 c).val := by decide +kernel
theorem dev3_eq (c : Dev nD) : (⟨k0_dev3 c, k0_dev3_lt c⟩ : Dev nD) = nbr 2 c := Fin.ext (dev3_val c)
theorem dev4_val : ∀ c : Dev nD, k0_dev4 c = (tgt 0 c).val := by decide +kernel
theorem dev4_eq (c : Dev nD) : (⟨k0_dev4 c, k0_dev4_lt c⟩ : Dev nD) = tgt 0 c := Fin.ext (dev4_val c)
theorem dev5_val : ∀ c : Dev nD, k0_dev5 c = (tgt 1 c).val := by decide +kernel
theorem dev5_eq (c : Dev nD) : (⟨k0_dev5 c, k0_dev5_lt c⟩ : Dev nD) = tgt 1 c := Fin.ext (dev5_val c)
theorem dev6_val : ∀ c : Dev nD, k0_dev6 c = (tgt 2 c).val := by decide +kernel
theorem dev6_eq (c : Dev nD) : (⟨k0_dev6 c, k0_dev6_lt c⟩ : Dev nD) = tgt 2 c := Fin.ext (dev6_val c)
theorem dev7_val : ∀ c : Dev nD, k0_dev7 c = (tgt 3 c).val := by decide +kernel
theorem dev7_eq (c : Dev nD) : (⟨k0_dev7 c, k0_dev7_lt c⟩ : Dev nD) = tgt 3 c := Fin.ext (dev7_val c)
theorem dev8_val : ∀ c : Dev nD, k0_dev8 c = (tgt 4 c).val := by decide +kernel
theorem dev8_eq (c : Dev nD) : (⟨k0_dev8 c, k0_dev8_lt c⟩ : Dev nD) = tgt 4 c := Fin.ext (dev8_val c)
theorem dev9_val : ∀ c : Dev nD, k0_dev9 c = (tgt 5 c).val := by decide +kernel
theorem dev9_eq (c : Dev nD) : (⟨k0_dev9 c, k0_dev9_lt c⟩ : Dev nD) = tgt 5 c := Fin.ext (dev9_val c)
theorem dev10_val : ∀ c : Dev nD, k0_dev10 c = (tgt 6 c).val := by decide +kernel
theorem dev10_eq (c : Dev nD) : (⟨k0_dev10 c, k0_dev10_lt c⟩ : Dev nD) = tgt 6 c := Fin.ext (dev10_val c)
theorem dev11_val : ∀ c : Dev nD, k0_dev11 c = (tgt 7 c).val := by decide +kernel
theorem dev11_eq (c : Dev nD) : (⟨k0_dev11 c, k0_dev11_lt c⟩ : Dev nD) = tgt 7 c := Fin.ext (dev11_val c)
theorem dev12_val : ∀ c : Dev nD, k0_dev12 c = (tgt 8 c).val := by decide +kernel
theorem dev12_eq (c : Dev nD) : (⟨k0_dev12 c, k0_dev12_lt c⟩ : Dev nD) = tgt 8 c := Fin.ext (dev12_val c)
theorem dev13_val : ∀ c : Dev nD, k0_dev13 c = (tgt 9 c).val := by decide +kernel
theorem dev13_eq (c : Dev nD) : (⟨k0_dev13 c, k0_dev13_lt c⟩ : Dev nD) = tgt 9 c := Fin.ext (dev13_val c)
theorem dev14_val : ∀ c : Dev nD, k0_dev14 c = (tgt 10 c).val := by decide +kernel
theorem dev14_eq (c : Dev nD) : (⟨k0_dev14 c, k0_dev14_lt c⟩ : Dev nD) = tgt 10 c := Fin.ext (dev14_val c)
theorem dev15_val : ∀ c : Dev nD, k0_dev15 c = (tgt 11 c).val := by decide +kernel
theorem dev15_eq (c : Dev nD) : (⟨k0_dev15 c, k0_dev15_lt c⟩ : Dev nD) = tgt 11 c := Fin.ext (dev15_val c)

theorem off1_eq : ∀ c : Dev nD, k0_off1 c = ![256 * c.val, 0] := k0_off1_eq
theorem off2_eq : ∀ c : Dev nD, k0_off2 c = ![256 * (og 0 c).val, 0] := by decide +kernel
theorem off3_eq : ∀ c : Dev nD, k0_off3 c = ![256 * (og 1 c).val, 0] := by decide +kernel
theorem off4_eq : ∀ c : Dev nD, k0_off4 c = ![256 * (og 2 c).val, 0] := by decide +kernel
theorem off5_eq : ∀ c : Dev nD, k0_off5 c = ![256 * (og 3 c).val, 0] := by decide +kernel
theorem off6_eq : ∀ c : Dev nD, k0_off6 c = ![256 * (og 4 c).val, 0] := by decide +kernel
theorem off7_eq : ∀ c : Dev nD, k0_off7 c = ![256 * (og 5 c).val, 0] := by decide +kernel
theorem off8_eq : ∀ c : Dev nD, k0_off8 c = ![256 * (og 6 c).val, 0] := by decide +kernel

end Cert.Kernel.AG

end
-- ==== Proof.Bits.Regions.lean ====
import proofs.«900494_g7700000000000495_dist_ag_gemm_m2048_k2048_n2048_f32_none_v7x_i8_1_alg».proof.Proof.Bits.Setup
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Rows `lo ..< lo + n` of slot `s`, as a set of indices of the scratch buffer. -/
theorem mem_unit_rows {n : ℕ} {sz : Fin 3 → ℕ} (hsz : sz = ![1, n, 2048]) {s lo : ℕ}
    {h : ∀ a, (![s, lo, 0] : Fin 3 → Nat) a + sz a ≤ S7x256x2048.size a} {i : S7x256x2048.Idx} :
    i ∈ (Rect.unit (s := S7x256x2048) ![s, lo, 0] sz h).set ↔ (i 0).val = s ∧ lo ≤ (i 1).val ∧ (i 1).val < lo + n := by
  subst hsz
  rw [Rect.mem_set_unit]
  have h2 : (i 2).val < 2048 := (i 2).isLt
  constructor
  · intro H
    have H0 : s ≤ (i 0).val ∧ (i 0).val < s + 1 := H (0 : Fin 3)
    have H1 : lo ≤ (i 1).val ∧ (i 1).val < lo + n := H (1 : Fin 3)
    omega
  · rintro ⟨e0, e1, e2⟩ a
    fin_cases a
    · show s ≤ (i 0).val ∧ (i 0).val < s + 1; omega
    · show lo ≤ (i 1).val ∧ (i 1).val < lo + n; omega
    · show 0 ≤ (i 2).val ∧ (i 2).val < 0 + 2048; omega

theorem set_sl {n s lo : ℕ} {h hq} :
    (sl n s lo h hq).view.set = (Rect.unit (s := S7x256x2048) ![s, lo, 0] ![1, n, 2048] h).set :=
  (View.set_reshape _ _).trans (View.set_slice_whole _ _)

theorem mem_sl {n s lo : ℕ} {h hq} {i : S7x256x2048.Idx} :
    i ∈ (sl n s lo h hq).view.set ↔ (i 0).val = s ∧ lo ≤ (i 1).val ∧ (i 1).val < lo + n := by
  rw [set_sl]; exact mem_unit_rows rfl

/-- A load of slot `s` reads exactly the slot's elements. -/
theorem load_set_eq {s : ℕ} {h : ∀ a, (![s, 0, 0] : Fin 3 → Nat) a + S1x256x2048.size a ≤ S7x256x2048.size a} :
    (cM : Memref sig .tc .vmem S7x256x2048 .f32).view.setOn (Rect.unit (s := S7x256x2048) ![s, 0, 0] S1x256x2048.size h).toLoadRect.set
      = (sl256 s 0 h : Memref sig .tc .vmem S256x2048 .f32).view.set := by
  rw [set_sl]
  exact Finset.map_refl

/-- The points-to laws (union, carving out a subset, halving a share) as equations. -/
theorem pt_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩
theorem pt_carve {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩
theorem pt_halves {ℓ : Loc nD τ sig} {I : Finset (Idx ℓ)} (q : PosShare TreeShare) {f : Buf (Elt F) ℓ} :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

theorem dstP_eq (j : Fin 12) (c : Dev nD) (f : Buf (Elt F) ((c : Thread nD τ).loc cc0_scratch0)) :
    (dstP j c f : sProp 𝕄) = (((c : Thread nD τ).loc cc0_scratch0) ↦[dstSet j]{fullShare} f) := by
  fin_cases j <;> rfl

theorem mem_dst0 {i : S7x256x2048.Idx} : i ∈ dstSet 0 ↔ (i 0).val = 0 ∧ 0 ≤ (i 1).val ∧ (i 1).val < 0 + 256 := mem_sl (n := 256) (s := 0) (lo := 0) (h := by decide) (hq := by decide)
theorem mem_dst1 {i : S7x256x2048.Idx} : i ∈ dstSet 1 ↔ (i 0).val = 1 ∧ 0 ≤ (i 1).val ∧ (i 1).val < 0 + 256 := mem_sl (n := 256) (s := 1) (lo := 0) (h := by decide) (hq := by decide)
theorem mem_dst2 {i : S7x256x2048.Idx} : i ∈ dstSet 2 ↔ (i 0).val = 2 ∧ 0 ≤ (i 1).val ∧ (i 1).val < 0 + 256 := mem_sl (n := 256) (s := 2) (lo := 0) (h := by decide) (hq := by decide)
theorem mem_dst3 {i : S7x256x2048.Idx} : i ∈ dstSet 3 ↔ (i 0).val = 3 ∧ 0 ≤ (i 1).val ∧ (i 1).val < 0 + 128 := mem_sl (n := 128) (s := 3) (lo := 0) (h := by decide) (hq := by decide)
theorem mem_dst4 {i : S7x256x2048.Idx} : i ∈ dstSet 4 ↔ (i 0).val = 4 ∧ 0 ≤ (i 1).val ∧ (i 1).val < 0 + 128 := mem_sl (n := 128) (s := 4) (lo := 0) (h := by decide) (hq := by decide)
theorem mem_dst5 {i : S7x256x2048.Idx} : i ∈ dstSet 5 ↔ (i 0).val = 3 ∧ 128 ≤ (i 1).val ∧ (i 1).val < 128 + 128 := mem_sl (n := 128) (s := 3) (lo := 128) (h := by decide) (hq := by decide)
theorem mem_dst6 {i : S7x256x2048.Idx} : i ∈ dstSet 6 ↔ (i 0).val = 5 ∧ 0 ≤ (i 1).val ∧ (i 1).val < 0 + 128 := mem_sl (n := 128) (s := 5) (lo := 0) (h := by decide) (hq := by decide)
theorem mem_dst7 {i : S7x256x2048.Idx} : i ∈ dstSet 7 ↔ (i 0).val = 4 ∧ 128 ≤ (i 1).val ∧ (i 1).val < 128 + 128 := mem_sl (n := 128) (s := 4) (lo := 128) (h := by decide) (hq := by decide)
theorem mem_dst8 {i : S7x256x2048.Idx} : i ∈ dstSet 8 ↔ (i 0).val = 5 ∧ 128 ≤ (i 1).val ∧ (i 1).val < 128 + 128 := mem_sl (n := 128) (s := 5) (lo := 128) (h := by decide) (hq := by decide)
theorem mem_dst9 {i : S7x256x2048.Idx} : i ∈ dstSet 9 ↔ (i 0).val = 6 ∧ 176 ≤ (i 1).val ∧ (i 1).val < 176 + 80 := mem_sl (n := 80) (s := 6) (lo := 176) (h := by decide) (hq := by decide)
theorem mem_dst10 {i : S7x256x2048.Idx} : i ∈ dstSet 10 ↔ (i 0).val = 6 ∧ 88 ≤ (i 1).val ∧ (i 1).val < 88 + 88 := mem_sl (n := 88) (s := 6) (lo := 88) (h := by decide) (hq := by decide)
theorem mem_dst11 {i : S7x256x2048.Idx} : i ∈ dstSet 11 ↔ (i 0).val = 6 ∧ 0 ≤ (i 1).val ∧ (i 1).val < 0 + 88 := mem_sl (n := 88) (s := 6) (lo := 0) (h := by decide) (hq := by decide)

/-- The twelve written sets partition the scratch buffer. -/
theorem dst_cover : (Finset.univ : Finset S7x256x2048.Idx) = dstSet 0 ∪ (dstSet 1 ∪ (dstSet 2 ∪ (dstSet 3 ∪ (dstSet 4 ∪ (dstSet 5 ∪ (dstSet 6 ∪ (dstSet 7 ∪ (dstSet 8 ∪ (dstSet 9 ∪ (dstSet 10 ∪ (dstSet 11))))))))))) := by
  ext i
  have h0 : (i 0).val < 7 := (i 0).isLt
  have h1 : (i 1).val < 256 := (i 1).isLt
  simp only [mem_dst0, mem_dst1, mem_dst2, mem_dst3, mem_dst4, mem_dst5, mem_dst6, mem_dst7, mem_dst8, mem_dst9, mem_dst10, mem_dst11, Finset.mem_union, Finset.mem_univ, true_iff]
  omega

theorem dst_disj0 : Disjoint (dstSet 0) (dstSet 1 ∪ (dstSet 2 ∪ (dstSet 3 ∪ (dstSet 4 ∪ (dstSet 5 ∪ (dstSet 6 ∪ (dstSet 7 ∪ (dstSet 8 ∪ (dstSet 9 ∪ (dstSet 10 ∪ (dstSet 11))))))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj1 : Disjoint (dstSet 1) (dstSet 2 ∪ (dstSet 3 ∪ (dstSet 4 ∪ (dstSet 5 ∪ (dstSet 6 ∪ (dstSet 7 ∪ (dstSet 8 ∪ (dstSet 9 ∪ (dstSet 10 ∪ (dstSet 11)))))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj2 : Disjoint (dstSet 2) (dstSet 3 ∪ (dstSet 4 ∪ (dstSet 5 ∪ (dstSet 6 ∪ (dstSet 7 ∪ (dstSet 8 ∪ (dstSet 9 ∪ (dstSet 10 ∪ (dstSet 11))))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj3 : Disjoint (dstSet 3) (dstSet 4 ∪ (dstSet 5 ∪ (dstSet 6 ∪ (dstSet 7 ∪ (dstSet 8 ∪ (dstSet 9 ∪ (dstSet 10 ∪ (dstSet 11)))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj4 : Disjoint (dstSet 4) (dstSet 5 ∪ (dstSet 6 ∪ (dstSet 7 ∪ (dstSet 8 ∪ (dstSet 9 ∪ (dstSet 10 ∪ (dstSet 11))))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj5 : Disjoint (dstSet 5) (dstSet 6 ∪ (dstSet 7 ∪ (dstSet 8 ∪ (dstSet 9 ∪ (dstSet 10 ∪ (dstSet 11)))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj6 : Disjoint (dstSet 6) (dstSet 7 ∪ (dstSet 8 ∪ (dstSet 9 ∪ (dstSet 10 ∪ (dstSet 11))))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj7 : Disjoint (dstSet 7) (dstSet 8 ∪ (dstSet 9 ∪ (dstSet 10 ∪ (dstSet 11)))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj8 : Disjoint (dstSet 8) (dstSet 9 ∪ (dstSet 10 ∪ (dstSet 11))) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj9 : Disjoint (dstSet 9) (dstSet 10 ∪ (dstSet 11)) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega
theorem dst_disj10 : Disjoint (dstSet 10) (dstSet 11) := by
  rw [Finset.disjoint_left]; intro i hi hj
  simp only [mem_dst0, mem_dst1, mem_dst2, mem_dst3, mem_dst4, mem_dst5, mem_dst6, mem_dst7, mem_dst8, mem_dst9, mem_dst10, mem_dst11, Finset.mem_union] at hi hj
  omega

theorem scratch_split_eq (c : Dev nD) (f : Buf (Elt F) ((c : Thread nD τ).loc cc0_scratch0)) :
    ((((c : Thread nD τ).loc cc0_scratch0) ↦{fullShare} f) : sProp 𝕄)
      = iprop(dstP 0 c f ∗ dstP 1 c f ∗ dstP 2 c f ∗ dstP 3 c f ∗ dstP 4 c f ∗ dstP 5 c f ∗ dstP 6 c f ∗ dstP 7 c f ∗ dstP 8 c f ∗ dstP 9 c f ∗ dstP 10 c f ∗ dstP 11 c f) := by
  simp only [dstP_eq]
  refine (congrArg (fun S => ((((c : Thread nD τ).loc cc0_scratch0) ↦[S]{fullShare} f) : sProp 𝕄)) dst_cover).trans ?_
  show ((((c : Thread nD τ).loc cc0_scratch0) ↦[dstSet 0 ∪ (dstSet 1 ∪ (dstSet 2 ∪ (dstSet 3 ∪ (dstSet 4 ∪ (dstSet 5 ∪ (dstSet 6 ∪ (dstSet 7 ∪ (dstSet 8 ∪ (dstSet 9 ∪ (dstSet 10 ∪ (dstSet 11)))))))))))]{fullShare} f) : sProp 𝕄) = _
  rw [pt_union dst_disj0, pt_union dst_disj1, pt_union dst_disj2, pt_union dst_disj3, pt_union dst_disj4, pt_union dst_disj5,
    pt_union dst_disj6, pt_union dst_disj7, pt_union dst_disj8, pt_union dst_disj9, pt_union dst_disj10]

/-- The whole scratch buffer is the twelve parts the transfers write. -/
theorem scratch_split (c : Dev nD) (f : Buf (Elt F) ((c : Thread nD τ).loc cc0_scratch0)) :
    ((((c : Thread nD τ).loc cc0_scratch0) ↦{fullShare} f) : sProp 𝕄)
      ⊣⊢ iprop(dstP 0 c f ∗ dstP 1 c f ∗ dstP 2 c f ∗ dstP 3 c f ∗ dstP 4 c f ∗ dstP 5 c f ∗ dstP 6 c f ∗ dstP 7 c f ∗ dstP 8 c f ∗ dstP 9 c f ∗ dstP 10 c f ∗ dstP 11 c f) :=
  BiEntails.of_eq (scratch_split_eq c f)

theorem scratch_split_ex (c : Dev nD) :
    (iprop(∃ f, (((c : Thread nD τ).loc cc0_scratch0) ↦{fullShare} f)) : sProp 𝕄)
      ⊢ iprop((∃ f, dstP 0 c f) ∗ (∃ f, dstP 1 c f) ∗ (∃ f, dstP 2 c f) ∗ (∃ f, dstP 3 c f) ∗ (∃ f, dstP 4 c f) ∗ (∃ f, dstP 5 c f) ∗ (∃ f, dstP 6 c f) ∗ (∃ f, dstP 7 c f) ∗ (∃ f, dstP 8 c f) ∗ (∃ f, dstP 9 c f) ∗ (∃ f, dstP 10 c f) ∗ (∃ f, dstP 11 c f)) := by
  iintro ⟨%f, H⟩
  ihave H := (scratch_split c f).1 $$ H
  icases H with ⟨H0, H1, H2, H3, H4, H5, H6, H7, H8, H9, H10, H11⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  isplitl [H9]; · iexists f; iexact H9
  isplitl [H10]; · iexists f; iexact H10
  iexists f; iexact H11

theorem xM_set : (xM : Memref sig .tc .vmem S256x2048 .f32).view.set = Finset.univ := View.set_whole _

/-- The share of the own block of `x` kept for loading it; `x_split` deals the other three to the one-hop sends. -/
def xLd (m : (ℓ : Loc nD τ sig) → Buf (Elt F) ℓ) (c : Dev nD) : sProp 𝕄 :=
  (xM : Memref sig .tc .vmem S256x2048 .f32).view.loc (c : Thread nD τ) ↦[(xM : Memref sig .tc .vmem S256x2048 .f32).view.set]{qRRR} xstg m c

theorem x_split (m : (ℓ : Loc nD τ sig) → Buf (Elt F) ℓ) (c : Dev nD) :
    (((xM : Memref sig .tc .vmem S256x2048 .f32).view.loc (c : Thread nD τ) ↦[(xM : Memref sig .tc .vmem S256x2048 .f32).view.set]{fullShare} xstg m c) : sProp 𝕄)
      ⊣⊢ iprop(srcP m 0 c ∗ srcP m 1 c ∗ srcP m 2 c ∗ xLd m c) := by
  refine BiEntails.of_eq ?_
  rw [pt_halves fullShare, pt_halves fullShare.right, pt_halves fullShare.right.right]
  rfl

theorem sub_sl {n s lo : ℕ} {h hq h'} (hlo : lo + n ≤ 256) :
    (sl n s lo h hq).view.set ⊆ (sl256 s 0 h').view.set := by
  intro i hi; rw [mem_sl] at hi ⊢; omega

/-- Set algebra of the halves and thirds of one slot. -/
theorem halves_union {s : ℕ} {h₀ h₁ h} :
    (sl128 s 0 h₀ : Memref sig .tc .vmem S128x2048 .f32).view.set ∪ (sl128 s 128 h₁ : Memref sig .tc .vmem S128x2048 .f32).view.set
      = (sl256 s 0 h : Memref sig .tc .vmem S256x2048 .f32).view.set := by
  ext i; rw [Finset.mem_union, mem_sl, mem_sl, mem_sl]; omega
theorem halves_disj {s : ℕ} {h₀ h₁} :
    Disjoint (sl128 s 0 h₀ : Memref sig .tc .vmem S128x2048 .f32).view.set (sl128 s 128 h₁ : Memref sig .tc .vmem S128x2048 .f32).view.set := by
  rw [Finset.disjoint_left]; intro i hi hj; rw [mem_sl] at hi hj; omega
theorem sdiff_upper {s : ℕ} {h₀ h₁ h} :
    (sl256 s 0 h : Memref sig .tc .vmem S256x2048 .f32).view.set \ (sl128 s 128 h₁ : Memref sig .tc .vmem S128x2048 .f32).view.set
      = (sl128 s 0 h₀ : Memref sig .tc .vmem S128x2048 .f32).view.set := by
  ext i; rw [Finset.mem_sdiff, mem_sl, mem_sl, mem_sl]; omega
theorem thirds_union {s : ℕ} {h₀ h₁ h₂ h} :
    (sl80 s 176 h₂ : Memref sig .tc .vmem S80x2048 .f32).view.set ∪ ((sl88 s 88 h₁ : Memref sig .tc .vmem S88x2048 .f32).view.set ∪ (sl88 s 0 h₀ : Memref sig .tc .vmem S88x2048 .f32).view.set)
      = (sl256 s 0 h : Memref sig .tc .vmem S256x2048 .f32).view.set := by
  ext i; rw [Finset.mem_union, Finset.mem_union, mem_sl, mem_sl, mem_sl, mem_sl]; omega
theorem thirds_disj₁ {s : ℕ} {h₀ h₁ h₂} :
    Disjoint (sl80 s 176 h₂ : Memref sig .tc .vmem S80x2048 .f32).view.set ((sl88 s 88 h₁ : Memref sig .tc .vmem S88x2048 .f32).view.set ∪ (sl88 s 0 h₀ : Memref sig .tc .vmem S88x2048 .f32).view.set) := by
  rw [Finset.disjoint_left]; intro i hi hj; rw [Finset.mem_union, mem_sl, mem_sl] at hj; rw [mem_sl] at hi; omega
theorem thirds_disj₂ {s : ℕ} {h₀ h₁} :
    Disjoint (sl88 s 88 h₁ : Memref sig .tc .vmem S88x2048 .f32).view.set (sl88 s 0 h₀ : Memref sig .tc .vmem S88x2048 .f32).view.set := by
  rw [Finset.disjoint_left]; intro i hi hj; rw [mem_sl] at hi hj; omega

theorem sepC (P Q : sProp 𝕄) : iprop(P ∗ Q) = iprop(Q ∗ P) :=
  BI.equiv_iff.mp ⟨(Laws.sep_comm (P := P) (Q := Q)).1, (Laws.sep_comm (P := P) (Q := Q)).2⟩
theorem sepA (P Q R : sProp 𝕄) : iprop((P ∗ Q) ∗ R) = iprop(P ∗ Q ∗ R) :=
  BI.equiv_iff.mp ⟨(Laws.sep_assoc (P := P) (Q := Q) (R := R)).1, (Laws.sep_assoc (P := P) (Q := Q) (R := R)).2⟩
instance sepCommI : Std.Commutative (α := sProp 𝕄) (fun P Q => iprop(P ∗ Q)) := ⟨sepC⟩
instance sepAssocI : Std.Associative (α := sProp 𝕄) (fun P Q => iprop(P ∗ Q)) := ⟨sepA⟩

/-- Slot `s` whole, at its final contents, at the share kept for loading it. -/
def ldP (m : (ℓ : Loc nD τ sig) → Buf (Elt F) ℓ) (s : Fin 7) (c : Dev nD) : sProp 𝕄 :=
  match s with
  | 0 => (((c : Thread nD τ).loc cc0_scratch0) ↦[(sl256 0 0 inb_S7x256x2048_S1x256x2048_0_0_0 : Memref sig .tc .vmem S256x2048 .f32).view.set]{qRR} commFinal m c)
  | 1 => (((c : Thread nD τ).loc cc0_scratch0) ↦[(sl256 1 0 inb_S7x256x2048_S1x256x2048_1_0_0 : Memref sig .tc .vmem S256x2048 .f32).view.set]{qR} commFinal m c)
  | 2 => (((c : Thread nD τ).loc cc0_scratch0) ↦[(sl256 2 0 inb_S7x256x2048_S1x256x2048_2_0_0 : Memref sig .tc .vmem S256x2048 .f32).view.set]{qRR} commFinal m c)
  | 3 => (((c : Thread nD τ).loc cc0_scratch0) ↦[(sl256 3 0 inb_S7x256x2048_S1x256x2048_3_0_0 : Memref sig .tc .vmem S256x2048 .f32).view.set]{qR} commFinal m c)
  | 4 => (((c : Thread nD τ).loc cc0_scratch0) ↦[(sl256 4 0 inb_S7x256x2048_S1x256x2048_4_0_0 : Memref sig .tc .vmem S256x2048 .f32).view.set]{qR} commFinal m c)
  | 5 => (((c : Thread nD τ).loc cc0_scratch0) ↦[(sl256 5 0 inb_S7x256x2048_S1x256x2048_5_0_0 : Memref sig .tc .vmem S256x2048 .f32).view.set]{qR} commFinal m c)
  | 6 => (((c : Thread nD τ).loc cc0_scratch0) ↦[(sl256 6 0 inb_S7x256x2048_S1x256x2048_6_0_0 : Memref sig .tc .vmem S256x2048 .f32).view.set]{fullShare} commFinal m c)

/-- What of a slot neither a relay nor the load uses (`junk0` … `junk5`). -/
def junk0 (m : (ℓ : Loc nD τ sig) → Buf (Elt F) ℓ) (c : Dev nD) : sProp 𝕄 :=
  iprop((((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qL} commFinal m c) ∗ (((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qRL} commFinal m c))
def junk2 (m : (ℓ : Loc nD τ sig) → Buf (Elt F) ℓ) (c : Dev nD) : sProp 𝕄 :=
  iprop((((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qL} commFinal m c) ∗ (((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qRL} commFinal m c))
def junk3 (m : (ℓ : Loc nD τ sig) → Buf (Elt F) ℓ) (c : Dev nD) : sProp 𝕄 := (((c : Thread nD τ).loc cc0_scratch0) ↦[(sl256 3 0 inb_S7x256x2048_S1x256x2048_3_0_0 : Memref sig .tc .vmem S256x2048 .f32).view.set \ (sl80 3 176 inb_S7x256x2048_S1x80x2048_3_176_0 : Memref sig .tc .vmem S80x2048 .f32).view.set]{qL} commFinal m c)
def junk4 (m : (ℓ : Loc nD τ sig) → Buf (Elt F) ℓ) (c : Dev nD) : sProp 𝕄 := (((c : Thread nD τ).loc cc0_scratch0) ↦[(sl256 4 0 inb_S7x256x2048_S1x256x2048_4_0_0 : Memref sig .tc .vmem S256x2048 .f32).view.set \ (sl88 4 88 inb_S7x256x2048_S1x88x2048_4_88_0 : Memref sig .tc .vmem S88x2048 .f32).view.set]{qL} commFinal m c)
def junk5 (m : (ℓ : Loc nD τ sig) → Buf (Elt F) ℓ) (c : Dev nD) : sProp 𝕄 := (((c : Thread nD τ).loc cc0_scratch0) ↦[(sl256 5 0 inb_S7x256x2048_S1x256x2048_5_0_0 : Memref sig .tc .vmem S256x2048 .f32).view.set \ (sl88 5 0 inb_S7x256x2048_S1x88x2048_5_0_0 : Memref sig .tc .vmem S88x2048 .f32).view.set]{qL} commFinal m c)

/-- What a slot's receive waits hand over, regrouped into what its relays and its load need (`slot0` … `slot6`). -/
theorem slot0 (m : (ℓ : Loc nD τ sig) → Buf (Elt F) ℓ) (c : Dev nD) :
    (recvPay m 0 c : sProp 𝕄) ⊣⊢ iprop(srcP m 3 c ∗ srcP m 4 c ∗ ldP m 0 c ∗ junk0 m c) := by
  refine BiEntails.of_eq ?_
  show (((c : Thread nD τ).loc cc0_scratch0) ↦[(sl256 0 0 inb_S7x256x2048_S1x256x2048_0_0_0 : Memref sig .tc .vmem S256x2048 .f32).view.set]{fullShare} commFinal m c)
    = iprop((((c : Thread nD τ).loc cc0_scratch0) ↦[(sl128 0 0 inb_S7x256x2048_S1x128x2048_0_0_0 : Memref sig .tc .vmem S128x2048 .f32).view.set]{qL} commFinal m c) ∗ (((c : Thread nD τ).loc cc0_scratch0) ↦[(sl128 0 0 inb_S7x256x2048_S1x128x2048_0_0_0 : Memref sig .tc .vmem S128x2048 .f32).view.set]{qRL} commFinal m c) ∗ (((c : Thread nD τ).loc cc0_scratch0) ↦[(sl256 0 0 inb_S7x256x2048_S1x256x2048_0_0_0 : Memref sig .tc .vmem S256x2048 .f32).view.set]{qRR} commFinal m c)
        ∗ ((((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qL} commFinal m c) ∗ (((c : Thread nD τ).loc cc0_scratch0) ↦[(sl256 0 0 inb_S7x256x2048_S1x256x2048_0_0_0 : Memref sig .tc .vmem S256x2048 .f32).view.set \ (sl128 0 0 inb_S7x256x2048_S1x128x2048_0_0_0 : Memref sig .tc .vmem S128x2048 .f32).view.set]{qRL} commFinal m c)))
  rw [pt_halves fullShare, pt_halves fullShare.right,
    pt_carve (ℓ := ((c : Thread nD τ).loc cc0_scratch0)) (I := (sl128 0 0 inb_S7x256x2048_S1x128x2048_0_0_0 : Memref sig .tc .vmem S128x2048 .f32).view.set) (S := (sl256 0 0 inb_S7x256x2048_S1x256x2048_0_0_0 : Memref sig .tc .vmem S256x2048 .f32).view.set) (q := fullShare.left) (f := commFinal m c) (sub_sl (by decide)),
    pt_carve (ℓ := ((c : Thread nD τ).loc cc0_scratch0)) (I := (sl128 0 0 inb_S7x256x2048_S1x128x2048_0_0_0 : Memref sig .tc .vmem S128x2048 .f32).view.set) (S := (sl256 0 0 inb_S7x256x2048_S1x256x2048_0_0_0 : Memref sig .tc .vmem S256x2048 .f32).view.set) (q := fullShare.right.left) (f := commFinal m c) (sub_sl (by decide))]
  ac_rfl

theorem slot2 (m : (ℓ : Loc nD τ sig) → Buf (Elt F) ℓ) (c : Dev nD) :
    (recvPay m 2 c : sProp 𝕄) ⊣⊢ iprop(srcP m 7 c ∗ srcP m 8 c ∗ ldP m 2 c ∗ junk2 m c) := by
  refine BiEntails.of_eq ?_
  show (((c : Thread nD τ).loc cc0_scratch0) ↦[(sl256 2 0 inb_S7x256x2048_S1x256x2048_2_0_0 : Memref sig .tc .vmem S256x2048 .f32).view.set]{fullShare} commFinal m c)
    = iprop((((c : Thread nD τ).loc cc0_scratch0) ↦[(sl128 2 128 inb_S7x256x2048_S1x128x2048_2_128_0 : Memref sig .tc .vmem S128x2048 .f32).view.set]{qL} commFinal m c) ∗ (((c : Thread nD τ).loc cc0_scratch0) ↦[(sl128 2 128 inb_S7x256x2048_S1x128x2048_2_128_0 : Memref sig .tc .vmem S128x2048 .f32).view.set]{qRL} commFinal m c) ∗ (((c : Thread nD τ).loc cc0_scratch0) ↦[(sl256 2 0 inb_S7x256x2048_S1x256x2048_2_0_0 : Memref sig .tc .vmem S256x2048 .f32).view.set]{qRR} commFinal m c)
        ∗ ((((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qL} commFinal m c) ∗ (((c : Thread nD τ).loc cc0_scratch0) ↦[(sl256 2 0 inb_S7x256x2048_S1x256x2048_2_0_0 : Memref sig .tc .vmem S256x2048 .f32).view.set \ (sl128 2 128 inb_S7x256x2048_S1x128x2048_2_128_0 : Memref sig .tc .vmem S128x2048 .f32).view.set]{qRL} commFinal m c)))
  rw [pt_halves fullShare, pt_halves fullShare.right,
    pt_carve (ℓ := ((c : Thread nD τ).loc cc0_scratch0)) (I := (sl128 2 128 inb_S7x256x2048_S1x128x2048_2_128_0 : Memref sig .tc .vmem S128x2048 .f32).view.set) (S := (sl256 2 0 inb_S7x256x2048_S1x256x2048_2_0_0 : Memref sig .tc .vmem S256x2048 .f32).view.set) (q := fullShare.left) (f := commFinal m c) (sub_sl (by decide)),
    pt_carve (ℓ := ((c : Thread nD τ).loc cc0_scratch0)) (I := (sl128 2 128 inb_S7x256x2048_S1x128x2048_2_128_0 : Memref sig .tc .vmem S128x2048 .f32).view.set) (S := (sl256 2 0 inb_S7x256x2048_S1x256x2048_2_0_0 : Memref sig .tc .vmem S256x2048 .f32).view.set) (q := fullShare.right.left) (f := commFinal m c) (sub_sl (by decide))]
  ac_rfl

theorem slot1 (m : (ℓ : Loc nD τ sig) → Buf (Elt F) ℓ) (c : Dev nD) :
    (recvPay m 1 c : sProp 𝕄) ⊣⊢ iprop(srcP m 5 c ∗ srcP m 6 c ∗ ldP m 1 c) := by
  refine BiEntails.of_eq ?_
  show (((c : Thread nD τ).loc cc0_scratch0) ↦[(sl256 1 0 inb_S7x256x2048_S1x256x2048_1_0_0 : Memref sig .tc .vmem S256x2048 .f32).view.set]{fullShare} commFinal m c)
    = iprop((((c : Thread nD τ).loc cc0_scratch0) ↦[(sl128 1 128 inb_S7x256x2048_S1x128x2048_1_128_0 : Memref sig .tc .vmem S128x2048 .f32).view.set]{qL} commFinal m c) ∗ (((c : Thread nD τ).loc cc0_scratch0) ↦[(sl128 1 0 inb_S7x256x2048_S1x128x2048_1_0_0 : Memref sig .tc .vmem S128x2048 .f32).view.set]{qL} commFinal m c) ∗ (((c : Thread nD τ).loc cc0_scratch0) ↦[(sl256 1 0 inb_S7x256x2048_S1x256x2048_1_0_0 : Memref sig .tc .vmem S256x2048 .f32).view.set]{qR} commFinal m c))
  rw [pt_halves fullShare, pt_carve (ℓ := ((c : Thread nD τ).loc cc0_scratch0)) (I := (sl128 1 128 inb_S7x256x2048_S1x128x2048_1_128_0 : Memref sig .tc .vmem S128x2048 .f32).view.set) (S := (sl256 1 0 inb_S7x256x2048_S1x256x2048_1_0_0 : Memref sig .tc .vmem S256x2048 .f32).view.set) (q := fullShare.left) (f := commFinal m c) (sub_sl (by decide)), sdiff_upper (h₀ := inb_S7x256x2048_S1x128x2048_1_0_0)]
  ac_rfl

theorem slot3 (m : (ℓ : Loc nD τ sig) → Buf (Elt F) ℓ) (c : Dev nD) :
    (iprop(recvPay m 3 c ∗ recvPay m 5 c) : sProp 𝕄) ⊣⊢ iprop(srcP m 9 c ∗ ldP m 3 c ∗ junk3 m c) := by
  refine BiEntails.of_eq ?_
  show iprop((((c : Thread nD τ).loc cc0_scratch0) ↦[(sl128 3 0 inb_S7x256x2048_S1x128x2048_3_0_0 : Memref sig .tc .vmem S128x2048 .f32).view.set]{fullShare} commFinal m c) ∗ (((c : Thread nD τ).loc cc0_scratch0) ↦[(sl128 3 128 inb_S7x256x2048_S1x128x2048_3_128_0 : Memref sig .tc .vmem S128x2048 .f32).view.set]{fullShare} commFinal m c))
    = iprop((((c : Thread nD τ).loc cc0_scratch0) ↦[(sl80 3 176 inb_S7x256x2048_S1x80x2048_3_176_0 : Memref sig .tc .vmem S80x2048 .f32).view.set]{qL} commFinal m c) ∗ (((c : Thread nD τ).loc cc0_scratch0) ↦[(sl256 3 0 inb_S7x256x2048_S1x256x2048_3_0_0 : Memref sig .tc .vmem S256x2048 .f32).view.set]{qR} commFinal m c) ∗ (((c : Thread nD τ).loc cc0_scratch0) ↦[(sl256 3 0 inb_S7x256x2048_S1x256x2048_3_0_0 : Memref sig .tc .vmem S256x2048 .f32).view.set \ (sl80 3 176 inb_S7x256x2048_S1x80x2048_3_176_0 : Memref sig .tc .vmem S80x2048 .f32).view.set]{qL} commFinal m c))
  rw [← pt_union halves_disj, halves_union (h := inb_S7x256x2048_S1x256x2048_3_0_0), pt_halves fullShare,
    pt_carve (ℓ := ((c : Thread nD τ).loc cc0_scratch0)) (I := (sl80 3 176 inb_S7x256x2048_S1x80x2048_3_176_0 : Memref sig .tc .vmem S80x2048 .f32).view.set) (S := (sl256 3 0 inb_S7x256x2048_S1x256x2048_3_0_0 : Memref sig .tc .vmem S256x2048 .f32).view.set) (q := fullShare.left) (f := commFinal m c) (sub_sl (by decide))]
  ac_rfl

theorem slot4 (m : (ℓ : Loc nD τ sig) → Buf (Elt F) ℓ) (c : Dev nD) :
    (iprop(recvPay m 4 c ∗ recvPay m 7 c) : sProp 𝕄) ⊣⊢ iprop(srcP m 10 c ∗ ldP m 4 c ∗ junk4 m c) := by
  refine BiEntails.of_eq ?_
  show iprop((((c : Thread nD τ).loc cc0_scratch0) ↦[(sl128 4 0 inb_S7x256x2048_S1x128x2048_4_0_0 : Memref sig .tc .vmem S128x2048 .f32).view.set]{fullShare} commFinal m c) ∗ (((c : Thread nD τ).loc cc0_scratch0) ↦[(sl128 4 128 inb_S7x256x2048_S1x128x2048_4_128_0 : Memref sig .tc .vmem S128x2048 .f32).view.set]{fullShare} commFinal m c))
    = iprop((((c : Thread nD τ).loc cc0_scratch0) ↦[(sl88 4 88 inb_S7x256x2048_S1x88x2048_4_88_0 : Memref sig .tc .vmem S88x2048 .f32).view.set]{qL} commFinal m c) ∗ (((c : Thread nD τ).loc cc0_scratch0) ↦[(sl256 4 0 inb_S7x256x2048_S1x256x2048_4_0_0 : Memref sig .tc .vmem S256x2048 .f32).view.set]{qR} commFinal m c) ∗ (((c : Thread nD τ).loc cc0_scratch0) ↦[(sl256 4 0 inb_S7x256x2048_S1x256x2048_4_0_0 : Memref sig .tc .vmem S256x2048 .f32).view.set \ (sl88 4 88 inb_S7x256x2048_S1x88x2048_4_88_0 : Memref sig .tc .vmem S88x2048 .f32).view.set]{qL} commFinal m c))
  rw [← pt_union halves_disj, halves_union (h := inb_S7x256x2048_S1x256x2048_4_0_0), pt_halves fullShare,
    pt_carve (ℓ := ((c : Thread nD τ).loc cc0_scratch0)) (I := (sl88 4 88 inb_S7x256x2048_S1x88x2048_4_88_0 : Memref sig .tc .vmem S88x2048 .f32).view.set) (S := (sl256 4 0 inb_S7x256x2048_S1x256x2048_4_0_0 : Memref sig .tc .vmem S256x2048 .f32).view.set) (q := fullShare.left) (f := commFinal m c) (sub_sl (by decide))]
  ac_rfl

theorem slot5 (m : (ℓ : Loc nD τ sig) → Buf (Elt F) ℓ) (c : Dev nD) :
    (iprop(recvPay m 6 c ∗ recvPay m 8 c) : sProp 𝕄) ⊣⊢ iprop(srcP m 11 c ∗ ldP m 5 c ∗ junk5 m c) := by
  refine BiEntails.of_eq ?_
  show iprop((((c : Thread nD τ).loc cc0_scratch0) ↦[(sl128 5 0 inb_S7x256x2048_S1x128x2048_5_0_0 : Memref sig .tc .vmem S128x2048 .f32).view.set]{fullShare} commFinal m c) ∗ (((c : Thread nD τ).loc cc0_scratch0) ↦[(sl128 5 128 inb_S7x256x2048_S1x128x2048_5_128_0 : Memref sig .tc .vmem S128x2048 .f32).view.set]{fullShare} commFinal m c))
    = iprop((((c : Thread nD τ).loc cc0_scratch0) ↦[(sl88 5 0 inb_S7x256x2048_S1x88x2048_5_0_0 : Memref sig .tc .vmem S88x2048 .f32).view.set]{qL} commFinal m c) ∗ (((c : Thread nD τ).loc cc0_scratch0) ↦[(sl256 5 0 inb_S7x256x2048_S1x256x2048_5_0_0 : Memref sig .tc .vmem S256x2048 .f32).view.set]{qR} commFinal m c) ∗ (((c : Thread nD τ).loc cc0_scratch0) ↦[(sl256 5 0 inb_S7x256x2048_S1x256x2048_5_0_0 : Memref sig .tc .vmem S256x2048 .f32).view.set \ (sl88 5 0 inb_S7x256x2048_S1x88x2048_5_0_0 : Memref sig .tc .vmem S88x2048 .f32).view.set]{qL} commFinal m c))
  rw [← pt_union halves_disj, halves_union (h := inb_S7x256x2048_S1x256x2048_5_0_0), pt_halves fullShare,
    pt_carve (ℓ := ((c : Thread nD τ).loc cc0_scratch0)) (I := (sl88 5 0 inb_S7x256x2048_S1x88x2048_5_0_0 : Memref sig .tc .vmem S88x2048 .f32).view.set) (S := (sl256 5 0 inb_S7x256x2048_S1x256x2048_5_0_0 : Memref sig .tc .vmem S256x2048 .f32).view.set) (q := fullShare.left) (f := commFinal m c) (sub_sl (by decide))]
  ac_rfl

theorem slot6 (m : (ℓ : Loc nD τ sig) → Buf (Elt F) ℓ) (c : Dev nD) :
    (iprop(recvPay m 9 c ∗ recvPay m 10 c ∗ recvPay m 11 c) : sProp 𝕄) ⊣⊢ ldP m 6 c := by
  refine BiEntails.of_eq ?_
  show iprop((((c : Thread nD τ).loc cc0_scratch0) ↦[(sl80 6 176 inb_S7x256x2048_S1x80x2048_6_176_0 : Memref sig .tc .vmem S80x2048 .f32).view.set]{fullShare} commFinal m c) ∗ (((c : Thread nD τ).loc cc0_scratch0) ↦[(sl88 6 88 inb_S7x256x2048_S1x88x2048_6_88_0 : Memref sig .tc .vmem S88x2048 .f32).view.set]{fullShare} commFinal m c) ∗ (((c : Thread nD τ).loc cc0_scratch0) ↦[(sl88 6 0 inb_S7x256x2048_S1x88x2048_6_0_0 : Memref sig .tc .vmem S88x2048 .f32).view.set]{fullShare} commFinal m c))
    = (((c : Thread nD τ).loc cc0_scratch0) ↦[(sl256 6 0 inb_S7x256x2048_S1x256x2048_6_0_0 : Memref sig .tc .vmem S256x2048 .f32).view.set]{fullShare} commFinal m c)
  rw [← pt_union thirds_disj₂, ← pt_union thirds_disj₁, thirds_union (h := inb_S7x256x2048_S1x256x2048_6_0_0)]

theorem slot6' (m : (ℓ : Loc nD τ sig) → Buf (Elt F) ℓ) (c : Dev nD) :
    (iprop(recvPay m 11 c ∗ recvPay m 10 c ∗ recvPay m 9 c) : sProp 𝕄) ⊣⊢ ldP m 6 c := by
  refine BiEntails.of_eq ?_
  rw [← BI.equiv_iff.mp ⟨(slot6 m c).1, (slot6 m c).2⟩]
  ac_rfl

theorem ldP_0 (m : (ℓ : Loc nD τ sig) → Buf (Elt F) ℓ) (c : Dev nD) : (ldP m 0 c : sProp 𝕄) = (((c : Thread nD τ).loc cc0_scratch0) ↦[(sl256 0 0 inb_S7x256x2048_S1x256x2048_0_0_0 : Memref sig .tc .vmem S256x2048 .f32).view.set]{qRR} commFinal m c) := rfl
theorem ldP_1 (m : (ℓ : Loc nD τ sig) → Buf (Elt F) ℓ) (c : Dev nD) : (ldP m 1 c : sProp 𝕄) = (((c : Thread nD τ).loc cc0_scratch0) ↦[(sl256 1 0 inb_S7x256x2048_S1x256x2048_1_0_0 : Memref sig .tc .vmem S256x2048 .f32).view.set]{qR} commFinal m c) := rfl
theorem ldP_2 (m : (ℓ : Loc nD τ sig) → Buf (Elt F) ℓ) (c : Dev nD) : (ldP m 2 c : sProp 𝕄) = (((c : Thread nD τ).loc cc0_scratch0) ↦[(sl256 2 0 inb_S7x256x2048_S1x256x2048_2_0_0 : Memref sig .tc .vmem S256x2048 .f32).view.set]{qRR} commFinal m c) := rfl
theorem ldP_3 (m : (ℓ : Loc nD τ sig) → Buf (Elt F) ℓ) (c : Dev nD) : (ldP m 3 c : sProp 𝕄) = (((c : Thread nD τ).loc cc0_scratch0) ↦[(sl256 3 0 inb_S7x256x2048_S1x256x2048_3_0_0 : Memref sig .tc .vmem S256x2048 .f32).view.set]{qR} commFinal m c) := rfl
theorem ldP_4 (m : (ℓ : Loc nD τ sig) → Buf (Elt F) ℓ) (c : Dev nD) : (ldP m 4 c : sProp 𝕄) = (((c : Thread nD τ).loc cc0_scratch0) ↦[(sl256 4 0 inb_S7x256x2048_S1x256x2048_4_0_0 : Memref sig .tc .vmem S256x2048 .f32).view.set]{qR} commFinal m c) := rfl
theorem ldP_5 (m : (ℓ : Loc nD τ sig) → Buf (Elt F) ℓ) (c : Dev nD) : (ldP m 5 c : sProp 𝕄) = (((c : Thread nD τ).loc cc0_scratch0) ↦[(sl256 5 0 inb_S7x256x2048_S1x256x2048_5_0_0 : Memref sig .tc .vmem S256x2048 .f32).view.set]{qR} commFinal m c) := rfl
theorem ldP_6 (m : (ℓ : Loc nD τ sig) → Buf (Elt F) ℓ) (c : Dev nD) : (ldP m 6 c : sProp 𝕄) = (((c : Thread nD τ).loc cc0_scratch0) ↦[(sl256 6 0 inb_S7x256x2048_S1x256x2048_6_0_0 : Memref sig .tc .vmem S256x2048 .f32).view.set]{fullShare} commFinal m c) := rfl

/-- Every transfer landed: the scratch buffer whole at its final contents. -/
theorem scratch_join (m : (ℓ : Loc nD τ sig) → Buf (Elt F) ℓ) (c : Dev nD) :
    (iprop(recvPay m 0 c ∗ recvPay m 1 c ∗ recvPay m 2 c ∗ recvPay m 3 c ∗ recvPay m 4 c ∗ recvPay m 5 c ∗ recvPay m 6 c ∗ recvPay m 7 c ∗ recvPay m 8 c ∗ recvPay m 9 c ∗ recvPay m 10 c ∗ recvPay m 11 c) : sProp 𝕄)
      ⊢ (((c : Thread nD τ).loc cc0_scratch0) ↦{fullShare} commFinal m c) :=
  (scratch_split c (commFinal m c)).2

end Cert.Kernel.AG

end
-- ==== Proof.Bits.Landing.lean ====
import proofs.«900494_g7700000000000495_dist_ag_gemm_m2048_k2048_n2048_f32_none_v7x_i8_1_alg».proof.Proof.Bits.Setup
import Idealize.ShloMosaic.Lib.Pipeline.Value
import Idealize.ShloMosaic.Lib.ValueLayout

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Element `(p, q)` of rows `lo ..< lo + n` of slot `s` is element `(s, lo + p, q)` of the scratch buffer. -/
theorem emb_sl {n : ℕ} (s lo : ℕ) (h) (hq) (p : Fin n) (q : Fin 2048) (a : Fin 3) :
    (((sl n s lo h hq : Memref sig .tc .vmem _ .f32).view.emb (ValueIdx.ix2 p q)) a : ℕ) = ![s, lo + p.val, q.val] a := by
  show ((Rect.unit (s := S7x256x2048) ![s, lo, 0] ![1, n, 2048] h).emb (Shape.reshapeEquiv hq.numel_eq (ValueIdx.ix2 p q)) a : ℕ) = _
  rw [ValueIdx.reshapeEquiv_ix2_1ab, Rect.emb_apply]
  match a with
  | ⟨0, _⟩ => rfl
  | ⟨1, _⟩ => show lo + 1 * p.val = lo + p.val; rw [Nat.one_mul]
  | ⟨2, _⟩ => show 0 + 1 * q.val = q.val; rw [Nat.one_mul, Nat.zero_add]

/-- The final contents at an element of slot `s`, by coordinates: an entry of the block of `og s c`. -/
theorem commFinal_at (c d : Dev nD) (i : S7x256x2048.Idx) (r k : ℕ) (s : Fin 7) (h0 : (i 0).val = s.val) (hd : og s c = d)
    (h1 : (i 1).val = r) (h2 : (i 2).val = k) {hr : r < 256} {hk : k < 2048} :
    commFinal m c i = xstg m d (ValueIdx.ix2 ⟨r, hr⟩ ⟨k, hk⟩) := by
  unfold commFinal
  rw [show (i 0 : Fin 7) = s from Fin.ext h0, hd]
  congr 1
  funext a
  match a with
  | ⟨0, _⟩ => exact Fin.ext h1
  | ⟨1, _⟩ => exact Fin.ext h2

theorem commFinal_congr (c c' : Dev nD) (i i' : S7x256x2048.Idx) (s s' : Fin 7) (h0 : (i 0).val = s.val) (h0' : (i' 0).val = s'.val)
    (hd : og s c = og s' c') (h1 : (i 1).val = (i' 1).val) (h2 : (i 2).val = (i' 2).val) :
    commFinal m c i = commFinal m c' i' :=
  (commFinal_at m c _ i _ _ s h0 hd h1 h2 (hr := (i' 1).isLt) (hk := (i' 2).isLt)).trans
    (commFinal_at m c' _ i' _ _ s' h0' rfl rfl rfl).symm

/-- A whole block of `x` sent to slot `s` of `d`, which is to hold `c`'s block, lands `d`'s final contents. -/
theorem land_x (s : Fin 7) (h) (c d : Dev nD) (hog : og s d = c) (fd : Buf (Elt F) ((d : Thread nD τ).loc cc0_scratch0)) :
    ((((d : Thread nD τ).loc cc0_scratch0) ↦[(sl256 s 0 h).view.set]{fullShare}
        ((sl256 s 0 h).view.write (Elt F) fd ((xM : Memref sig .tc .vmem S256x2048 .f32).view.read (Elt F) (xstg m c)) Finset.univ)) : sProp 𝕄)
      ⊢ (((d : Thread nD τ).loc cc0_scratch0) ↦[(sl256 s 0 h).view.set]{fullShare} commFinal m d) := by
  refine Entails.of_eq (pointsTo_congr fun i hi => ?_)
  obtain ⟨y, rfl⟩ := View.exists_emb_of_mem_set _ hi
  obtain ⟨p, q, rfl⟩ : ∃ (p : Fin 256) (q : Fin 2048), y = ValueIdx.ix2 p q := ⟨y 0, y 1, ValueIdx.eq_ix2 y⟩
  rw [View.write_emb_of_mem _ _ (Finset.mem_univ _), View.read_whole]
  exact (commFinal_at m d c _ p.val q.val s (emb_sl s 0 h _ p q 0) hog ((emb_sl s 0 h _ p q 1).trans (Nat.zero_add _)) (emb_sl s 0 h _ p q 2)).symm

/-- Rows relayed from slot `s` of `c` to the same rows of slot `s'` of `d` land `d`'s final contents when both slots hold one device's block. -/
theorem relay {n : ℕ} (s s' : Fin 7) (lo : ℕ) (h h' hq) (c d : Dev nD) (hog : og s c = og s' d)
    (fd : Buf (Elt F) ((d : Thread nD τ).loc cc0_scratch0)) :
    ((((d : Thread nD τ).loc cc0_scratch0) ↦[(sl n s' lo h' hq).view.set]{fullShare}
        ((sl n s' lo h' hq).view.write (Elt F) fd ((sl n s lo h hq).view.read (Elt F) (commFinal m c)) Finset.univ)) : sProp 𝕄)
      ⊢ (((d : Thread nD τ).loc cc0_scratch0) ↦[(sl n s' lo h' hq).view.set]{fullShare} commFinal m d) := by
  refine Entails.of_eq (pointsTo_congr fun i hi => ?_)
  obtain ⟨y, rfl⟩ := View.exists_emb_of_mem_set _ hi
  obtain ⟨p, q, rfl⟩ : ∃ (p : Fin n) (q : Fin 2048), y = ValueIdx.ix2 p q := ⟨y 0, y 1, ValueIdx.eq_ix2 y⟩
  rw [View.write_emb_of_mem _ _ (Finset.mem_univ _), View.read_apply]
  exact commFinal_congr m c d _ _ s s' (emb_sl s lo h hq p q 0) (emb_sl s' lo h' hq p q 0) hog
    ((emb_sl s lo h hq p q 1).trans (emb_sl s' lo h' hq p q 1).symm) ((emb_sl s lo h hq p q 2).trans (emb_sl s' lo h' hq p q 2).symm)

/-- What transfer `j` lands on its addressee is the addressee's final contents there. -/
theorem land : ∀ (j : Fin 12) (c : Dev nD) (fd : Buf (Elt F) ((dstM j).view.loc (tgt j c : Thread nD τ))),
    (((dstM j).view.loc (tgt j c : Thread nD τ) ↦[(dstM j).view.set]{fullShare}
        ((dstM j).view.write (Elt F) fd ((srcM j).view.read (Elt F) (srcF m j c)) Finset.univ)) : sProp 𝕄) ⊢ recvPay m j (tgt j c) := by
  intro j; fin_cases j <;> intro c fd
  · exact land_x m 0 _ c _ ((by decide : ∀ c : Dev nD, og 0 (tgt 0 c) = c) c) fd
  · exact land_x m 1 _ c _ ((by decide : ∀ c : Dev nD, og 1 (tgt 1 c) = c) c) fd
  · exact land_x m 2 _ c _ ((by decide : ∀ c : Dev nD, og 2 (tgt 2 c) = c) c) fd
  · exact relay m 0 3 0 (by decide) (by decide) (by decide) c _ ((by decide : ∀ c : Dev nD, og 0 c = og 3 (tgt 3 c)) c) fd
  · exact relay m 0 4 0 (by decide) (by decide) (by decide) c _ ((by decide : ∀ c : Dev nD, og 0 c = og 4 (tgt 4 c)) c) fd
  · exact relay m 1 3 128 (by decide) (by decide) (by decide) c _ ((by decide : ∀ c : Dev nD, og 1 c = og 3 (tgt 5 c)) c) fd
  · exact relay m 1 5 0 (by decide) (by decide) (by decide) c _ ((by decide : ∀ c : Dev nD, og 1 c = og 5 (tgt 6 c)) c) fd
  · exact relay m 2 4 128 (by decide) (by decide) (by decide) c _ ((by decide : ∀ c : Dev nD, og 2 c = og 4 (tgt 7 c)) c) fd
  · exact relay m 2 5 128 (by decide) (by decide) (by decide) c _ ((by decide : ∀ c : Dev nD, og 2 c = og 5 (tgt 8 c)) c) fd
  · exact relay m 3 6 176 (by decide) (by decide) (by decide) c _ ((by decide : ∀ c : Dev nD, og 3 c = og 6 (tgt 9 c)) c) fd
  · exact relay m 4 6 88 (by decide) (by decide) (by decide) c _ ((by decide : ∀ c : Dev nD, og 4 c = og 6 (tgt 10 c)) c) fd
  · exact relay m 5 6 0 (by decide) (by decide) (by decide) c _ ((by decide : ∀ c : Dev nD, og 5 c = og 6 (tgt 11 c)) c) fd

end Cert.Kernel.AG

end
-- ==== Proof.Bits.Steps.lean ====
import proofs.«900494_g7700000000000495_dist_ag_gemm_m2048_k2048_n2048_f32_none_v7x_i8_1_alg».proof.Proof.Bits.Tables
import proofs.«900494_g7700000000000495_dist_ag_gemm_m2048_k2048_n2048_f32_none_v7x_i8_1_alg».proof.Proof.Bits.Landing

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 25 → ℕ)

instance records_persistent : BI.Persistent (records m K) := by unfold records; infer_instance

/-- A cell's invariant and its round-0 fact, out of the records. -/
theorem inv_at (ck : Dev nD × Fin 25) : records m K ⊢ cellInv ER (rd m) (K ck) (kcell ck) := by
  unfold records
  exact (BI.Entails.trans BI.sep_and and_elimL).trans (bigSep_elim (Finset.mem_univ ck))
theorem reached_at (ck : Dev nD × Fin 25) : records m K ⊢ reached ER (kcell ck) 0 := by
  unfold records
  exact (BI.Entails.trans BI.sep_and and_elimR).trans (bigSep_elim (Finset.mem_univ ck))

/-- The index, among a device's twenty-five cells, of the send and of the receive cell of transfer `j`. -/
abbrev kS : Fin 12 → Fin 25 := ![1, 2, 3, 7, 8, 9, 10, 11, 12, 21, 20, 19]
abbrev kR : Fin 12 → Fin 25 := ![4, 5, 6, 13, 14, 15, 16, 17, 18, 24, 23, 22]

theorem csem_send : ∀ j : Fin 12, csem (kS j) = .dma (sSem j) := by decide
theorem csem_recv : ∀ j : Fin 12, csem (kR j) = .dma (rSem j) := by decide
theorem kcell_send (j : Fin 12) (c : Dev nD) : kcell (c, kS j) = sendCell j c := by show (_, _) = (_, _); rw [csem_send]
theorem kcell_recv (j : Fin 12) (c : Dev nD) : kcell (c, kR j) = recvCell j c := by show (_, _) = (_, _); rw [csem_recv]
theorem inv_bar (c : Dev nD) : records m K ⊢ cellInv ER (rd m) (K (c, 0)) (barCell c) := inv_at m K (c, 0)
theorem inv_send (j : Fin 12) (c : Dev nD) : records m K ⊢ cellInv ER (rd m) (K (c, kS j)) (sendCell j c) := by
  have h := inv_at m K (c, kS j); rwa [kcell_send] at h
theorem inv_recv (j : Fin 12) (c : Dev nD) : records m K ⊢ cellInv ER (rd m) (K (c, kR j)) (recvCell j c) := by
  have h := inv_at m K (c, kR j); rwa [kcell_recv] at h
theorem reached_bar (c : Dev nD) : records m K ⊢ reached ER (barCell c) 0 := reached_at m K (c, 0)
theorem reached_send (j : Fin 12) (c : Dev nD) : records m K ⊢ reached ER (sendCell j c) 0 := by
  have h := reached_at m K (c, kS j); rwa [kcell_send] at h
theorem reached_recv (j : Fin 12) (c : Dev nD) : records m K ⊢ reached ER (recvCell j c) 0 := by
  have h := reached_at m K (c, kR j); rwa [kcell_recv] at h

/-- The unit signalled to the neighbour along `a` pays duty `a` of its barrier cell, handing over the parts of `c`'s scratch it will write. -/
theorem step_signal (c n : Dev nD) (a : Fin 3) (hn : n = nbr a c)
    {α : Type} {Q : α → sProp 𝕄} {k : PUnit → Prog (TpuEff nD τ sig (Elt F) Λ₀ .tc) α}
    (O : CellTallies nD τ sig Unit) (W : Waits sig Unit) :
    iprop(records m K ∗ owes (c : Thread nD τ) (O + tallyAt (barCell (nbr a c)) () 1) W
        ∗ dutyTok ER (barCell (nbr a c)) 0 a ∗ barPay (F := F) (nbr a c) a)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#Hrec, HO, Htok, Hpay⟩
  iapply (Rounds.wp_signal 𝒱₀ ER (rd m) (c : Thread nD τ) none (dst := (nbr a c : Thread nD τ)) (κ := K (nbr a c, 0))
      (d := a) (by rw [duties_bar]; exact Finset.mem_univ _) ((amount_bar m (nbr a c) a).trans (by decide)) () O rfl) $$ [HO Htok Hpay]
  isplitr; · iapply (inv_bar m K (nbr a c)); iexact Hrec
  isplitl [HO]; · iexact HO
  isplitl [Htok]; · iexact Htok
  isplitl [Hpay]; · rw [payload_bar]; iexact Hpay
  iapply (reached_bar m K (nbr a c)); iexact Hrec

/-- The wait for the three units of the own barrier cell, owing the twelve receive credits: each neighbour's part of its scratch comes with it. -/
theorem step_bar_wait (c : Dev nD)
    {α : Type} {Q : α → sProp 𝕄} {k : PUnit → Prog (TpuEff nD τ sig (Elt F) Λ₀ .tc) α}
    (W : Waits sig Unit) :
    iprop(records m K ∗ levAts L lv ∗ cred (tallyAt (barCell c) () 3) ∗ owes (c : Thread nD τ) (owedFrom c 0) W
        ∗ atPos ER (barCell c) 0 (∅ : Finset (Fin 3)) 0)
      ⊢ iprop(((owes (c : Thread nD τ) (owedFrom c 0) (insert (SemLoc.reg barS, ()) W) ∗ atPos ER (barCell c) 1 (∅ : Finset (Fin 3)) 0
              ∗ barPay (F := F) c 0 ∗ barPay (F := F) c 1 ∗ barPay (F := F) c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toNat) k) Q) := by
  iintro ⟨#Hrec, #Hlev, Hc, HO, Hat⟩ Hk
  iapply (Rounds.wp_wait_rest_token 𝒱₀ ER (rd m) (c : Thread nD τ) none (κ := K (c, 0))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk $$ [$]

omit [FloatOps F] in
/-- The elements transfer `j` writes, seen through the slice the transfer is addressed to. -/
theorem dstP_at (j : Fin 12) (d : Dev nD) (f : Buf (Elt F) ((d : Thread nD τ).loc cc0_scratch0)) :
    ∃ f' : Buf (Elt F) ((dstM j).view.loc (d : Thread nD τ)),
      (dstP j d f : sProp 𝕄) = ((dstM j).view.loc (d : Thread nD τ) ↦[(dstM j).view.set]{fullShare} f') := by
  fin_cases j <;> exact ⟨f, rfl⟩
theorem dst_credit (j : Fin 12) : (dstM j).view.dmaCredit = amt j := by fin_cases j <;> rfl

/-- Transfer `j` of `c`: its receive credit comes off what `c` owes, its send credit comes back, and what lands is the addressee's final contents (`land`). -/
theorem step_send (j : Fin 12) (c n : Dev nD) (hn : n = tgt j c)
    {hsc : ((dstM j : Memref sig (Dev.tc n : Thread nD τ).2.kind .vmem (tS j) .f32)).view.ref.isScScratch = false}
    {hsrc : (srcM j).view.WordExact} {hdst : (dstM j).view.WordExact}
    {hsem : DmaTarget.Typed .vmem (.dma (rSem j)) (.remote (Dev.tc n : Thread nD τ) (dstM j) (.dma (sSem j)) hsc)}
    {α : Type} {Q : α → sProp 𝕄} {k : PUnit → Prog (TpuEff nD τ sig (Elt F) Λ₀ .tc) α}
    (O₀ O : CellTallies nD τ sig Unit) (hO : O₀ = O + tallyAt (recvCell j (tgt j c)) () (amt j)) (W : Waits sig Unit) :
    iprop(records m K ∗ srcP m j c ∗ (∃ f, dstP (F := F) j (tgt j c) f) ∗ owes (c : Thread nD τ) O₀ W
        ∗ dutyTok ER (sendCell j c) 0 (0 : Fin 3) ∗ dutyTok ER (recvCell j (tgt j c)) 0 (0 : Fin 3))
      ⊢ iprop(((cred (tallyAt (sendCell j c) () (amt j)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM j) (.remote (Dev.tc n : Thread nD τ) (dstM j) (.dma (sSem j)) hsc) (.dma (rSem j)) hsrc hdst hsem) k) Q) := by
  subst hn
  unfold srcP
  iintro ⟨#Hrec, Hs, ⟨%f, Hd⟩, HO, Ht₁, Ht₂⟩
  obtain ⟨fd, e⟩ := dstP_at (F := F) j (tgt j c) f
  ihave Hd := (Entails.of_eq e) $$ Hd
  iapply (Rounds.wp_send_pointsTo 𝒱₀ ER (rd m) (c : Thread nD τ) none (c' := (tgt j c : Thread nD τ)) (src := srcM j) (dst := dstM j) (q := srcQ j)
      (sS := .dma (sSem j)) (sem := .dma (rSem j))
      (fs := srcF m j c) (fd := fd) (κ₁ := K (c, kS j)) (κ₂ := K (tgt j c, kR j)) (r₁ := 0) (r₂ := 0) (d₁ := (0 : Fin 3)) (d₂ := (0 : Fin 3))
      (by rw [duties_send]; exact Finset.mem_singleton_self _) (by rw [duties_recv]; exact Finset.mem_singleton_self _)
      () () (amt j) (dst_credit j) (amount_send m j c 0) (amount_recv m j (tgt j c) 0) O hO (W := W)
      (by rw [payload_send]; exact BI.Entails.refl _) (by rw [payload_recv]; exact land m j c fd)) $$ [Hs Hd HO Ht₁ Ht₂]
  isplitr; · iapply (inv_send m K j c); iexact Hrec
  isplitr; · iapply (inv_recv m K j (tgt j c)); iexact Hrec
  isplitl [Hs]; · iexact Hs
  isplitl [Hd]; · iexact Hd
  isplitl [HO]; · iexact HO
  isplitl [Ht₁]; · iexact Ht₁
  isplitr; · iapply (reached_send m K j c); iexact Hrec
  isplitl [Ht₂]; · iexact Ht₂
  iapply (reached_recv m K j (tgt j c)); iexact Hrec

/-- The wait on the receive cell of transfer `j`, allowed by the levels: the elements it wrote, at their final contents. -/
theorem step_recv_wait (j : Fin 12) (c : Dev nD) {sp sp' : Space} {s s' : Shape} {e e' : EltTy} {κ' : Kind}
    {src : Memref sig .tc sp' s' e'} {dst : Memref sig κ' sp s e} {hs : src.view.WordExact} {hd : dst.view.WordExact}
    (hamt : dst.view.dmaCredit = amt j)
    {α : Type} {Q : α → sProp 𝕄} {k : PUnit → Prog (TpuEff nD τ sig (Elt F) Λ₀ .tc) α}
    (O : CellTallies nD τ sig Unit) (W : Waits sig Unit) (hmw : (levAts L lv : sProp 𝕄) ⊢ MayWait (c : Thread nD τ) (.dma (rSem j)) () O) :
    iprop(records m K ∗ levAts L lv ∗ cred (tallyAt (recvCell j c) () (amt j)) ∗ owes (c : Thread nD τ) O W
        ∗ atPos ER (recvCell j c) 0 (∅ : Finset (Fin 3)) 0)
      ⊢ iprop(((owes (c : Thread nD τ) O (insert (SemLoc.dma (rSem j), ()) W) ∗ atPos ER (recvCell j c) 1 (∅ : Finset (Fin 3)) 0 ∗ recvPay m j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rSem j) src dst hs hd) k) Q) := by
  rw [← hamt]
  iintro ⟨#Hrec, #Hlev, Hc, HO, Hat⟩ Hk
  iapply (Rounds.wp_wait_rest_token 𝒱₀ ER (rd m) (c : Thread nD τ) none (κ := K (c, kR j))
      (wpE_waitDma2_eq 𝒱₀ (c : Thread nD τ) none Set.univ) (Set.mem_univ _) () (O := O) (W := W) (R := 0) (m := 0) (T := ∅)
      (by rw [Nat.zero_add, expect_recv, hamt])) $$ [Hc HO Hat]
  · isplitr; · iapply (inv_recv m K j c); iexact Hrec
    isplitl [Hc]; · iexact Hc
    isplitl [HO]; · iexact HO
    isplitr; · iapply hmw; iexact Hlev
    iexact Hat
  iintro ⟨HO, Hat, -, Hpay⟩
  ihave Hp := (Entails.of_eq (rest_recv m j c)) $$ Hpay
  iapply Hk $$ [$]

/-- The wait on the send cell of transfer `j` once nothing is owed: the share of the source it read. -/
theorem step_send_wait_zero (j : Fin 12) (c : Dev nD) {sp sp' : Space} {s s' : Shape} {e e' : EltTy} {κ' : Kind}
    {src : Memref sig .tc sp' s' e'} {dst : Memref sig κ' sp s e} {hs : src.view.WordExact} {hd : dst.view.WordExact}
    (hamt : dst.view.dmaCredit = amt j)
    {α : Type} {Q : α → sProp 𝕄} {k : PUnit → Prog (TpuEff nD τ sig (Elt F) Λ₀ .tc) α}
    (W : Waits sig Unit) :
    iprop(records m K ∗ cred (tallyAt (sendCell j c) () (amt j)) ∗ owes (c : Thread nD τ) 0 W
        ∗ atPos ER (sendCell j c) 0 (∅ : Finset (Fin 3)) 0)
      ⊢ iprop(((owes (c : Thread nD τ) 0 (insert (SemLoc.dma (sSem j), ()) W) ∗ atPos ER (sendCell j c) 1 (∅ : Finset (Fin 3)) 0 ∗ srcP m j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sSem j) src dst hs hd) k) Q) := by
  rw [← hamt]
  iintro ⟨#Hrec, Hc, HO, Hat⟩ Hk
  iapply (Rounds.wp_wait_rest_token 𝒱₀ ER (rd m) (c : Thread nD τ) none (κ := K (c, kS j))
      (wpE_waitDma2_eq 𝒱₀ (c : Thread nD τ) none Set.univ) (Set.mem_univ _) () (O := 0) (W := W) (R := 0) (m := 0) (T := ∅)
      (by rw [Nat.zero_add, expect_send, hamt])) $$ [Hc HO Hat]
  · isplitr; · iapply (inv_send m K j c); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m j c)) $$ Hpay
  iapply Hk $$ [$]

/-- A cell at the start of round 1 closes: no later round has a duty, so its counter reads zero. -/
theorem step_close (ck : Dev nD × Fin 25) :
    iprop(records m K ∗ atPos ER (kcell ck) 1 (∅ : Finset (Fin 3)) 0) ⊢ iprop(|={Set.univ}=> semVal (kcell ck) 0) := by
  iintro ⟨#Hrec, Hat⟩
  iapply (Rounds.cell_close ER (rd m) (Set.mem_univ (K ck)) (fun h => h) (R := 1) (duties_later m (kcell ck)))
  isplitr; · iapply (inv_at m K ck); iexact Hrec
  iexact Hat
theorem step_close_send (j : Fin 12) (c : Dev nD) :
    iprop(records m K ∗ atPos ER (sendCell j c) 1 (∅ : Finset (Fin 3)) 0) ⊢ iprop(|={Set.univ}=> semVal (sendCell j c) 0) := by
  have h := step_close m K (c, kS j); rwa [kcell_send] at h
theorem step_close_recv (j : Fin 12) (c : Dev nD) :
    iprop(records m K ∗ atPos ER (recvCell j c) 1 (∅ : Finset (Fin 3)) 0) ⊢ iprop(|={Set.univ}=> semVal (recvCell j c) 0) := by
  have h := step_close m K (c, kR j); rwa [kcell_recv] at h

end Cert.Kernel.AG

end
-- ==== Proof.Bits.ValueK.lean ====
import proofs.«900494_g7700000000000495_dist_ag_gemm_m2048_k2048_n2048_f32_none_v7x_i8_1_alg».proof.Proof.Bits.Setup
import proofs.«900494_g7700000000000495_dist_ag_gemm_m2048_k2048_n2048_f32_none_v7x_i8_1_alg».proof.Proof.Bits.Mesh
import Idealize.ShloMosaic.Lib.Pipeline.Value
import Idealize.ShloMosaic.Lib.ValueIdx

noncomputable section

namespace Cert.Kernel.AG

open Cert.Kernel Cert.Kernel.Gen
open Idealize.ShloMosaic Idealize.ShloMosaic.TcCoe Idealize.SL.Sem
open Idealize.ShloMosaic.ValueIdx

variable {F : FTy → Type} [FloatOps F]

theorem zeros2 : (![0, 0] : Fin 2 → Nat) = fun _ => 0 := funext fun a => by fin_cases a <;> rfl

theorem read_x (f : (cc0_stg0_0 : Ref sig .tc).ty.Contents (Elt F)) :
    (xM : Memref sig .tc .vmem S256x2048 .f32).view.readAt (Elt F)
      (Rect.unit (s := S256x2048) ![0, 0] S256x2048.size inb_S256x2048_S256x2048_0_0).toLoadRect f = f :=
  Memref.readAt_unit_zero (Elt F) cc0_stg0_0 zeros2 _ f

theorem read_w (f : (cc0_stg1_0 : Ref sig .tc).ty.Contents (Elt F)) :
    (wM : Memref sig .tc .vmem S2048x256 .f32).view.readAt (Elt F)
      (Rect.unit (s := S2048x256) ![0, 0] S2048x256.size inb_S2048x256_S2048x256_0_0).toLoadRect f = f :=
  Memref.readAt_unit_zero (Elt F) cc0_stg1_0 zeros2 _ f

/-- A load of slot `s` off the final contents reads the row block of `x` of `og s c`. -/
theorem read_slot (m : (ℓ : Loc nD τ sig) → Buf (Elt F) ℓ) (c : Dev nD) (k : ℕ) (hk : k < 7)
    (inb : ∀ a, (![k, 0, 0] : Fin 3 → Nat) a + S1x256x2048.size a ≤ S7x256x2048.size a) :
    shapeCast S256x2048
      ((cM : Memref sig .tc .vmem S7x256x2048 .f32).view.readAt (Elt F)
        (Rect.unit (s := S7x256x2048) ![k, 0, 0] S1x256x2048.size inb).toLoadRect (commFinal m c))
      shapeCasts_S1x256x2048_S256x2048 = xstg m (og ⟨k, hk⟩ c) := by
  funext j
  rw [shapeCast_dropUnit_apply (n := 2) ![256, 2048]]
  rw [View.readAt_apply, View.read_apply]
  show commFinal m c _ = _
  unfold commFinal
  have key : ∀ (I : S7x256x2048.Idx), (I 0).val = k → (I 1).val = (j 0).val → (I 2).val = (j 1).val →
      xstg m (og (I 0) c) (ix2 (I 1) (I 2)) = xstg m (og ⟨k, hk⟩ c) j := by
    intro I h0 h1 h2
    have e0 : I 0 = (⟨k, hk⟩ : Fin 7) := Fin.ext h0
    have e1 : (ix2 (I 1) (I 2) : S256x2048.Idx) = j :=
      funext fun a => Fin.ext (match a with | ⟨0, _⟩ => h1 | ⟨1, _⟩ => h2)
    exact (congrArg (fun d => xstg m (og d c) (ix2 (I 1) (I 2))) e0).trans (congrArg (xstg m (og ⟨k, hk⟩ c)) e1)
  refine key _ ?_ ?_ ?_
  · show k + 1 * 0 = k; omega
  · show 0 + 1 * (j 0).val = (j 0).val; omega
  · show 0 + 1 * (j 1).val = (j 1).val; omega

theorem pay_slot (m : (ℓ : Loc nD τ sig) → Buf (Elt F) ℓ) (c : Dev nD) (k : ℕ) (hk : k < 7)
    (inb : ∀ a, (![k, 0, 0] : Fin 3 → Nat) a + S1x256x2048.size a ≤ S7x256x2048.size a) (w : Vec F S2048x256 .f32) :
    matmul dot_S256x2048_S2048x256_S256x256_1_0_0_1_n_n none
      (shapeCast S256x2048
        ((cM : Memref sig .tc .vmem S7x256x2048 .f32).view.readAt (Elt F)
          (Rect.unit (s := S7x256x2048) ![k, 0, 0] S1x256x2048.size inb).toLoadRect (commFinal m c))
        shapeCasts_S1x256x2048_S256x2048)
      (shapeCast S2048x256 w shapeCasts_S2048x256_S2048x256) (constant S256x256 .f32 0x00000000#32)
      = gemmBlk (xstg m (og ⟨k, hk⟩ c)) w := by
  rw [read_slot m c k hk inb, shapeCast_self]; rfl

theorem pay12_eq (x : Vec F S256x2048 .f32) (w : Vec F S2048x256 .f32) : k0_pay2 (k0_pay1 x) w = gemmBlk x w := by
  show matmul dot_S256x2048_S2048x256_S256x256_1_0_0_1_n_n none (shapeCast S256x2048 x shapeCasts_S256x2048_S256x2048)
    (shapeCast S2048x256 w shapeCasts_S2048x256_S2048x256) (constant S256x256 .f32 0x00000000#32) = _
  rw [shapeCast_self, shapeCast_self]; rfl

theorem pay3_eq (m : (ℓ : Loc nD τ sig) → Buf (Elt F) ℓ) (c : Dev nD) (w : Vec F S2048x256 .f32) :
    k0_pay3 ((cM : Memref sig .tc .vmem S7x256x2048 .f32).view.readAt (Elt F) (Rect.unit (s := S7x256x2048) ![0, 0, 0] S1x256x2048.size inb_S7x256x2048_S1x256x2048_0_0_0).toLoadRect (commFinal m c)) w
      = gemmBlk (xstg m (og 0 c)) w := pay_slot m c 0 (by decide) _ w
theorem pay4_eq (m : (ℓ : Loc nD τ sig) → Buf (Elt F) ℓ) (c : Dev nD) (w : Vec F S2048x256 .f32) :
    k0_pay4 ((cM : Memref sig .tc .vmem S7x256x2048 .f32).view.readAt (Elt F) (Rect.unit (s := S7x256x2048) ![1, 0, 0] S1x256x2048.size inb_S7x256x2048_S1x256x2048_1_0_0).toLoadRect (commFinal m c)) w
      = gemmBlk (xstg m (og 1 c)) w := pay_slot m c 1 (by decide) _ w
theorem pay5_eq (m : (ℓ : Loc nD τ sig) → Buf (Elt F) ℓ) (c : Dev nD) (w : Vec F S2048x256 .f32) :
    k0_pay5 ((cM : Memref sig .tc .vmem S7x256x2048 .f32).view.readAt (Elt F) (Rect.unit (s := S7x256x2048) ![2, 0, 0] S1x256x2048.size inb_S7x256x2048_S1x256x2048_2_0_0).toLoadRect (commFinal m c)) w
      = gemmBlk (xstg m (og 2 c)) w := pay_slot m c 2 (by decide) _ w
theorem pay6_eq (m : (ℓ : Loc nD τ sig) → Buf (Elt F) ℓ) (c : Dev nD) (w : Vec F S2048x256 .f32) :
    k0_pay6 ((cM : Memref sig .tc .vmem S7x256x2048 .f32).view.readAt (Elt F) (Rect.unit (s := S7x256x2048) ![3, 0, 0] S1x256x2048.size inb_S7x256x2048_S1x256x2048_3_0_0).toLoadRect (commFinal m c)) w
      = gemmBlk (xstg m (og 3 c)) w := pay_slot m c 3 (by decide) _ w
theorem pay78_eq (m : (ℓ : Loc nD τ sig) → Buf (Elt F) ℓ) (c : Dev nD) (w : Vec F S2048x256 .f32) :
    k0_pay8 (k0_pay7 ((cM : Memref sig .tc .vmem S7x256x2048 .f32).view.readAt (Elt F) (Rect.unit (s := S7x256x2048) ![4, 0, 0] S1x256x2048.size inb_S7x256x2048_S1x256x2048_4_0_0).toLoadRect (commFinal m c))) w
      = gemmBlk (xstg m (og 4 c)) w := pay_slot m c 4 (by decide) _ w
theorem pay9_eq (m : (ℓ : Loc nD τ sig) → Buf (Elt F) ℓ) (c : Dev nD) (w : Vec F S2048x256 .f32) :
    k0_pay9 ((cM : Memref sig .tc .vmem S7x256x2048 .f32).view.readAt (Elt F) (Rect.unit (s := S7x256x2048) ![5, 0, 0] S1x256x2048.size inb_S7x256x2048_S1x256x2048_5_0_0).toLoadRect (commFinal m c)) w
      = gemmBlk (xstg m (og 5 c)) w := pay_slot m c 5 (by decide) _ w
theorem pay10_eq (m : (ℓ : Loc nD τ sig) → Buf (Elt F) ℓ) (c : Dev nD) (w : Vec F S2048x256 .f32) :
    k0_pay10 ((cM : Memref sig .tc .vmem S7x256x2048 .f32).view.readAt (Elt F) (Rect.unit (s := S7x256x2048) ![6, 0, 0] S1x256x2048.size inb_S7x256x2048_S1x256x2048_6_0_0).toLoadRect (commFinal m c)) w
      = gemmBlk (xstg m (og 6 c)) w := pay_slot m c 6 (by decide) _ w

theorem write_blk (off : Fin 2 → Nat) (inb : ∀ a, off a + S256x256.size a ≤ S2048x256.size a) (d : Dev nD)
    (hoff : off = ![256 * d.val, 0]) (f : (cc0_stg2_0 : Ref sig .tc).ty.Contents (Elt F)) (v : FVec F S256x256 .f32)
    (i : S2048x256.Idx) :
    ((oM : Memref sig .tc .vmem S2048x256 .f32).access (Rect.unit (s := S2048x256) off S256x256.size inb) : View sig .tc _ _ _).write (Elt F) f v Finset.univ i
      = if (i 0).val / 256 = d.val then v (ix2 ⟨(i 0).val % 256, row_mod_lt (i 0)⟩ (i 1)) else f i := by
  subst hoff
  by_cases h : (i 0).val / 256 = d.val
  · rw [if_pos h]
    have hx : ((oM : Memref sig .tc .vmem S2048x256 .f32).access (Rect.unit (s := S2048x256) ![256 * d.val, 0] S256x256.size inb) : View sig .tc _ _ _).emb
        (ix2 ⟨(i 0).val % 256, row_mod_lt (i 0)⟩ (i 1)) = i := by
      funext a
      refine Fin.ext ?_
      match a with
      | ⟨0, _⟩ => show 256 * d.val + 1 * ((i 0).val % 256) = (i 0).val; have := Nat.div_add_mod (i 0).val 256; omega
      | ⟨1, _⟩ => show 0 + 1 * (i 1).val = (i 1).val; omega
    have hw := View.write_emb_of_mem (v := ((oM : Memref sig .tc .vmem S2048x256 .f32).access (Rect.unit (s := S2048x256) ![256 * d.val, 0] S256x256.size inb) : View sig .tc _ _ _))
      (Val := Elt F) f v (M := Finset.univ) (x := ix2 ⟨(i 0).val % 256, row_mod_lt (i 0)⟩ (i 1)) (Finset.mem_univ _)
    rw [hx] at hw
    rw [hw]; rfl
  · rw [if_neg h]
    refine View.write_of_not_mem (v := ((oM : Memref sig .tc .vmem S2048x256 .f32).access (Rect.unit (s := S2048x256) ![256 * d.val, 0] S256x256.size inb) : View sig .tc _ _ _))
      (Val := Elt F) f v Finset.univ ?_
    intro hmem
    rw [View.setOn, Finset.mem_map] at hmem
    obtain ⟨x, -, hx⟩ := hmem
    have h0 : 256 * d.val + 1 * (x 0).val = (i 0).val := congrArg (fun j : S2048x256.Idx => (j 0).val) hx
    have hlt : (x 0).val < 256 := (x 0).isLt
    exact h (by omega)

theorem og_cover : ∀ (c q : Dev nD), q.val = c.val ∨ q.val = (og 0 c).val ∨ q.val = (og 1 c).val ∨ q.val = (og 2 c).val
    ∨ q.val = (og 3 c).val ∨ q.val = (og 4 c).val ∨ q.val = (og 5 c).val ∨ q.val = (og 6 c).val := by decide

/-- The eight stores, one row block each, leave the result at `outAt`. -/
theorem out_writes (m : (ℓ : Loc nD τ sig) → Buf (Elt F) ℓ) (c : Dev nD) (f0 : (cc0_stg2_0 : Ref sig .tc).ty.Contents (Elt F)) :
    ((oM : Memref sig .tc .vmem S2048x256 .f32).access (Rect.unit (s := S2048x256) (k0_off8 c) S256x256.size (k0_off8_inb c)) : View sig .tc _ _ _).write (Elt F)
      (((oM : Memref sig .tc .vmem S2048x256 .f32).access (Rect.unit (s := S2048x256) (k0_off7 c) S256x256.size (k0_off7_inb c)) : View sig .tc _ _ _).write (Elt F)
        (((oM : Memref sig .tc .vmem S2048x256 .f32).access (Rect.unit (s := S2048x256) (k0_off6 c) S256x256.size (k0_off6_inb c)) : View sig .tc _ _ _).write (Elt F)
          (((oM : Memref sig .tc .vmem S2048x256 .f32).access (Rect.unit (s := S2048x256) (k0_off5 c) S256x256.size (k0_off5_inb c)) : View sig .tc _ _ _).write (Elt F)
            (((oM : Memref sig .tc .vmem S2048x256 .f32).access (Rect.unit (s := S2048x256) (k0_off4 c) S256x256.size (k0_off4_inb c)) : View sig .tc _ _ _).write (Elt F)
              (((oM : Memref sig .tc .vmem S2048x256 .f32).access (Rect.unit (s := S2048x256) (k0_off3 c) S256x256.size (k0_off3_inb c)) : View sig .tc _ _ _).write (Elt F)
                (((oM : Memref sig .tc .vmem S2048x256 .f32).access (Rect.unit (s := S2048x256) (k0_off2 c) S256x256.size (k0_off2_inb c)) : View sig .tc _ _ _).write (Elt F)
                  (((oM : Memref sig .tc .vmem S2048x256 .f32).access (Rect.unit (s := S2048x256) (k0_off1 c) S256x256.size (k0_off1_inb c)) : View sig .tc _ _ _).write (Elt F)
                    f0 (gemmBlk (xstg m c) (wstg m c)) Finset.univ)
                  (gemmBlk (xstg m (og 0 c)) (wstg m c)) Finset.univ)
                (gemmBlk (xstg m (og 1 c)) (wstg m c)) Finset.univ)
              (gemmBlk (xstg m (og 2 c)) (wstg m c)) Finset.univ)
            (gemmBlk (xstg m (og 3 c)) (wstg m c)) Finset.univ)
          (gemmBlk (xstg m (og 4 c)) (wstg m c)) Finset.univ)
        (gemmBlk (xstg m (og 5 c)) (wstg m c)) Finset.univ)
      (gemmBlk (xstg m (og 6 c)) (wstg m c)) Finset.univ
      = outAt m c := by
  funext i
  rw [write_blk _ _ (og 6 c) (off8_eq c), write_blk _ _ (og 5 c) (off7_eq c), write_blk _ _ (og 4 c) (off6_eq c),
    write_blk _ _ (og 3 c) (off5_eq c), write_blk _ _ (og 2 c) (off4_eq c), write_blk _ _ (og 1 c) (off3_eq c),
    write_blk _ _ (og 0 c) (off2_eq c), write_blk _ _ c (off1_eq c)]
  unfold outAt
  have hd : ∀ d : Dev nD, (i 0).val / 256 = d.val → (⟨(i 0).val / 256, dev_of_row_lt (i 0)⟩ : Dev nD) = d := fun d h => Fin.ext h
  split_ifs with h6 h5 h4 h3 h2 h1 h0 hc
  · rw [hd _ h6]
  · rw [hd _ h5]
  · rw [hd _ h4]
  · rw [hd _ h3]
  · rw [hd _ h2]
  · rw [hd _ h1]
  · rw [hd _ h0]
  · rw [hd _ hc]
  · exfalso
    rcases og_cover c ⟨(i 0).val / 256, dev_of_row_lt (i 0)⟩ with h | h | h | h | h | h | h | h
    · exact hc h
    · exact h0 h
    · exact h1 h
    · exact h2 h
    · exact h3 h
    · exact h4 h
    · exact h5 h
    · exact h6 h

end Cert.Kernel.AG

end
-- ==== Proof.Bits.CloseAll.lean ====
import proofs.«900494_g7700000000000495_dist_ag_gemm_m2048_k2048_n2048_f32_none_v7x_i8_1_alg».proof.Proof.Bits.Steps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin24 (Φ : Fin 24 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

/-- The twenty-four own cells of a device close at once. -/
theorem close_all (m : (ℓ : Loc nD τ sig) → Buf (Elt F) ℓ) (K : Dev nD × Fin 25 → ℕ) (c : Dev nD) :
    iprop(records m K
      ∗ (atPos ER (sendCell 0 c) 1 (∅ : Finset (Fin 3)) 0
      ∗ atPos ER (sendCell 1 c) 1 (∅ : Finset (Fin 3)) 0
      ∗ atPos ER (sendCell 2 c) 1 (∅ : Finset (Fin 3)) 0
      ∗ atPos ER (sendCell 3 c) 1 (∅ : Finset (Fin 3)) 0
      ∗ atPos ER (sendCell 4 c) 1 (∅ : Finset (Fin 3)) 0
      ∗ atPos ER (sendCell 5 c) 1 (∅ : Finset (Fin 3)) 0
      ∗ atPos ER (sendCell 6 c) 1 (∅ : Finset (Fin 3)) 0
      ∗ atPos ER (sendCell 7 c) 1 (∅ : Finset (Fin 3)) 0
      ∗ atPos ER (sendCell 8 c) 1 (∅ : Finset (Fin 3)) 0
      ∗ atPos ER (sendCell 9 c) 1 (∅ : Finset (Fin 3)) 0
      ∗ atPos ER (sendCell 10 c) 1 (∅ : Finset (Fin 3)) 0
      ∗ atPos ER (sendCell 11 c) 1 (∅ : Finset (Fin 3)) 0)
      ∗ (atPos ER (recvCell 0 c) 1 (∅ : Finset (Fin 3)) 0
      ∗ atPos ER (recvCell 1 c) 1 (∅ : Finset (Fin 3)) 0
      ∗ atPos ER (recvCell 2 c) 1 (∅ : Finset (Fin 3)) 0
      ∗ atPos ER (recvCell 3 c) 1 (∅ : Finset (Fin 3)) 0
      ∗ atPos ER (recvCell 4 c) 1 (∅ : Finset (Fin 3)) 0
      ∗ atPos ER (recvCell 5 c) 1 (∅ : Finset (Fin 3)) 0
      ∗ atPos ER (recvCell 6 c) 1 (∅ : Finset (Fin 3)) 0
      ∗ atPos ER (recvCell 7 c) 1 (∅ : Finset (Fin 3)) 0
      ∗ atPos ER (recvCell 8 c) 1 (∅ : Finset (Fin 3)) 0
      ∗ atPos ER (recvCell 9 c) 1 (∅ : Finset (Fin 3)) 0
      ∗ atPos ER (recvCell 10 c) 1 (∅ : Finset (Fin 3)) 0
      ∗ atPos ER (recvCell 11 c) 1 (∅ : Finset (Fin 3)) 0))
    ⊢ |={Set.univ}=> bigSep Finset.univ fun i : Fin 24 => semVal ((c : Thread nD τ), osem i) 0 := by
  rw [bigSep_fin24]
  iintro ⟨#HR, ⟨S0, S1, S2, S3, S4, S5, S6, S7, S8, S9, S10, S11⟩, R0, R1, R2, R3, R4, R5, R6, R7, R8, R9, R10, R11⟩
  imod (step_close_send m K 0 c) $$ [$] with VS0
  imod (step_close_send m K 1 c) $$ [$] with VS1
  imod (step_close_send m K 2 c) $$ [$] with VS2
  imod (step_close_send m K 3 c) $$ [$] with VS3
  imod (step_close_send m K 4 c) $$ [$] with VS4
  imod (step_close_send m K 5 c) $$ [$] with VS5
  imod (step_close_send m K 6 c) $$ [$] with VS6
  imod (step_close_send m K 7 c) $$ [$] with VS7
  imod (step_close_send m K 8 c) $$ [$] with VS8
  imod (step_close_send m K 9 c) $$ [$] with VS9
  imod (step_close_send m K 10 c) $$ [$] with VS10
  imod (step_close_send m K 11 c) $$ [$] with VS11
  imod (step_close_recv m K 0 c) $$ [$] with VR0
  imod (step_close_recv m K 1 c) $$ [$] with VR1
  imod (step_close_recv m K 2 c) $$ [$] with VR2
  imod (step_close_recv m K 3 c) $$ [$] with VR3
  imod (step_close_recv m K 4 c) $$ [$] with VR4
  imod (step_close_recv m K 5 c) $$ [$] with VR5
  imod (step_close_recv m K 6 c) $$ [$] with VR6
  imod (step_close_recv m K 7 c) $$ [$] with VR7
  imod (step_close_recv m K 8 c) $$ [$] with VR8
  imod (step_close_recv m K 9 c) $$ [$] with VR9
  imod (step_close_recv m K 10 c) $$ [$] with VR10
  imod (step_close_recv m K 11 c) $$ [$] with VR11
  imodintro
  isplitl [VS0]; · iexact VS0
  isplitl [VS1]; · iexact VS1
  isplitl [VS2]; · iexact VS2
  isplitl [VR0]; · iexact VR0
  isplitl [VR1]; · iexact VR1
  isplitl [VR2]; · iexact VR2
  isplitl [VS3]; · iexact VS3
  isplitl [VS4]; · iexact VS4
  isplitl [VS5]; · iexact VS5
  isplitl [VS6]; · iexact VS6
  isplitl [VS7]; · iexact VS7
  isplitl [VS8]; · iexact VS8
  isplitl [VR3]; · iexact VR3
  isplitl [VR4]; · iexact VR4
  isplitl [VR5]; · iexact VR5
  isplitl [VR6]; · iexact VR6
  isplitl [VR7]; · iexact VR7
  isplitl [VR8]; · iexact VR8
  isplitl [VS11]; · iexact VS11
  isplitl [VS10]; · iexact VS10
  isplitl [VS9]; · iexact VS9
  isplitl [VR11]; · iexact VR11
  isplitl [VR10]; · iexact VR10
  iexact VR9

end Cert.Kernel.AG

end
-- ==== Proof.Bits.Body.lean ====
import proofs.«900494_g7700000000000495_dist_ag_gemm_m2048_k2048_n2048_f32_none_v7x_i8_1_alg».proof.Proof.Bits.Setup
import proofs.«900494_g7700000000000495_dist_ag_gemm_m2048_k2048_n2048_f32_none_v7x_i8_1_alg».proof.Proof.Bits.Mesh
import proofs.«900494_g7700000000000495_dist_ag_gemm_m2048_k2048_n2048_f32_none_v7x_i8_1_alg».proof.Proof.Bits.Regions
import proofs.«900494_g7700000000000495_dist_ag_gemm_m2048_k2048_n2048_f32_none_v7x_i8_1_alg».proof.Proof.Bits.Tables
import proofs.«900494_g7700000000000495_dist_ag_gemm_m2048_k2048_n2048_f32_none_v7x_i8_1_alg».proof.Proof.Bits.Steps
import proofs.«900494_g7700000000000495_dist_ag_gemm_m2048_k2048_n2048_f32_none_v7x_i8_1_alg».proof.Proof.Bits.ValueK
import proofs.«900494_g7700000000000495_dist_ag_gemm_m2048_k2048_n2048_f32_none_v7x_i8_1_alg».proof.Proof.Bits.CloseAll

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

def bodyPre (K : Dev nD × Fin 25 → ℕ) (c : Dev nD) : sProp 𝕄 :=
  iprop((ghost m K c ∗ cred (tallyAt (barCell c) () 3)
      ∗ (bigSep Finset.univ fun j : Fin 12 => cred (tallyAt (recvCell j c) () (amt j))) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m c ∗ (dats m ρ 0 c).owesAt () t₀.succ ∗ stg c cc0_stg0_0 (xstg m c) ∗ stg c cc0_stg1_0 (wstg m c)
    ∗ stg c cc0_stg2_0 (outAt m c))

abbrev oRect (off : Fin 2 → ℕ) (h : ∀ a, off a + S256x256.size a ≤ S2048x256.size a) : Rect S2048x256 :=
  Rect.unit (s := S2048x256) off S256x256.size h

abbrev sRect (s : ℕ) (h : ∀ a, (![s, 0, 0] : Fin 3 → Nat) a + S1x256x2048.size a ≤ S7x256x2048.size a) : LoadRect S7x256x2048 :=
  (Rect.unit (s := S7x256x2048) ![s, 0, 0] S1x256x2048.size h).toLoadRect

abbrev wRect : LoadRect S2048x256 := (Rect.unit (s := S2048x256) ![0, 0] S2048x256.size inb_S2048x256_S2048x256_0_0).toLoadRect

abbrev slotV (c : Dev nD) (s : ℕ) (h : ∀ a, (![s, 0, 0] : Fin 3 → Nat) a + S1x256x2048.size a ≤ S7x256x2048.size a) : Vec F S1x256x2048 .f32 :=
  (cM : Memref sig .tc .vmem S7x256x2048 .f32).view.readAt (Elt F) (sRect s h) (commFinal m c)
abbrev wV (c : Dev nD) : Vec F S2048x256 .f32 :=
  (wM : Memref sig .tc .vmem S2048x256 .f32).view.readAt (Elt F) wRect (wstg m c)

abbrev ldS (c : Dev nD) (s : ℕ) (h : ∀ a, (![s, 0, 0] : Fin 3 → Nat) a + S1x256x2048.size a ≤ S7x256x2048.size a) (q : PosShare TreeShare) : sProp 𝕄 :=
  (cM : Memref sig .tc .vmem S7x256x2048 .f32).view.loc (c : Thread nD τ) ↦[(sl256 s 0 h : Memref sig .tc .vmem S256x2048 .f32).view.set]{q} commFinal m c

abbrev wP (c : Dev nD) : sProp 𝕄 := (((c : Thread nD τ).loc cc0_stg1_0) ↦{fullShare} wstg m c)
abbrev oP (c : Dev nD) (g : (cc0_stg2_0 : Ref sig .tc).ty.Contents (Elt F)) : sProp 𝕄 := (((c : Thread nD τ).loc cc0_stg2_0) ↦{fullShare} g)

/-- One block product: the slot and the column block of `w` are loaded, the rectangle of the result overwritten with the product. -/
theorem gemm_slot (c : Dev nD) (s : ℕ) (h : ∀ a, (![s, 0, 0] : Fin 3 → Nat) a + S1x256x2048.size a ≤ S7x256x2048.size a)
    (off : Fin 2 → ℕ) (hoff : ∀ a, off a + S256x256.size a ≤ S2048x256.size a) (q : PosShare TreeShare)
    (pay : Vec F S1x256x2048 .f32 → Vec F S2048x256 .f32 → FVec F S256x256 .f32)
    (g : (cc0_stg2_0 : Ref sig .tc).ty.Contents (Elt F))
    {hl1 hl2 hl3 hx hm} {α : Type} {Q : α → sProp 𝕄} {k : PUnit → Prog (TpuEff nD τ sig (Elt F) Λ₀ .tc) α} :
    iprop(ldS m c s h q ∗ wP m c ∗ oP c g)
      ⊢ iprop(((ldS m c s h q ∗ wP m c
              ∗ oP c (((oM : Memref sig .tc .vmem S2048x256 .f32).access (oRect off hoff) : View sig .tc _ _ _).write (Elt F) g (pay (slotV m c s h) (wV m c)) Finset.univ))
            -∗ wp frame (wpE (defs₀ (F := F)) 𝒱₀ c none) Set.univ (k ⟨⟩) Q)
          -∗ wp frame (wpE (defs₀ (F := F)) 𝒱₀ c none) Set.univ
            (.op (.load (cM : Memref sig .tc .vmem S7x256x2048 .f32) (sRect s h) hl1) fun v =>
              .op (.load (wM : Memref sig .tc .vmem S2048x256 .f32) wRect hl2) fun w =>
                .op (.load (oM : Memref sig .tc .vmem S2048x256 .f32) (oRect off hoff).toLoadRect hl3) fun _ =>
                  .op (.store (oM : Memref sig .tc .vmem S2048x256 .f32) (oRect off hoff) (pay v w) Finset.univ hx hm) k) Q) := by
  iintro ⟨Hs, Hw, Ho⟩ Hk
  iapply (wp_load 𝒱₀ (c : Thread nD τ) none Set.univ (m := cM) (by rw [load_set_eq])) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect off hoff) (Mk := Finset.univ) (Finset.subset_univ _)) $$ Ho; iintro Ho
  iapply Hk $$ [$]

abbrev TS (j : Fin 12) (c : Dev nD) : sProp 𝕄 := dutyTok ER (sendCell j c) 0 (0 : Fin 3)
abbrev TR (j : Fin 12) (c : Dev nD) : sProp 𝕄 := dutyTok ER (recvCell j (tgt j c)) 0 (0 : Fin 3)
abbrev CS (j : Fin 12) (c : Dev nD) : sProp 𝕄 := cred (tallyAt (sendCell j c) () (amt j))
abbrev CR (j : Fin 12) (c : Dev nD) : sProp 𝕄 := cred (tallyAt (recvCell j c) () (amt j))
abbrev AS (j : Fin 12) (c : Dev nD) (r : ℕ) : sProp 𝕄 := atPos ER (sendCell j c) r (∅ : Finset (Fin 3)) 0
abbrev AR (j : Fin 12) (c : Dev nD) (r : ℕ) : sProp 𝕄 := atPos ER (recvCell j c) r (∅ : Finset (Fin 3)) 0
abbrev DX (j : Fin 12) (c : Dev nD) : sProp 𝕄 := iprop(∃ f, dstP (F := F) j (tgt j c) f)
abbrev OW (c : Dev nD) (k : ℕ) (W : Waits sig Unit) : sProp 𝕄 := owes (c : Thread nD τ) (owedFrom c k) W
abbrev RS (j : Fin 12) : SemLoc sig × Unit := (SemLoc.dma (rSem j), ())
abbrev SS (j : Fin 12) : SemLoc sig × Unit := (SemLoc.dma (sSem j), ())
abbrev BS : SemLoc sig × Unit := (SemLoc.reg barS, ())

abbrev xRect : LoadRect S256x2048 := (Rect.unit (s := S256x2048) ![0, 0] S256x2048.size inb_S256x2048_S256x2048_0_0).toLoadRect
abbrev xV (c : Dev nD) : Vec F S256x2048 .f32 := (xM : Memref sig .tc .vmem S256x2048 .f32).view.readAt (Elt F) xRect (xstg m c)

abbrev oW (off : Fin 2 → ℕ) (hoff : ∀ a, off a + S256x256.size a ≤ S2048x256.size a) (g : (cc0_stg2_0 : Ref sig .tc).ty.Contents (Elt F))
    (v : FVec F S256x256 .f32) : (cc0_stg2_0 : Ref sig .tc).ty.Contents (Elt F) :=
  ((oM : Memref sig .tc .vmem S2048x256 .f32).access (oRect off hoff) : View sig .tc _ _ _).write (Elt F) g v Finset.univ

theorem barPay_0 (c : Dev nD) : barPay (F := F) c 0 = iprop(DX 0 c ∗ DX 5 c ∗ DX 7 c ∗ DX 11 c) := rfl
theorem barPay_1 (c : Dev nD) : barPay (F := F) c 1 = iprop(DX 1 c ∗ DX 3 c ∗ DX 8 c ∗ DX 10 c) := rfl
theorem barPay_2 (c : Dev nD) : barPay (F := F) c 2 = iprop(DX 2 c ∗ DX 4 c ∗ DX 6 c ∗ DX 9 c) := rfl

omit [FloatOps F] in
theorem OW_12 (c : Dev nD) (W : Waits sig Unit) : (OW (F := F) c 12 W) = owes (c : Thread nD τ) 0 W := rfl

omit [FloatOps F] in
theorem fin12_chain (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

omit [FloatOps F] in
theorem fin25_chain (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16
      ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

omit [FloatOps F] in
/-- A device's twenty-five positions, cell by cell in the order of the semaphores. -/
theorem atPos_cells (c : Dev nD) :
    (bigSep Finset.univ fun k : Fin 25 => (atPos ER (kcell (c, k)) 0 (∅ : Finset (Fin 3)) 0 : sProp 𝕄))
      = iprop(atPos ER (barCell c) 0 (∅ : Finset (Fin 3)) 0 ∗ AS 0 c 0 ∗ AS 1 c 0 ∗ AS 2 c 0 ∗ AR 0 c 0 ∗ AR 1 c 0 ∗ AR 2 c 0
          ∗ AS 3 c 0 ∗ AS 4 c 0 ∗ AS 5 c 0 ∗ AS 6 c 0 ∗ AS 7 c 0 ∗ AS 8 c 0 ∗ AR 3 c 0 ∗ AR 4 c 0 ∗ AR 5 c 0 ∗ AR 6 c 0 ∗ AR 7 c 0 ∗ AR 8 c 0
          ∗ AS 11 c 0 ∗ AS 10 c 0 ∗ AS 9 c 0 ∗ AR 11 c 0 ∗ AR 10 c 0 ∗ AR 9 c 0) := by
  rw [fin25_chain]; rfl

omit [FloatOps F] in
/-- The four parts of its own scratch `c` hands its neighbour along an axis with the barrier unit. -/
theorem barPay_give_0 (c : Dev nD) :
    iprop((∃ f, dstP (F := F) 0 c f) ∗ (∃ f, dstP (F := F) 5 c f) ∗ (∃ f, dstP (F := F) 7 c f) ∗ (∃ f, dstP (F := F) 11 c f)) ⊢ barPay (F := F) (nbr 0 c) 0 := by
  have h : barPay (F := F) (nbr 0 c) 0 = iprop((∃ f, dstP (F := F) 0 (nbr 0 (nbr 0 c)) f) ∗ (∃ f, dstP (F := F) 5 (nbr 0 (nbr 0 c)) f)
      ∗ (∃ f, dstP (F := F) 7 (nbr 0 (nbr 0 c)) f) ∗ (∃ f, dstP (F := F) 11 (nbr 0 (nbr 0 c)) f)) := rfl
  rw [h, nbr_nbr]
omit [FloatOps F] in
theorem barPay_give_1 (c : Dev nD) :
    iprop((∃ f, dstP (F := F) 1 c f) ∗ (∃ f, dstP (F := F) 3 c f) ∗ (∃ f, dstP (F := F) 8 c f) ∗ (∃ f, dstP (F := F) 10 c f)) ⊢ barPay (F := F) (nbr 1 c) 1 := by
  have h : barPay (F := F) (nbr 1 c) 1 = iprop((∃ f, dstP (F := F) 1 (nbr 1 (nbr 1 c)) f) ∗ (∃ f, dstP (F := F) 3 (nbr 1 (nbr 1 c)) f)
      ∗ (∃ f, dstP (F := F) 8 (nbr 1 (nbr 1 c)) f) ∗ (∃ f, dstP (F := F) 10 (nbr 1 (nbr 1 c)) f)) := rfl
  rw [h, nbr_nbr]
omit [FloatOps F] in
theorem barPay_give_2 (c : Dev nD) :
    iprop((∃ f, dstP (F := F) 2 c f) ∗ (∃ f, dstP (F := F) 4 c f) ∗ (∃ f, dstP (F := F) 6 c f) ∗ (∃ f, dstP (F := F) 9 c f)) ⊢ barPay (F := F) (nbr 2 c) 2 := by
  have h : barPay (F := F) (nbr 2 c) 2 = iprop((∃ f, dstP (F := F) 2 (nbr 2 (nbr 2 c)) f) ∗ (∃ f, dstP (F := F) 4 (nbr 2 (nbr 2 c)) f)
      ∗ (∃ f, dstP (F := F) 6 (nbr 2 (nbr 2 c)) f) ∗ (∃ f, dstP (F := F) 9 (nbr 2 (nbr 2 c)) f)) := rfl
  rw [h, nbr_nbr]

omit [FloatOps F] in
theorem x_whole_eq (c : Dev nD) :
    (((xM : Memref sig .tc .vmem S256x2048 .f32).view.loc (c : Thread nD τ) ↦[(xM : Memref sig .tc .vmem S256x2048 .f32).view.set]{fullShare} xstg m c) : sProp 𝕄)
      = (((c : Thread nD τ).loc cc0_stg0_0) ↦{fullShare} xstg m c) := by
  rw [xM_set]

set_option maxRecDepth 65536 in
/-- The body, stretch by stretch (`seg1` … `seg15`): signals and barrier wait, the one-hop sends, then per slot its receive wait, relays and product, last the send waits. -/
theorem seg1 (K : Dev nD × Fin 25 → ℕ) (c : Dev nD) (W : Waits sig Unit)
    (Kt : (Σ' (d0 : Dev nD) (v2 : BitVec 32) (v6 : BitVec 32) (v8 : BitVec 32) (v9 : BitVec 32) (v15 : BitVec 32) (v21 : BitVec 32) (v27 : BitVec 32), Sems sig S_) → sProp 𝕄) :
    iprop(records m K ∗ owes (c : Thread nD τ) (O₀ c) W ∗ dutyTok ER (barCell (nbr 0 c)) 0 (0 : Fin 3) ∗ dutyTok ER (barCell (nbr 1 c)) 0 (1 : Fin 3)
        ∗ barPay (F := F) (nbr 0 c) 0 ∗ barPay (F := F) (nbr 1 c) 1)
      ⊢ iprop((∀ v2 v6 v8 v9 v15 v21 v27, owes (c : Thread nD τ) (O₂ c) W -∗ Kt ⟨c, v2, v6, v8, v9, v15, v21, v27, SemArray.scalar (sig.barrier 0 rfl)⟩)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt) := by
  rw [k0_part1_eq_skeleton]; unfold k0_part1_skel
  simp only [semSignalWord, semWaitWord, Prog.lift, Prog.bind_op, Prog.bind_ret, Prog.pure_eq_ret, wp_deviceId]
  simp only [dev1_eq c, dev2_eq c]
  rw [show O₀ c = (O₂ c + tallyAt (barCell (nbr 1 c)) () 1) + tallyAt (barCell (nbr 0 c)) () 1 from rfl]
  iintro ⟨#Hrec, HO, HT0, HT1, HP0, HP1⟩ Hk
  iapply (step_signal m K c (nbr 0 c) 0 rfl (O₂ c + tallyAt (barCell (nbr 1 c)) () 1) W) $$ [$]
  iintro HO
  iapply (step_signal m K c (nbr 1 c) 1 rfl (O₂ c) W) $$ [$]
  iintro HO
  rw [wp_ret]; imodintro
  iapply Hk
  iexact HO

set_option maxRecDepth 65536 in
theorem seg2 (K : Dev nD × Fin 25 → ℕ) (c : Dev nD) (v15 v21 v27 : BitVec 32) (W : Waits sig Unit) (Kt : FVec F S256x2048 .f32 → sProp 𝕄) :
    iprop(records m K ∗ levAts L lv ∗ owes (c : Thread nD τ) (O₂ c) W ∗ dutyTok ER (barCell (nbr 2 c)) 0 (2 : Fin 3) ∗ barPay (F := F) (nbr 2 c) 2
        ∗ cred (tallyAt (barCell c) () 3) ∗ atPos ER (barCell c) 0 (∅ : Finset (Fin 3)) 0
        ∗ srcP m 0 c ∗ srcP m 1 c ∗ srcP m 2 c ∗ TS 0 c ∗ TR 0 c ∗ TS 1 c ∗ TR 1 c ∗ TS 2 c ∗ TR 2 c ∗ xLd m c)
      ⊢ iprop(((OW c 3 (insert BS W) ∗ atPos ER (barCell c) 1 (∅ : Finset (Fin 3)) 0 ∗ CS 0 c ∗ CS 1 c ∗ CS 2 c
              ∗ DX 3 c ∗ DX 4 c ∗ DX 5 c ∗ DX 6 c ∗ DX 7 c ∗ DX 8 c ∗ DX 9 c ∗ DX 10 c ∗ DX 11 c ∗ xLd m c) -∗ Kt (k0_pay1 (xV m c)))
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27 (SemArray.scalar (sig.barrier 0 rfl))) Kt) := by
  rw [k0_part2_eq_skeleton]; unfold k0_part2_skel
  simp only [semSignalWord, semWaitWord, Prog.lift, Prog.bind_op, Prog.bind_ret, Prog.pure_eq_ret]
  simp only [dev3_eq c]
  rw [show O₂ c = owedFrom c 0 + tallyAt (barCell (nbr 2 c)) () 1 from rfl]
  iintro ⟨#Hrec, #Hlev, HO, HT2, HP2, HcB, HAB, HS0, HS1, HS2, HTS0, HTR0, HTS1, HTR1, HTS2, HTR2, HxL⟩ Hk
  iapply (step_signal m K c (nbr 2 c) 2 rfl (owedFrom c 0) W) $$ [$]
  iintro HO
  iapply (step_bar_wait m K c W) $$ [$]
  iintro ⟨HO, HAB, HB0, HB1, HB2⟩
  ihave HB0 := (Entails.of_eq (barPay_0 c)) $$ HB0
  ihave HB1 := (Entails.of_eq (barPay_1 c)) $$ HB1
  ihave HB2 := (Entails.of_eq (barPay_2 c)) $$ HB2
  icases HB0 with ⟨HD0, HD5, HD7, HD11⟩
  icases HB1 with ⟨HD1, HD3, HD8, HD10⟩
  icases HB2 with ⟨HD2, HD4, HD6, HD9⟩
  iapply (step_send m K 0 c _ (dev4_eq c) (owedFrom c 0) (owedFrom c 1) rfl (insert BS W)) $$ [$]
  iintro ⟨HCS0, HO⟩
  iapply (step_send m K 1 c _ (dev5_eq c) (owedFrom c 1) (owedFrom c 2) rfl (insert BS W)) $$ [$]
  iintro ⟨HCS1, HO⟩
  iapply (step_send m K 2 c _ (dev6_eq c) (owedFrom c 2) (owedFrom c 3) rfl (insert BS W)) $$ [$]
  iintro ⟨HCS2, HO⟩
  unfold xLd
  iapply (wp_load 𝒱₀ (c : Thread nD τ) none Set.univ (m := xM) (by rw [xM_set]; exact Finset.subset_univ _)) $$ HxL; iintro HxL
  rw [wp_ret]; imodintro
  iapply Hk $$ [$]

set_option maxRecDepth 65536 in
theorem seg3 (K : Dev nD × Fin 25 → ℕ) (c : Dev nD) (v2 v15 v21 v27 : BitVec 32) (v60 : FVec F S256x2048 .f32) (W : Waits sig Unit)
    (g : (cc0_stg2_0 : Ref sig .tc).ty.Contents (Elt F)) (R : sProp 𝕄) (hs : recvPay m 0 c ⊢ iprop(srcP m 3 c ∗ R)) (Kt : PUnit → sProp 𝕄) :
    iprop(records m K ∗ levAts L lv ∗ wP m c ∗ oP c g ∗ CR 0 c ∗ AR 0 c 0 ∗ OW c 3 W ∗ TS 3 c ∗ TR 3 c ∗ DX 3 c)
      ⊢ iprop(((wP m c ∗ oP c (oW (k0_off1 c) (k0_off1_inb c) g (k0_pay2 v60 (wV m c))) ∗ AR 0 c 1 ∗ OW c 4 (insert (RS 0) W) ∗ CS 3 c ∗ R) -∗ Kt ⟨⟩)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v2 v15 v21 v27 v60) Kt) := by
  rw [k0_part3_eq_skeleton]; unfold k0_part3_skel
  simp only [semSignalWord, semWaitWord, Prog.lift, Prog.bind_op, Prog.bind_ret, Prog.pure_eq_ret]
  iintro ⟨#Hrec, #Hlev, Hw, Ho, HCR0, HAR0, HO, HTS3, HTR3, HD3⟩ Hk
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect (k0_off1 c) (k0_off1_inb c)) (Mk := Finset.univ) (Finset.subset_univ _)) $$ Ho; iintro Ho
  iapply (step_recv_wait m K 0 c (by rfl) (owedFrom c 3) W (mayWait_recv 0 c 3 (by decide))) $$ [$]
  iintro ⟨HO, HAR0, HRP0⟩
  ihave HR := hs $$ HRP0
  icases HR with ⟨HS3, HR⟩
  iapply (step_send m K 3 c _ (dev7_eq c) (owedFrom c 3) (owedFrom c 4) rfl (insert (RS 0) W)) $$ [$]
  iintro ⟨HCS3, HO⟩
  rw [wp_ret]; imodintro
  iapply Hk $$ [$]

set_option maxRecDepth 65536 in
theorem seg4 (K : Dev nD × Fin 25 → ℕ) (c : Dev nD) (v15 v21 v27 : BitVec 32) (W : Waits sig Unit)
    (R : sProp 𝕄) (hs : recvPay m 1 c ⊢ iprop(srcP m 5 c ∗ R)) (Kt : PUnit → sProp 𝕄) :
    iprop(records m K ∗ levAts L lv ∗ OW c 4 W ∗ srcP m 4 c ∗ DX 4 c ∗ TS 4 c ∗ TR 4 c ∗ CR 1 c ∗ AR 1 c 0 ∗ DX 5 c ∗ TS 5 c ∗ TR 5 c)
      ⊢ iprop(((OW c 6 (insert (RS 1) W) ∗ CS 4 c ∗ AR 1 c 1 ∗ CS 5 c ∗ R) -∗ Kt ⟨⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27) Kt) := by
  rw [k0_part4_eq_skeleton]; unfold k0_part4_skel
  simp only [semSignalWord, semWaitWord, Prog.lift, Prog.bind_op, Prog.bind_ret, Prog.pure_eq_ret]
  iintro ⟨#Hrec, #Hlev, HO, HS4, HD4, HTS4, HTR4, HCR1, HAR1, HD5, HTS5, HTR5⟩ Hk
  iapply (step_send m K 4 c _ (dev8_eq c) (owedFrom c 4) (owedFrom c 5) rfl W) $$ [$]
  iintro ⟨HCS4, HO⟩
  iapply (step_recv_wait m K 1 c (by rfl) (owedFrom c 5) W (mayWait_recv 1 c 5 (by decide))) $$ [$]
  iintro ⟨HO, HAR1, HRP1⟩
  ihave HR := hs $$ HRP1
  icases HR with ⟨HS5, HR⟩
  iapply (step_send m K 5 c _ (dev9_eq c) (owedFrom c 5) (owedFrom c 6) rfl (insert (RS 1) W)) $$ [$]
  iintro ⟨HCS5, HO⟩
  rw [wp_ret]; imodintro
  iapply Hk $$ [$]

set_option maxRecDepth 65536 in
theorem seg5 (K : Dev nD × Fin 25 → ℕ) (c : Dev nD) (v15 v21 v27 : BitVec 32) (W : Waits sig Unit)
    (R : sProp 𝕄) (hs : recvPay m 2 c ⊢ iprop(srcP m 7 c ∗ srcP m 8 c ∗ R)) (Kt : PUnit → sProp 𝕄) :
    iprop(records m K ∗ levAts L lv ∗ OW c 6 W ∗ srcP m 6 c ∗ DX 6 c ∗ TS 6 c ∗ TR 6 c ∗ CR 2 c ∗ AR 2 c 0
        ∗ DX 7 c ∗ TS 7 c ∗ TR 7 c ∗ DX 8 c ∗ TS 8 c ∗ TR 8 c)
      ⊢ iprop(((OW c 9 (insert (RS 2) W) ∗ CS 6 c ∗ AR 2 c 1 ∗ CS 7 c ∗ CS 8 c ∗ R) -∗ Kt ⟨⟩)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27) Kt) := by
  rw [k0_part5_eq_skeleton]; unfold k0_part5_skel
  simp only [semSignalWord, semWaitWord, Prog.lift, Prog.bind_op, Prog.bind_ret, Prog.pure_eq_ret]
  iintro ⟨#Hrec, #Hlev, HO, HS6, HD6, HTS6, HTR6, HCR2, HAR2, HD7, HTS7, HTR7, HD8, HTS8, HTR8⟩ Hk
  iapply (step_send m K 6 c _ (dev10_eq c) (owedFrom c 6) (owedFrom c 7) rfl W) $$ [$]
  iintro ⟨HCS6, HO⟩
  iapply (step_recv_wait m K 2 c (by rfl) (owedFrom c 7) W (mayWait_recv 2 c 7 (by decide))) $$ [$]
  iintro ⟨HO, HAR2, HRP2⟩
  ihave HR := hs $$ HRP2
  icases HR with ⟨HS7, HS8, HR⟩
  iapply (step_send m K 7 c _ (dev11_eq c) (owedFrom c 7) (owedFrom c 8) rfl (insert (RS 2) W)) $$ [$]
  iintro ⟨HCS7, HO⟩
  iapply (step_send m K 8 c _ (dev12_eq c) (owedFrom c 8) (owedFrom c 9) rfl (insert (RS 2) W)) $$ [$]
  iintro ⟨HCS8, HO⟩
  rw [wp_ret]; imodintro
  iapply Hk $$ [$]

set_option maxRecDepth 65536 in
theorem seg6 (c : Dev nD) (v6 v8 v9 : BitVec 32) (q0 q1 : PosShare TreeShare) (g : (cc0_stg2_0 : Ref sig .tc).ty.Contents (Elt F))
    (Kt : (Σ' (v176 : BitVec 32), BitVec 32) → sProp 𝕄) :
    iprop(ldS m c 0 inb_S7x256x2048_S1x256x2048_0_0_0 q0 ∗ ldS m c 1 inb_S7x256x2048_S1x256x2048_1_0_0 q1 ∗ wP m c ∗ oP c g)
      ⊢ iprop((∀ r, (ldS m c 0 inb_S7x256x2048_S1x256x2048_0_0_0 q0 ∗ ldS m c 1 inb_S7x256x2048_S1x256x2048_1_0_0 q1 ∗ wP m c
              ∗ oP c (oW (k0_off3 c) (k0_off3_inb c) (oW (k0_off2 c) (k0_off2_inb c) g (k0_pay3 (slotV m c 0 inb_S7x256x2048_S1x256x2048_0_0_0) (wV m c)))
                  (k0_pay4 (slotV m c 1 inb_S7x256x2048_S1x256x2048_1_0_0) (wV m c)))) -∗ Kt r)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v6 v8 v9) Kt) := by
  rw [k0_part6_eq_skeleton]; unfold k0_part6_skel
  simp only [semSignalWord, semWaitWord, Prog.lift, Prog.bind_op, Prog.bind_ret, Prog.pure_eq_ret]
  iintro ⟨H0, H1, Hw, Ho⟩ Hk
  iapply (gemm_slot m c 0 _ _ _ q0 k0_pay3 g) $$ [$]
  iintro ⟨H0, Hw, Ho⟩
  iapply (gemm_slot m c 1 _ _ _ q1 k0_pay4 _) $$ [$]
  iintro ⟨H1, Hw, Ho⟩
  rw [wp_ret]; imodintro
  iapply Hk $$ [$]

set_option maxRecDepth 65536 in
theorem seg7 (K : Dev nD × Fin 25 → ℕ) (c : Dev nD) (v15 v21 v176 v177 : BitVec 32) (q : PosShare TreeShare) (W : Waits sig Unit)
    (g : (cc0_stg2_0 : Ref sig .tc).ty.Contents (Elt F)) (Kt : PUnit → sProp 𝕄) :
    iprop(records m K ∗ levAts L lv ∗ ldS m c 2 inb_S7x256x2048_S1x256x2048_2_0_0 q ∗ wP m c ∗ oP c g ∗ CR 3 c ∗ AR 3 c 0 ∗ CR 5 c ∗ AR 5 c 0 ∗ OW c 9 W)
      ⊢ iprop(((ldS m c 2 inb_S7x256x2048_S1x256x2048_2_0_0 q ∗ wP m c ∗ oP c (oW (k0_off4 c) (k0_off4_inb c) g (k0_pay5 (slotV m c 2 inb_S7x256x2048_S1x256x2048_2_0_0) (wV m c)))
              ∗ OW c 9 (insert (RS 5) (insert (RS 3) W)) ∗ AR 3 c 1 ∗ AR 5 c 1 ∗ recvPay m 3 c ∗ recvPay m 5 c) -∗ Kt ⟨⟩)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v176 v177) Kt) := by
  rw [k0_part7_eq_skeleton]; unfold k0_part7_skel
  simp only [semSignalWord, semWaitWord, Prog.lift, Prog.bind_op, Prog.bind_ret, Prog.pure_eq_ret]
  iintro ⟨#Hrec, #Hlev, H2, Hw, Ho, HCR3, HAR3, HCR5, HAR5, HO⟩ Hk
  iapply (gemm_slot m c 2 _ _ _ q k0_pay5 g) $$ [$]
  iintro ⟨H2, Hw, Ho⟩
  iapply (step_recv_wait m K 3 c (by rfl) (owedFrom c 9) W (mayWait_recv 3 c 9 (by decide))) $$ [$]
  iintro ⟨HO, HAR3, HRP3⟩
  iapply (step_recv_wait m K 5 c (by rfl) (owedFrom c 9) (insert (RS 3) W) (mayWait_recv 5 c 9 (by decide))) $$ [$]
  iintro ⟨HO, HAR5, HRP5⟩
  rw [wp_ret]; imodintro
  iapply Hk $$ [$]

set_option maxRecDepth 65536 in
theorem seg8 (K : Dev nD × Fin 25 → ℕ) (c : Dev nD) (v15 v27 : BitVec 32) (W : Waits sig Unit) (Kt : BitVec 32 → sProp 𝕄) :
    iprop(records m K ∗ levAts L lv ∗ OW c 9 W ∗ srcP m 9 c ∗ DX 9 c ∗ TS 9 c ∗ TR 9 c ∗ CR 4 c ∗ AR 4 c 0 ∗ CR 7 c ∗ AR 7 c 0)
      ⊢ iprop((∀ r, (OW c 10 (insert (RS 7) (insert (RS 4) W)) ∗ CS 9 c ∗ AR 4 c 1 ∗ AR 7 c 1 ∗ recvPay m 4 c ∗ recvPay m 7 c) -∗ Kt r)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v27) Kt) := by
  rw [k0_part8_eq_skeleton]; unfold k0_part8_skel
  simp only [semSignalWord, semWaitWord, Prog.lift, Prog.bind_op, Prog.bind_ret, Prog.pure_eq_ret]
  iintro ⟨#Hrec, #Hlev, HO, HS9, HD9, HTS9, HTR9, HCR4, HAR4, HCR7, HAR7⟩ Hk
  iapply (step_send m K 9 c _ (dev13_eq c) (owedFrom c 9) (owedFrom c 10) rfl W) $$ [$]
  iintro ⟨HCS9, HO⟩
  iapply (step_recv_wait m K 4 c (by rfl) (owedFrom c 10) W (mayWait_recv 4 c 10 (by decide))) $$ [$]
  iintro ⟨HO, HAR4, HRP4⟩
  iapply (step_recv_wait m K 7 c (by rfl) (owedFrom c 10) (insert (RS 4) W) (mayWait_recv 7 c 10 (by decide))) $$ [$]
  iintro ⟨HO, HAR7, HRP7⟩
  rw [wp_ret]; imodintro
  iapply Hk $$ [$]

set_option maxRecDepth 65536 in
theorem seg9 (K : Dev nD × Fin 25 → ℕ) (c : Dev nD) (v15 v21 v27 c1 : BitVec 32) (W : Waits sig Unit) (Kt : BitVec 32 → sProp 𝕄) :
    iprop(records m K ∗ levAts L lv ∗ OW c 10 W ∗ srcP m 10 c ∗ DX 10 c ∗ TS 10 c ∗ TR 10 c ∗ CR 6 c ∗ AR 6 c 0 ∗ CR 8 c ∗ AR 8 c 0)
      ⊢ iprop((∀ r, (OW c 11 (insert (RS 8) (insert (RS 6) W)) ∗ CS 10 c ∗ AR 6 c 1 ∗ AR 8 c 1 ∗ recvPay m 6 c ∗ recvPay m 8 c) -∗ Kt r)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v15 v21 v27 c1) Kt) := by
  rw [k0_part9_eq_skeleton]; unfold k0_part9_skel
  simp only [semSignalWord, semWaitWord, Prog.lift, Prog.bind_op, Prog.bind_ret, Prog.pure_eq_ret]
  iintro ⟨#Hrec, #Hlev, HO, HS10, HD10, HTS10, HTR10, HCR6, HAR6, HCR8, HAR8⟩ Hk
  iapply (step_send m K 10 c _ (dev14_eq c) (owedFrom c 10) (owedFrom c 11) rfl W) $$ [$]
  iintro ⟨HCS10, HO⟩
  iapply (step_recv_wait m K 6 c (by rfl) (owedFrom c 11) W (mayWait_recv 6 c 11 (by decide))) $$ [$]
  iintro ⟨HO, HAR6, HRP6⟩
  iapply (step_recv_wait m K 8 c (by rfl) (owedFrom c 11) (insert (RS 6) W) (mayWait_recv 8 c 11 (by decide))) $$ [$]
  iintro ⟨HO, HAR8, HRP8⟩
  rw [wp_ret]; imodintro
  iapply Hk $$ [$]

set_option maxRecDepth 65536 in
theorem seg10 (K : Dev nD × Fin 25 → ℕ) (c : Dev nD) (v6 v8 v9 v255 : BitVec 32) (q3 q4 : PosShare TreeShare) (W : Waits sig Unit)
    (g : (cc0_stg2_0 : Ref sig .tc).ty.Contents (Elt F)) (Kt : (Σ' (v286 : BitVec 32), FVec F S256x2048 .f32) → sProp 𝕄) :
    iprop(records m K ∗ OW c 11 W ∗ srcP m 11 c ∗ DX 11 c ∗ TS 11 c ∗ TR 11 c ∗ ldS m c 3 inb_S7x256x2048_S1x256x2048_3_0_0 q3 ∗ wP m c ∗ oP c g ∗ ldS m c 4 inb_S7x256x2048_S1x256x2048_4_0_0 q4)
      ⊢ iprop((∀ v286, (OW c 12 W ∗ CS 11 c ∗ ldS m c 3 inb_S7x256x2048_S1x256x2048_3_0_0 q3 ∗ wP m c
              ∗ oP c (oW (k0_off5 c) (k0_off5_inb c) g (k0_pay6 (slotV m c 3 inb_S7x256x2048_S1x256x2048_3_0_0) (wV m c))) ∗ ldS m c 4 inb_S7x256x2048_S1x256x2048_4_0_0 q4)
            -∗ Kt ⟨v286, k0_pay7 (slotV m c 4 inb_S7x256x2048_S1x256x2048_4_0_0)⟩)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v6 v8 v9 v255) Kt) := by
  rw [k0_part10_eq_skeleton]; unfold k0_part10_skel
  simp only [semSignalWord, semWaitWord, Prog.lift, Prog.bind_op, Prog.bind_ret, Prog.pure_eq_ret]
  iintro ⟨#Hrec, HO, HS11, HD11, HTS11, HTR11, H3, Hw, Ho, H4⟩ Hk
  iapply (step_send m K 11 c _ (dev15_eq c) (owedFrom c 11) (owedFrom c 12) rfl W) $$ [$]
  iintro ⟨HCS11, HO⟩
  iapply (gemm_slot m c 3 _ _ _ q3 k0_pay6 g) $$ [$]
  iintro ⟨H3, Hw, Ho⟩
  iapply (wp_load 𝒱₀ (c : Thread nD τ) none Set.univ (m := cM) (by rw [load_set_eq])) $$ H4; iintro H4
  rw [wp_ret]; imodintro
  iapply Hk $$ [$]

set_option maxRecDepth 65536 in
theorem seg11 (K : Dev nD × Fin 25 → ℕ) (c : Dev nD) (v6 v8 v9 v15 v286 : BitVec 32) (v288 : FVec F S256x2048 .f32) (q : PosShare TreeShare) (W : Waits sig Unit)
    (g : (cc0_stg2_0 : Ref sig .tc).ty.Contents (Elt F)) (Kt : PUnit → sProp 𝕄) :
    iprop(records m K ∗ levAts L lv ∗ wP m c ∗ oP c g ∗ ldS m c 5 inb_S7x256x2048_S1x256x2048_5_0_0 q ∗ CR 11 c ∗ AR 11 c 0 ∗ OW c 12 W)
      ⊢ iprop(((wP m c ∗ oP c (oW (k0_off7 c) (k0_off7_inb c) (oW (k0_off6 c) (k0_off6_inb c) g (k0_pay8 v288 (wV m c)))
                  (k0_pay9 (slotV m c 5 inb_S7x256x2048_S1x256x2048_5_0_0) (wV m c)))
              ∗ ldS m c 5 inb_S7x256x2048_S1x256x2048_5_0_0 q ∗ OW c 12 (insert (RS 11) W) ∗ AR 11 c 1 ∗ recvPay m 11 c) -∗ Kt ⟨⟩)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v6 v8 v9 v15 v286 v288) Kt) := by
  rw [k0_part11_eq_skeleton]; unfold k0_part11_skel
  simp only [semSignalWord, semWaitWord, Prog.lift, Prog.bind_op, Prog.bind_ret, Prog.pure_eq_ret]
  iintro ⟨#Hrec, #Hlev, Hw, Ho, H5, HCR11, HAR11, HO⟩ Hk
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect (k0_off6 c) (k0_off6_inb c)) (Mk := Finset.univ) (Finset.subset_univ _)) $$ Ho; iintro Ho
  iapply (gemm_slot m c 5 _ _ _ q k0_pay9 _) $$ [$]
  iintro ⟨H5, Hw, Ho⟩
  iapply (step_recv_wait m K 11 c (by rfl) (owedFrom c 12) W (mayWait_recv 11 c 12 (fun j' h => absurd j'.isLt (by omega)))) $$ [$]
  iintro ⟨HO, HAR11, HRP11⟩
  rw [wp_ret]; imodintro
  iapply Hk $$ [$]

set_option maxRecDepth 65536 in
theorem seg12 (K : Dev nD × Fin 25 → ℕ) (c : Dev nD) (v6 v8 v9 v21 v27 : BitVec 32) (q : PosShare TreeShare) (W : Waits sig Unit)
    (hs : iprop(recvPay m 11 c ∗ recvPay m 10 c ∗ recvPay m 9 c) ⊢ ldS m c 6 inb_S7x256x2048_S1x256x2048_6_0_0 q)
    (Kt : (Σ' (v341 : BitVec 32), FVec F S256x256 .f32) → sProp 𝕄) :
    iprop(records m K ∗ levAts L lv ∗ CR 10 c ∗ AR 10 c 0 ∗ CR 9 c ∗ AR 9 c 0 ∗ OW c 12 W ∗ recvPay m 11 c ∗ wP m c)
      ⊢ iprop((∀ v341, (OW c 12 (insert (RS 9) (insert (RS 10) W)) ∗ AR 10 c 1 ∗ AR 9 c 1 ∗ ldS m c 6 inb_S7x256x2048_S1x256x2048_6_0_0 q ∗ wP m c)
            -∗ Kt ⟨v341, k0_pay10 (slotV m c 6 inb_S7x256x2048_S1x256x2048_6_0_0) (wV m c)⟩)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 v6 v8 v9 v21 v27) Kt) := by
  rw [k0_part12_eq_skeleton]; unfold k0_part12_skel
  simp only [semSignalWord, semWaitWord, Prog.lift, Prog.bind_op, Prog.bind_ret, Prog.pure_eq_ret]
  iintro ⟨#Hrec, #Hlev, HCR10, HAR10, HCR9, HAR9, HO, HRP11, Hw⟩ Hk
  iapply (step_recv_wait m K 10 c (by rfl) (owedFrom c 12) W (mayWait_recv 10 c 12 (fun j' h => absurd j'.isLt (by omega)))) $$ [$]
  iintro ⟨HO, HAR10, HRP10⟩
  iapply (step_recv_wait m K 9 c (by rfl) (owedFrom c 12) (insert (RS 10) W) (mayWait_recv 9 c 12 (fun j' h => absurd j'.isLt (by omega)))) $$ [$]
  iintro ⟨HO, HAR9, HRP9⟩
  ihave H6 := hs $$ [$]
  iapply (wp_load 𝒱₀ (c : Thread nD τ) none Set.univ (m := cM) (by rw [load_set_eq])) $$ H6; iintro H6
  iapply (wp_load 𝒱₀ (c : Thread nD τ) none Set.univ (m := wM) (Finset.subset_univ _)) $$ Hw; iintro Hw
  rw [wp_ret]; imodintro
  iapply Hk $$ [$]

set_option maxRecDepth 65536 in
theorem seg13 (K : Dev nD × Fin 25 → ℕ) (c : Dev nD) (v341 : BitVec 32) (v346 : FVec F S256x256 .f32) (W : Waits sig Unit)
    (g : (cc0_stg2_0 : Ref sig .tc).ty.Contents (Elt F)) (Kt : PUnit → sProp 𝕄) :
    iprop(records m K ∗ oP c g ∗ owes (c : Thread nD τ) 0 W ∗ CS 0 c ∗ AS 0 c 0 ∗ CS 1 c ∗ AS 1 c 0 ∗ CS 2 c ∗ AS 2 c 0 ∗ CS 3 c ∗ AS 3 c 0)
      ⊢ iprop(((oP c (oW (k0_off8 c) (k0_off8_inb c) g v346) ∗ owes (c : Thread nD τ) 0 (insert (SS 3) (insert (SS 2) (insert (SS 1) (insert (SS 0) W))))
              ∗ AS 0 c 1 ∗ srcP m 0 c ∗ AS 1 c 1 ∗ srcP m 1 c ∗ AS 2 c 1 ∗ srcP m 2 c ∗ AS 3 c 1 ∗ srcP m 3 c) -∗ Kt ⟨⟩)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6 c v341 v346) Kt) := by
  rw [k0_part13_eq_skeleton]; unfold k0_part13_skel
  simp only [semSignalWord, semWaitWord, Prog.lift, Prog.bind_op, Prog.bind_ret, Prog.pure_eq_ret]
  iintro ⟨#Hrec, Ho, HO, HCS0, HAS0, HCS1, HAS1, HCS2, HAS2, HCS3, HAS3⟩ Hk
  iapply (wp_load 𝒱₀ (c : Thread nD τ) none Set.univ (m := oM) (Finset.subset_univ _)) $$ Ho; iintro Ho
  iapply (wp_store 𝒱₀ (c : Thread nD τ) none Set.univ (m := oM) (r := oRect (k0_off8 c) (k0_off8_inb c)) (Mk := Finset.univ) (Finset.subset_univ _)) $$ Ho; iintro Ho
  iapply (step_send_wait_zero m K 0 c (by rfl) W) $$ [$]
  iintro ⟨HO, HAS0, HSP0⟩
  iapply (step_send_wait_zero m K 1 c (by rfl) (insert (SS 0) W)) $$ [$]
  iintro ⟨HO, HAS1, HSP1⟩
  iapply (step_send_wait_zero m K 2 c (by rfl) (insert (SS 1) (insert (SS 0) W))) $$ [$]
  iintro ⟨HO, HAS2, HSP2⟩
  iapply (step_send_wait_zero m K 3 c (by rfl) (insert (SS 2) (insert (SS 1) (insert (SS 0) W)))) $$ [$]
  iintro ⟨HO, HAS3, HSP3⟩
  rw [wp_ret]; imodintro
  iapply Hk $$ [$]

set_option maxRecDepth 65536 in
theorem seg14 (K : Dev nD × Fin 25 → ℕ) (c : Dev nD) (W : Waits sig Unit) (Kt : PUnit → sProp 𝕄) :
    iprop(records m K ∗ owes (c : Thread nD τ) 0 W ∗ CS 4 c ∗ AS 4 c 0 ∗ CS 5 c ∗ AS 5 c 0 ∗ CS 6 c ∗ AS 6 c 0 ∗ CS 7 c ∗ AS 7 c 0)
      ⊢ iprop(((owes (c : Thread nD τ) 0 (insert (SS 7) (insert (SS 6) (insert (SS 5) (insert (SS 4) W))))
              ∗ AS 4 c 1 ∗ srcP m 4 c ∗ AS 5 c 1 ∗ srcP m 5 c ∗ AS 6 c 1 ∗ srcP m 6 c ∗ AS 7 c 1 ∗ srcP m 7 c) -∗ Kt ⟨⟩)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt) := by
  rw [k0_part14_eq_skeleton]; unfold k0_part14_skel
  simp only [semSignalWord, semWaitWord, Prog.lift, Prog.bind_op, Prog.bind_ret, Prog.pure_eq_ret]
  iintro ⟨#Hrec, HO, HCS4, HAS4, HCS5, HAS5, HCS6, HAS6, HCS7, HAS7⟩ Hk
  iapply (step_send_wait_zero m K 4 c (by rfl) W) $$ [$]
  iintro ⟨HO, HAS4, HSP4⟩
  iapply (step_send_wait_zero m K 5 c (by rfl) (insert (SS 4) W)) $$ [$]
  iintro ⟨HO, HAS5, HSP5⟩
  iapply (step_send_wait_zero m K 6 c (by rfl) (insert (SS 5) (insert (SS 4) W))) $$ [$]
  iintro ⟨HO, HAS6, HSP6⟩
  iapply (step_send_wait_zero m K 7 c (by rfl) (insert (SS 6) (insert (SS 5) (insert (SS 4) W)))) $$ [$]
  iintro ⟨HO, HAS7, HSP7⟩
  rw [wp_ret]; imodintro
  iapply Hk $$ [$]

set_option maxRecDepth 65536 in
theorem seg15 (K : Dev nD × Fin 25 → ℕ) (c : Dev nD) (W : Waits sig Unit) (Kt : PUnit → sProp 𝕄) :
    iprop(records m K ∗ owes (c : Thread nD τ) 0 W ∗ CS 8 c ∗ AS 8 c 0 ∗ CS 9 c ∗ AS 9 c 0 ∗ CS 10 c ∗ AS 10 c 0)
      ⊢ iprop(((owes (c : Thread nD τ) 0 (insert (SS 10) (insert (SS 9) (insert (SS 8) W)))
              ∗ AS 8 c 1 ∗ srcP m 8 c ∗ AS 9 c 1 ∗ srcP m 9 c ∗ AS 10 c 1 ∗ srcP m 10 c) -∗ Kt ⟨⟩)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt) := by
  rw [k0_part15_eq_skeleton]; unfold k0_part15_skel
  simp only [semSignalWord, semWaitWord, Prog.lift, Prog.bind_op, Prog.bind_ret, Prog.pure_eq_ret]
  iintro ⟨#Hrec, HO, HCS8, HAS8, HCS9, HAS9, HCS10, HAS10⟩ Hk
  iapply (step_send_wait_zero m K 8 c (by rfl) W) $$ [$]
  iintro ⟨HO, HAS8, HSP8⟩
  iapply (step_send_wait_zero m K 9 c (by rfl) (insert (SS 8) W)) $$ [$]
  iintro ⟨HO, HAS9, HSP9⟩
  iapply (step_send_wait_zero m K 10 c (by rfl) (insert (SS 9) (insert (SS 8) W))) $$ [$]
  iintro ⟨HO, HAS10, HSP10⟩
  rw [wp_ret]; imodintro
  iapply Hk $$ [$]

set_option maxRecDepth 65536 in
set_option maxHeartbeats 3200000 in
/-- The stretches in sequence, from what the launch deals a device to the obligation's postcondition. -/
theorem sound_body (K : Dev nD × Fin 25 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2 cc0_scratch3 cc0_scratch4 cc0_scratch5 cc0_scratch6) Kt := by
  rw [cc0_body_eq_skeleton]; unfold cc0_body_skel
  simp only [Prog.lift, Prog.bind_op, Prog.bind_ret, Prog.pure_eq_ret, wp_bind]
  unfold bodyPre ghost linear payToks
  iintro ⟨⟨⟨⟨#Hrec, HAT, HTB, HTX⟩, HcB, HCR, #Hlev, ⟨%f0, Hscr⟩⟩, Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch_0 t₀)]; rfl
  have hw : g1 = wstg m c := by rw [hg1]; unfold Dat.before; rw [if_pos (fetch_1 t₀)]; rfl
  subst hx; subst hw
  unfold Dat.owesAt Pipeline.owesWithin
  icases Ho with ⟨%W, %hW, HO⟩
  rw [show (dats m ρ 0 c).owed t₀.castSucc = O₀ c from rfl]
  ihave HAT' := (Entails.of_eq (atPos_cells c)) $$ HAT
  icases HAT' with ⟨HAB, HAS0, HAS1, HAS2, HAR0, HAR1, HAR2, HAS3, HAS4, HAS5, HAS6, HAS7, HAS8, HAR3, HAR4, HAR5, HAR6, HAR7, HAR8, HAS11, HAS10, HAS9, HAR11, HAR10, HAR9⟩
  ihave HTB' := (Entails.of_eq (bigSep_fin3 _)) $$ HTB
  icases HTB' with ⟨HT0, HT1, HT2⟩
  ihave HTX' := (Entails.of_eq (fin12_chain _)) $$ HTX
  icases HTX' with ⟨⟨HTS0, HTR0⟩, ⟨HTS1, HTR1⟩, ⟨HTS2, HTR2⟩, ⟨HTS3, HTR3⟩, ⟨HTS4, HTR4⟩, ⟨HTS5, HTR5⟩, ⟨HTS6, HTR6⟩, ⟨HTS7, HTR7⟩, ⟨HTS8, HTR8⟩, ⟨HTS9, HTR9⟩, ⟨HTS10, HTR10⟩, ⟨HTS11, HTR11⟩⟩
  ihave HCR' := (Entails.of_eq (fin12_chain _)) $$ HCR
  icases HCR' with ⟨HCR0, HCR1, HCR2, HCR3, HCR4, HCR5, HCR6, HCR7, HCR8, HCR9, HCR10, HCR11⟩
  ihave HDs := (scratch_split_ex c) $$ [Hscr]
  · iexists f0; iexact Hscr
  icases HDs with ⟨HD0, HD1, HD2, HD3, HD4, HD5, HD6, HD7, HD8, HD9, HD10, HD11⟩
  ihave HP0 := (barPay_give_0 c) $$ [$]
  ihave HP1 := (barPay_give_1 c) $$ [$]
  ihave HP2 := (barPay_give_2 c) $$ [$]
  ihave HX := (x_split m c).1 $$ [Hx]
  · iapply (Entails.of_eq (x_whole_eq m c).symm); iexact Hx
  icases HX with ⟨HS0, HS1, HS2, HxL⟩
  iapply (seg1 m K c W _) $$ [$]
  iintro %v2 %v6 %v8 %v9 %v15 %v21 %v27 HO
  simp only [wp_bind]
  iapply (seg2 m K c v15 v21 v27 W _) $$ [$]
  iintro ⟨HO, HAB, HCS0, HCS1, HCS2, HD3, HD4, HD5, HD6, HD7, HD8, HD9, HD10, HD11, HxL⟩
  iapply (seg3 m K c v2 v15 v21 v27 _ (insert BS W) g2 (iprop(srcP m 4 c ∗ ldP m 0 c ∗ junk0 m c)) (slot0 m c).1 _) $$ [$]
  iintro ⟨Hw, Hout, HAR0, HO, HCS3, HS4, HL0, HJ0⟩
  iapply (seg4 m K c v15 v21 v27 (insert (RS 0) (insert BS W)) (iprop(srcP m 6 c ∗ ldP m 1 c)) (slot1 m c).1 _) $$ [$]
  iintro ⟨HO, HCS4, HAR1, HCS5, HS6, HL1⟩
  iapply (seg5 m K c v15 v21 v27 (insert (RS 1) (insert (RS 0) (insert BS W))) (iprop(ldP m 2 c ∗ junk2 m c)) (slot2 m c).1 _) $$ [$]
  iintro ⟨HO, HCS6, HAR2, HCS7, HCS8, HL2, HJ2⟩
  iapply (seg6 m c v6 v8 v9 qRR qR _ _) $$ [HL0 HL1 Hw Hout]
  · isplitl [HL0]; · (iapply (Entails.of_eq (ldP_0 m c)); iexact HL0)
    isplitl [HL1]; · (iapply (Entails.of_eq (ldP_1 m c)); iexact HL1)
    isplitl [Hw]; · iexact Hw
    iexact Hout
  iintro %r6 ⟨HL0, HL1, Hw, Hout⟩
  ihave HL0 := (Entails.of_eq (ldP_0 m c).symm) $$ HL0
  ihave HL1 := (Entails.of_eq (ldP_1 m c).symm) $$ HL1
  obtain ⟨v176, v177⟩ := r6
  simp only [wp_bind]
  iapply (seg7 m K c v15 v21 v176 v177 qRR (insert (RS 2) (insert (RS 1) (insert (RS 0) (insert BS W)))) _ _) $$ [HL2 Hw Hout HCR3 HAR3 HCR5 HAR5 HO]
  · isplitr; · iexact Hrec
    isplitr; · iexact Hlev
    isplitl [HL2]; · (iapply (Entails.of_eq (ldP_2 m c)); iexact HL2)
    isplitl [Hw]; · iexact Hw
    isplitl [Hout]; · iexact Hout
    isplitl [HCR3]; · iexact HCR3
    isplitl [HAR3]; · iexact HAR3
    isplitl [HCR5]; · iexact HCR5
    isplitl [HAR5]; · iexact HAR5
    iexact HO
  iintro ⟨HL2, Hw, Hout, HO, HAR3, HAR5, HRP3, HRP5⟩
  ihave HL2 := (Entails.of_eq (ldP_2 m c).symm) $$ HL2
  ihave H3 := ((slot3 m c).1) $$ [$]
  icases H3 with ⟨HS9, HL3, HJ3⟩
  iapply (seg8 m K c v15 v27 (insert (RS 5) (insert (RS 3) (insert (RS 2) (insert (RS 1) (insert (RS 0) (insert BS W)))))) _) $$ [$]
  iintro %r8 ⟨HO, HCS9, HAR4, HAR7, HRP4, HRP7⟩
  ihave H4 := ((slot4 m c).1) $$ [$]
  icases H4 with ⟨HS10, HL4, HJ4⟩
  iapply (seg9 m K c v15 v21 v27 r8 (insert (RS 7) (insert (RS 4) (insert (RS 5) (insert (RS 3) (insert (RS 2) (insert (RS 1) (insert (RS 0) (insert BS W)))))))) _) $$ [$]
  iintro %r9 ⟨HO, HCS10, HAR6, HAR8, HRP6, HRP8⟩
  ihave H5 := ((slot5 m c).1) $$ [$]
  icases H5 with ⟨HS11, HL5, HJ5⟩
  iapply (seg10 m K c v6 v8 v9 r9 qR qR (insert (RS 8) (insert (RS 6) (insert (RS 7) (insert (RS 4) (insert (RS 5) (insert (RS 3) (insert (RS 2) (insert (RS 1) (insert (RS 0) (insert BS W)))))))))) _ _) $$ [HO HS11 HD11 HTS11 HTR11 HL3 Hw Hout HL4]
  · isplitr; · iexact Hrec
    isplitl [HO]; · iexact HO
    isplitl [HS11]; · iexact HS11
    isplitl [HD11]; · iexact HD11
    isplitl [HTS11]; · iexact HTS11
    isplitl [HTR11]; · iexact HTR11
    isplitl [HL3]; · (iapply (Entails.of_eq (ldP_3 m c)); iexact HL3)
    isplitl [Hw]; · iexact Hw
    isplitl [Hout]; · iexact Hout
    (iapply (Entails.of_eq (ldP_4 m c)); iexact HL4)
  iintro %v286 ⟨HO, HCS11, HL3, Hw, Hout, HL4⟩
  ihave HL3 := (Entails.of_eq (ldP_3 m c).symm) $$ HL3
  ihave HL4 := (Entails.of_eq (ldP_4 m c).symm) $$ HL4
  simp only [wp_bind]
  iapply (seg11 m K c v6 v8 v9 v15 v286 _ qR (insert (RS 8) (insert (RS 6) (insert (RS 7) (insert (RS 4) (insert (RS 5) (insert (RS 3) (insert (RS 2) (insert (RS 1) (insert (RS 0) (insert BS W)))))))))) _ _) $$ [Hw Hout HL5 HCR11 HAR11 HO]
  · isplitr; · iexact Hrec
    isplitr; · iexact Hlev
    isplitl [Hw]; · iexact Hw
    isplitl [Hout]; · iexact Hout
    isplitl [HL5]; · (iapply (Entails.of_eq (ldP_5 m c)); iexact HL5)
    isplitl [HCR11]; · iexact HCR11
    isplitl [HAR11]; · iexact HAR11
    iexact HO
  iintro ⟨Hw, Hout, HL5, HO, HAR11, HRP11⟩
  ihave HL5 := (Entails.of_eq (ldP_5 m c).symm) $$ HL5
  iapply (seg12 m K c v6 v8 v9 v21 v27 fullShare (insert (RS 11) (insert (RS 8) (insert (RS 6) (insert (RS 7) (insert (RS 4) (insert (RS 5) (insert (RS 3) (insert (RS 2) (insert (RS 1) (insert (RS 0) (insert BS W))))))))))) ((slot6' m c).1.trans (Entails.of_eq (ldP_6 m c))) _) $$ [$]
  iintro %v341 ⟨HO, HAR10, HAR9, HL6, Hw⟩
  ihave HL6 := (Entails.of_eq (ldP_6 m c).symm) $$ HL6
  simp only [wp_bind]
  ihave HO := (Entails.of_eq (OW_12 c _)) $$ HO
  iapply (seg13 m K c v341 _ (insert (RS 9) (insert (RS 10) (insert (RS 11) (insert (RS 8) (insert (RS 6) (insert (RS 7) (insert (RS 4) (insert (RS 5) (insert (RS 3) (insert (RS 2) (insert (RS 1) (insert (RS 0) (insert BS W))))))))))))) _ _) $$ [$]
  iintro ⟨Hout, HO, HAS0, HSP0, HAS1, HSP1, HAS2, HSP2, HAS3, HSP3⟩
  iapply (seg14 m K c (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W))))))))))))))))) _) $$ [$]
  iintro ⟨HO, HAS4, HSP4, HAS5, HSP5, HAS6, HSP6, HAS7, HSP7⟩
  iapply (seg15 m K c (insert (SS 7) (insert (SS 6) (insert (SS 5) (insert (SS 4) (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W))))))))))))))))))))) _) $$ [$]
  iintro ⟨HO, HAS8, HSP8, HAS9, HSP9, HAS10, HSP10⟩
  iapply (step_send_wait_zero m K 11 c (by rfl) (insert (SS 10) (insert (SS 9) (insert (SS 8) (insert (SS 7) (insert (SS 6) (insert (SS 5) (insert (SS 4) (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W))))))))))))))))))))))))) $$ [$]
  iintro ⟨HO, HAS11, HSP11⟩
  imod (close_all m K c) $$ [$] with HZ
  ihave HRP0 := ((slot0 m c).2) $$ [$]
  ihave HRP1 := ((slot1 m c).2) $$ [$]
  ihave HRP2 := ((slot2 m c).2) $$ [$]
  ihave HR35 := ((slot3 m c).2) $$ [$]
  icases HR35 with ⟨HRP3, HRP5⟩
  ihave HR47 := ((slot4 m c).2) $$ [$]
  icases HR47 with ⟨HRP4, HRP7⟩
  ihave HR68 := ((slot5 m c).2) $$ [$]
  icases HR68 with ⟨HRP6, HRP8⟩
  ihave HR6 := (slot6 m c).2 $$ HL6
  icases HR6 with ⟨HRP9, HRP10, HRP11⟩
  ihave Hscr := (scratch_join m c) $$ [$]
  ihave Hx := (((x_split m c).2).trans (Entails.of_eq (x_whole_eq m c))) $$ [$]
  rw [wp_ret]; imodintro
  iapply Hk
  unfold bodyPost Φ₁ Dat.owesAt Pipeline.owesWithin
  rw [show (dats m ρ 0 c).owed t₀.succ = 0 from rfl]
  isplitl [Hscr HZ]
  · isplitl [Hscr]; · iexact Hscr
    iexact HZ
  isplitl [HO]
  · iexists (insert (SS 11) (insert (SS 10) (insert (SS 9) (insert (SS 8) (insert (SS 7) (insert (SS 6) (insert (SS 5) (insert (SS 4) (insert (SS 3) (insert (SS 2) (insert (SS 1) (insert (SS 0) (insert (RS 9) (insert (RS 10) (insert (RS 11) (insert (RS 8) (insert (RS 6) (insert (RS 7) (insert (RS 4) (insert (RS 5) (insert (RS 3) (insert (RS 2) (insert (RS 1) (insert (RS 0) (insert BS W)))))))))))))))))))))))))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _
  isplitr
  rotate_left
  · iexact Hout
  · ipureintro
    rw [pay12_eq, pay3_eq, pay4_eq, pay5_eq, pay6_eq, pay78_eq, pay9_eq, pay10_eq, show xV m c = xstg m c from read_x _, show wV m c = wstg m c from read_w _]
    exact out_writes m c g2

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6) (fun _ => bodyPost m ρ c)
  unfold bodyPre' Φ₀ start
  iintro ⟨⟨⟨⟨%K, Hg⟩, Hrest⟩, Hscr⟩, Ho, Hx, Hw, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hw]; · iexact Hw
    iexact Hout
  · iintro H; iexact H

end Cert.Kernel.AG

end
-- ==== Proof.Bits.Final.lean ====
import proofs.«900494_g7700000000000495_dist_ag_gemm_m2048_k2048_n2048_f32_none_v7x_i8_1_alg».proof.Proof.Bits.Setup
import Idealize.ShloMosaic.Lib.Pipeline.Value
import Idealize.ShloMosaic.Lib.ValueLayout

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem final_x (c : Dev nD) : (dats m ρ 0 c).arrAt (0 : Fin 3) cfg0.N = m ((c : Thread nD τ).loc main_arg0) :=
  (dats (F := F) m ρ 0 c).arrAt_in (0 : Fin 3) rfl _
theorem final_w (c : Dev nD) : (dats m ρ 0 c).arrAt (1 : Fin 3) cfg0.N = m ((c : Thread nD τ).loc main_arg1) :=
  (dats (F := F) m ρ 0 c).arrAt_in (1 : Fin 3) rfl _

/-- The result's one block is the whole result array. -/
theorem final_out (c : Dev nD) : (dats m ρ 0 c).arrAt (2 : Fin 3) cfg0.N = outAt m c := by
  have h : (win0_2.blk (0 : Fin 1)).view.read (Elt F) ((dats m ρ 0 c).arrAt (2 : Fin 3) cfg0.N) = outAt m c := by
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  rw [hr] at h
  exact h

end Cert.Kernel.AG

end
-- ==== Proof.Claims.lean ====
import proofs.«900494_g7700000000000495_dist_ag_gemm_m2048_k2048_n2048_f32_none_v7x_i8_1_alg».proof.Defs
import proofs.«900494_g7700000000000495_dist_ag_gemm_m2048_k2048_n2048_f32_none_v7x_i8_1_alg».proof.Proof.Gen.Pre_finite_inputs_Kernel
import proofs.«900494_g7700000000000495_dist_ag_gemm_m2048_k2048_n2048_f32_none_v7x_i8_1_alg».proof.Proof.Gen.Pre_finite_inputs_ReferenceIdeal
import proofs.«900494_g7700000000000495_dist_ag_gemm_m2048_k2048_n2048_f32_none_v7x_i8_1_alg».proof.Proof.Launch
import proofs.«900494_g7700000000000495_dist_ag_gemm_m2048_k2048_n2048_f32_none_v7x_i8_1_alg».proof.Proof.Body
import proofs.«900494_g7700000000000495_dist_ag_gemm_m2048_k2048_n2048_f32_none_v7x_i8_1_alg».proof.Proof.Final
import proofs.«900494_g7700000000000495_dist_ag_gemm_m2048_k2048_n2048_f32_none_v7x_i8_1_alg».proof.Proof.ValueI
import proofs.«900494_g7700000000000495_dist_ag_gemm_m2048_k2048_n2048_f32_none_v7x_i8_1_alg».proof.Proof.Bits.Launch
import proofs.«900494_g7700000000000495_dist_ag_gemm_m2048_k2048_n2048_f32_none_v7x_i8_1_alg».proof.Proof.Bits.Body
import proofs.«900494_g7700000000000495_dist_ag_gemm_m2048_k2048_n2048_f32_none_v7x_i8_1_alg».proof.Proof.Bits.Final
import Idealize.ShloMosaic.Adequacy
import Idealize.ShloMosaic.Init

noncomputable section

namespace Cert.Proof.AGClaims

open Idealize.ShloMosaic Idealize.ShloMosaic.TcCoe Idealize.SL.Sem
open Idealize.ShloMosaic.Pipeline (BodyObligation)

theorem frame_k : Cert.frame_Kernel := by
  intro m ρ _
  exact (θ_run (Cert.Kernel.defs (F := Bits)) _ _).mono
    (fun _ h c => ⟨(h c (0 : Fin 3)).trans (Cert.Kernel.AG.final_x m ρ c), (h c (1 : Fin 3)).trans (Cert.Kernel.AG.final_w m ρ c)⟩)
    (Cert.Kernel.AG.run_main (F := Bits) m ρ (Cert.Kernel.AG.body_obligation m ρ))

theorem frame_ki : Cert.frame_KernelIdeal := by
  intro m ρ _
  exact (θ_run (Cert.KernelIdeal.defs (F := Ideal)) _ _).mono
    (fun _ h c => ⟨(h c (0 : Fin 3)).trans (Cert.KernelIdeal.AG.final_x m ρ c), (h c (1 : Fin 3)).trans (Cert.KernelIdeal.AG.final_w m ρ c)⟩)
    (Cert.KernelIdeal.AG.run_main (F := Ideal) m ρ (Cert.KernelIdeal.AG.body_obligation m ρ))

theorem frame_r : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨Host.dotGeneral (F := Ideal) (φ₁ := .f32) (φ₂ := .f32) Cert.ReferenceIdeal.dot_S2048x2048_S2048x2048_S2048x2048_1_0_0_1_n_n none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono
      (fun _ h c => ⟨(h c (2 : Fin 3)).trans ((Cert.KernelIdeal.AG.final_out m ρ c).trans
          (Cert.KernelIdeal.AG.out_block m _ _ (fun c => (hagree c).1) (fun c => (hagree c).2) c)),
        (h c (0 : Fin 3)).trans (Cert.KernelIdeal.AG.final_x m ρ c), (h c (1 : Fin 3)).trans (Cert.KernelIdeal.AG.final_w m ρ c)⟩)
      (Cert.KernelIdeal.AG.run_main (F := Ideal) m ρ (Cert.KernelIdeal.AG.body_obligation m ρ))
  · exact (θ_run Cert.ReferenceIdeal.defs _ _).mono (fun _ h => h 0) (Cert.ReferenceIdeal.Value.run (F := Ideal) m' ρ')

end Cert.Proof.AGClaims

end
-- ==== Proof.lean ====
/- Eight devices on a 3-cube gather the row blocks of `x` (one hop, then halves over two, then thirds over three) while each
   multiplies every block it holds by its own column block of `w`; the five conjuncts are `Cert.Proof.AGClaims`'. -/
import proofs.«900494_g7700000000000495_dist_ag_gemm_m2048_k2048_n2048_f32_none_v7x_i8_1_alg».proof.Defs
import proofs.«900494_g7700000000000495_dist_ag_gemm_m2048_k2048_n2048_f32_none_v7x_i8_1_alg».proof.Proof.Gen.Kernel
import proofs.«900494_g7700000000000495_dist_ag_gemm_m2048_k2048_n2048_f32_none_v7x_i8_1_alg».proof.Proof.Gen.Kernel.Skeleton
import proofs.«900494_g7700000000000495_dist_ag_gemm_m2048_k2048_n2048_f32_none_v7x_i8_1_alg».proof.Proof.Gen.Kernel.Launch
import proofs.«900494_g7700000000000495_dist_ag_gemm_m2048_k2048_n2048_f32_none_v7x_i8_1_alg».proof.Proof.Gen.Kernel.Points
import proofs.«900494_g7700000000000495_dist_ag_gemm_m2048_k2048_n2048_f32_none_v7x_i8_1_alg».proof.Proof.Gen.Kernel.Frame
import proofs.«900494_g7700000000000495_dist_ag_gemm_m2048_k2048_n2048_f32_none_v7x_i8_1_alg».proof.Proof.Gen.KernelIdeal
import proofs.«900494_g7700000000000495_dist_ag_gemm_m2048_k2048_n2048_f32_none_v7x_i8_1_alg».proof.Proof.Gen.KernelIdeal.Skeleton
import proofs.«900494_g7700000000000495_dist_ag_gemm_m2048_k2048_n2048_f32_none_v7x_i8_1_alg».proof.Proof.Gen.KernelIdeal.Launch
import proofs.«900494_g7700000000000495_dist_ag_gemm_m2048_k2048_n2048_f32_none_v7x_i8_1_alg».proof.Proof.Gen.KernelIdeal.Points
import proofs.«900494_g7700000000000495_dist_ag_gemm_m2048_k2048_n2048_f32_none_v7x_i8_1_alg».proof.Proof.Gen.KernelIdeal.Frame
import proofs.«900494_g7700000000000495_dist_ag_gemm_m2048_k2048_n2048_f32_none_v7x_i8_1_alg».proof.Proof.Gen.ReferenceIdeal
import proofs.«900494_g7700000000000495_dist_ag_gemm_m2048_k2048_n2048_f32_none_v7x_i8_1_alg».proof.Proof.Gen.Pre_finite_inputs_Kernel
import proofs.«900494_g7700000000000495_dist_ag_gemm_m2048_k2048_n2048_f32_none_v7x_i8_1_alg».proof.Proof.Gen.Pre_finite_inputs_ReferenceIdeal
import proofs.«900494_g7700000000000495_dist_ag_gemm_m2048_k2048_n2048_f32_none_v7x_i8_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, AGClaims.frame_k, AGClaims.frame_ki, AGClaims.frame_r, AGClaims.preserves, AGClaims.algebraic⟩

end Cert.Proof

end
